-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v110)) (v1 : (c : Dev Cert.KernelIdeal.nD) → Buf (Elt Ideal) ((c.tc : Thread Cert.KernelIdeal.nD Cert.KernelIdeal.τ).loc Cert.KernelIdeal.main_v156)) (v2 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_v156) = v1 c
          ∧ r.2.mem ((c.tc : Thread Cert.KernelIdeal.nD Cert.KernelIdeal.τ).loc Cert.KernelIdeal.main_v157) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x25 : Shape := ⟨2, ![50000, 25]⟩
abbrev S50000x10 : Shape := ⟨2, ![50000, 10]⟩
abbrev S3x20000x128 : Shape := ⟨3, ![3, 20000, 128]⟩
abbrev S256x128 : Shape := ⟨2, ![256, 128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x20000x128 : S_.BroadcastsInDim S3x20000x128 (![] : Fin 0 → Fin S3x20000x128.rank)
  reducesTo_S3x20000x128_S_d0_1_2 : S3x20000x128.ReducesTo [0, 1, 2] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S50000x25 : S_.BroadcastsInDim S50000x25 (![] : Fin 0 → Fin S50000x25.rank)
  reducesTo_S50000x25_S_d0_1 : S50000x25.ReducesTo [0, 1] S_
  bcast_S_S50000x10 : S_.BroadcastsInDim S50000x10 (![] : Fin 0 → Fin S50000x10.rank)
  reducesTo_S50000x10_S_d0_1 : S50000x10.ReducesTo [0, 1] S_

variable [Facts]

def fn_part2 {F : FTy → Type} [FloatOps F] (main_arg1 : IVec S50000x25 32) (main_arg2 : IVec S50000x10 32) (main_v33 : IVec S_ 1) : IVec S_ 1 :=
  let main_c_12 : IVec S_ 32 := constantI S_ 32 0#32
  let main_v34 : IVec S50000x25 32 := broadcastInDim S50000x25 ![] bcast_S_S50000x25 main_c_12
  let main_v35 : IVec S50000x25 1 := cmpi .sge main_arg1 main_v34
  let main_c_13 : IVec S_ 32 := constantI S_ 32 50000#32
  let main_v36 : IVec S50000x25 32 := broadcastInDim S50000x25 ![] bcast_S_S50000x25 main_c_13
  let main_v37 : IVec S50000x25 1 := cmpi .slt main_arg1 main_v36
  let main_v38 : IVec S50000x25 1 := andi main_v35 main_v37
  let main_c_14 : IVec S_ 1 := constantI S_ 1 1#1
  let main_v39 : IVec S_ 1 := (fun x v => Host.reduce IntOp.andi x v reducesTo_S50000x25_S_d0_1 h_S_) main_v38 main_c_14
  let main_v40 : IVec S_ 1 := andi main_v33 main_v39
  let main_c_15 : IVec S_ 32 := constantI S_ 32 0#32
  let main_v41 : IVec S50000x10 32 := broadcastInDim S50000x10 ![] bcast_S_S50000x10 main_c_15
  let main_v42 : IVec S50000x10 1 := cmpi .sge main_arg2 main_v41
  let main_c_16 : IVec S_ 32 := constantI S_ 32 50000#32
  let main_v43 : IVec S50000x10 32 := broadcastInDim S50000x10 ![] bcast_S_S50000x10 main_c_16
  let main_v44 : IVec S50000x10 1 := cmpi .slt main_arg2 main_v43
  let main_v45 : IVec S50000x10 1 := andi main_v42 main_v44
  let main_c_17 : IVec S_ 1 := constantI S_ 1 1#1
  let main_v46 : IVec S_ 1 := (fun x v => Host.reduce IntOp.andi x v reducesTo_S50000x10_S_d0_1 h_S_) main_v45 main_c_17
  let main_v47 : IVec S_ 1 := andi main_v40 main_v46
  main_v47

def fn_part1 {F : FTy → Type} [FloatOps F] (main_arg1 : IVec S50000x25 32) (main_arg2 : IVec S50000x10 32) (main_arg6 : FVec F S256x128 .f32) (main_arg7 : FVec F S128x128 .f32) (main_arg8 : FVec F S256x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg1 main_arg2 main_v33

def fn {F : FTy → Type} [FloatOps F] (main_arg0 : FVec F S50000x128 .f32) (main_arg1 : IVec S50000x25 32) (main_arg2 : IVec S50000x10 32) (main_arg3 : FVec F S3x20000x128 .f32) (main_arg4 : FVec F S3x20000x128 .f32) (main_arg5 : FVec F S256x128 .f32) (main_arg6 : FVec F S256x128 .f32) (main_arg7 : FVec F S128x128 .f32) (main_arg8 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x20000x128 .f32 := Host.absf main_arg3
  let main_cst_0 : FVec F S_ .f32 := constant S_ .f32 0x7F800000#32
  let main_v5 : FVec F S3x20000x128 .f32 := broadcastInDim S3x20000x128 ![] bcast_S_S3x20000x128 main_cst_0
  let main_v6 : IVec S3x20000x128 1 := cmpf .olt main_v4 main_v5
  let main_c_1 : IVec S_ 1 := constantI S_ 1 1#1
  let main_v7 : IVec S_ 1 := (fun x v => Host.reduce IntOp.andi x v reducesTo_S3x20000x128_S_d0_1_2 h_S_) main_v6 main_c_1
  let main_v8 : IVec S_ 1 := andi main_v3 main_v7
  let main_v9 : FVec F S3x20000x128 .f32 := Host.absf main_arg4
  let main_cst_2 : FVec F S_ .f32 := constant S_ .f32 0x7F800000#32
  let main_v10 : FVec F S3x20000x128 .f32 := broadcastInDim S3x20000x128 ![] bcast_S_S3x20000x128 main_cst_2
  let main_v11 : IVec S3x20000x128 1 := cmpf .olt main_v9 main_v10
  let main_c_3 : IVec S_ 1 := constantI S_ 1 1#1
  let main_v12 : IVec S_ 1 := (fun x v => Host.reduce IntOp.andi x v reducesTo_S3x20000x128_S_d0_1_2 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg2 main_arg6 main_arg7 main_arg8 main_v13 main_v16
-- ==== Kernel.lean ====
abbrev S50000x128 : Shape := ⟨2, ![50000, 128]⟩
abbrev S50000x25 : Shape := ⟨2, ![50000, 25]⟩
abbrev S50000x10 : Shape := ⟨2, ![50000, 10]⟩
abbrev S3x20000x128 : Shape := ⟨3, ![3, 20000, 128]⟩
abbrev S256x128 : Shape := ⟨2, ![256, 128]⟩
abbrev S128x128 : Shape := ⟨2, ![128, 128]⟩
abbrev S_ : Shape := ⟨0, ![]⟩
abbrev S50000x1 : Shape := ⟨2, ![50000, 1]⟩
abbrev S50000 : Shape := ⟨1, ![50000]⟩
abbrev S1 : Shape := ⟨1, ![1]⟩
abbrev S1x1 : Shape := ⟨2, ![1, 1]⟩
abbrev S5000x128 : Shape := ⟨2, ![5000, 128]⟩
abbrev S5000 : Shape := ⟨1, ![5000]⟩
abbrev S5000x1 : Shape := ⟨2, ![5000, 1]⟩
abbrev S2000x128 : Shape := ⟨2, ![2000, 128]⟩
abbrev S3x2000x128 : Shape := ⟨3, ![3, 2000, 128]⟩
abbrev S1x2000x128 : Shape := ⟨3, ![1, 2000, 128]⟩
abbrev S2000 : Shape := ⟨1, ![2000]⟩
abbrev S2000x1 : Shape := ⟨2, ![2000, 1]⟩

abbrev nBuf : Space → Nat
  | .hbm => 941
  | .vmem => 34
  | .smem => 0
  | _ => 0

abbrev hbmTy0_0 (i : Nat) : BufTy := match i % 128 with
  | 0 => ⟨S50000x128, .f32⟩
  | 1 => ⟨S50000x25, .i32⟩
  | 2 => ⟨S50000x10, .i32⟩
  | 3 => ⟨S3x20000x128, .f32⟩
  | 4 => ⟨S3x20000x128, .f32⟩
  | 5 => ⟨S256x128, .f32⟩
  | 6 => ⟨S256x128, .f32⟩
  | 7 => ⟨S128x128, .f32⟩
  | 8 => ⟨S256x128, .f32⟩
  | 9 => ⟨S128x128, .f32⟩
  | 10 => ⟨S128x128, .f32⟩
  | 11 => ⟨S128x128, .f32⟩
  | 12 => ⟨S128x128, .f32⟩
  | 13 => ⟨S128x128, .f32⟩
  | 14 => ⟨S128x128, .f32⟩
  | 15 => ⟨S_, .f32⟩
  | 16 => ⟨S50000x128, .f32⟩
  | 17 => ⟨S50000x1, .i32⟩
  | 18 => ⟨S50000, .i32⟩
  | 19 => ⟨S_, .i32⟩
  | 20 => ⟨S50000, .i32⟩
  | 21 => ⟨S50000, .i1⟩
  | 22 => ⟨S_, .i32⟩
  | 23 => ⟨S50000, .i32⟩
  | 24 => ⟨S50000, .i32⟩
  | 25 => ⟨S50000, .i32⟩
  | 26 => ⟨S50000x1, .i32⟩
  | 27 => ⟨S1, .i32⟩
  | 28 => ⟨S_, .i32⟩
  | 29 => ⟨S50000x1, .i32⟩
  | 30 => ⟨S50000x1, .i1⟩
  | 31 => ⟨S1x1, .i32⟩
  | 32 => ⟨S50000x1, .i32⟩
  | 33 => ⟨S50000x1, .i1⟩
  | 34 => ⟨S50000x1, .i1⟩
  | 35 => ⟨S_, .i1⟩
  | 36 => ⟨S50000, .i1⟩
  | 37 => ⟨S50000x128, .f32⟩
  | 38 => ⟨S50000x128, .i1⟩
  | 39 => ⟨S_, .f32⟩
  | 40 => ⟨S50000x128, .f32⟩
  | 41 => ⟨S50000x128, .f32⟩
  | 42 => ⟨S50000x128, .f32⟩
  | 43 => ⟨S50000x1, .i32⟩
  | 44 => ⟨S50000, .i32⟩
  | 45 => ⟨S_, .i32⟩
  | 46 => ⟨S50000, .i32⟩
  | 47 => ⟨S50000, .i1⟩
  | 48 => ⟨S_, .i32⟩
  | 49 => ⟨S50000, .i32⟩
  | 50 => ⟨S50000, .i32⟩
  | 51 => ⟨S50000, .i32⟩
  | 52 => ⟨S50000x1, .i32⟩
  | 53 => ⟨S1, .i32⟩
  | 54 => ⟨S_, .i32⟩
  | 55 => ⟨S50000x1, .i32⟩
  | 56 => ⟨S50000x1, .i1⟩
  | 57 => ⟨S1x1, .i32⟩
  | 58 => ⟨S50000x1, .i32⟩
  | 59 => ⟨S50000x1, .i1⟩
  | 60 => ⟨S50000x1, .i1⟩
  | 61 => ⟨S_, .i1⟩
  | 62 => ⟨S50000, .i1⟩
  | 63 => ⟨S50000x128, .f32⟩
  | 64 => ⟨S50000x128, .i1⟩
  | 65 => ⟨S_, .f32⟩
  | 66 => ⟨S50000x128, .f32⟩
  | 67 => ⟨S50000x128, .f32⟩
  | 68 => ⟨S50000x128, .f32⟩
  | 69 => ⟨S50000x1, .i32⟩
  | 70 => ⟨S50000, .i32⟩
  | 71 => ⟨S_, .i32⟩
  | 72 => ⟨S50000, .i32⟩
  | 73 => ⟨S50000, .i1⟩
  | 74 => ⟨S_, .i32⟩
  | 75 => ⟨S50000, .i32⟩
  | 76 => ⟨S50000, .i32⟩
  | 77 => ⟨S50000, .i32⟩
  | 78 => ⟨S50000x1, .i32⟩
  | 79 => ⟨S1, .i32⟩
  | 80 => ⟨S_, .i32⟩
  | 81 => ⟨S50000x1, .i32⟩
  | 82 => ⟨S50000x1, .i1⟩
  | 83 => ⟨S1x1, .i32⟩
  | 84 => ⟨S50000x1, .i32⟩
  | 85 => ⟨S50000x1, .i1⟩
  | 86 => ⟨S50000x1, .i1⟩
  | 87 => ⟨S_, .i1⟩
  | 88 => ⟨S50000, .i1⟩
  | 89 => ⟨S50000x128, .f32⟩
  | 90 => ⟨S50000x128, .i1⟩
  | 91 => ⟨S_, .f32⟩
  | 92 => ⟨S50000x128, .f32⟩
  | 93 => ⟨S50000x128, .f32⟩
  | 94 => ⟨S50000x128, .f32⟩
  | 95 => ⟨S50000x1, .i32⟩
  | 96 => ⟨S50000, .i32⟩
  | 97 => ⟨S_, .i32⟩
  | 98 => ⟨S50000, .i32⟩
  | 99 => ⟨S50000, .i1⟩
  | 100 => ⟨S_, .i32⟩
  | 101 => ⟨S50000, .i32⟩
  | 102 => ⟨S50000, .i32⟩
  | 103 => ⟨S50000, .i32⟩
  | 104 => ⟨S50000x1, .i32⟩
  | 105 => ⟨S1, .i32⟩
  | 106 => ⟨S_, .i32⟩
  | 107 => ⟨S50000x1, .i32⟩
  | 108 => ⟨S50000x1, .i1⟩
  | 109 => ⟨S1x1, .i32⟩
  | 110 => ⟨S50000x1, .i32⟩
  | 111 => ⟨S50000x1, .i1⟩
  | 112 => ⟨S50000x1, .i1⟩
  | 113 => ⟨S_, .i1⟩
  | 114 => ⟨S50000, .i1⟩
  | 115 => ⟨S50000x128, .f32⟩
  | 116 => ⟨S50000x128, .i1⟩
  | 117 => ⟨S_, .f32⟩
  | 118 => ⟨S50000x128, .f32⟩
  | 119 => ⟨S50000x128, .f32⟩
  | 120 => ⟨S50000x128, .f32⟩
  | 121 => ⟨S50000x1, .i32⟩
  | 122 => ⟨S50000, .i32⟩
  | 123 => ⟨S_, .i32⟩
  | 124 => ⟨S50000, .i32⟩
  | 125 => ⟨S50000, .i1⟩
  | 126 => ⟨S_, .i32⟩
  | 127 => ⟨S50000, .i32⟩
  | _ => ⟨S50000x128, .f32⟩

abbrev hbmTy0_1 (i : Nat) : BufTy := match i % 128 with
  | 0 => ⟨S50000, .i32⟩
  | 1 => ⟨S50000, .i32⟩
  | 2 => ⟨S50000x1, .i32⟩
  | 3 => ⟨S1, .i32⟩
  | 4 => ⟨S_, .i32⟩
  | 5 => ⟨S50000x1, .i32⟩
  | 6 => ⟨S50000x1, .i1⟩
  | 7 => ⟨S1x1, .i32⟩
  | 8 => ⟨S50000x1, .i32⟩
  | 9 => ⟨S50000x1, .i1⟩
  | 10 => ⟨S50000x1, .i1⟩
  | 11 => ⟨S_, .i1⟩
  | 12 => ⟨S50000, .i1⟩
  | 13 => ⟨S50000x128, .f32⟩
  | 14 => ⟨S50000x128, .i1⟩
  | 15 => ⟨S_, .f32⟩
  | 16 => ⟨S50000x128, .f32⟩
  | 17 => ⟨S50000x128, .f32⟩
  | 18 => ⟨S50000x128, .f32⟩
  | 19 => ⟨S50000x1, .i32⟩
  | 20 => ⟨S50000, .i32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S1, .i32⟩
  | 30 => ⟨S_, .i32⟩
  | 31 => ⟨S50000x1, .i32⟩
  | 32 => ⟨S50000x1, .i1⟩
  | 33 => ⟨S1x1, .i32⟩
  | 34 => ⟨S50000x1, .i32⟩
  | 35 => ⟨S50000x1, .i1⟩
  | 36 => ⟨S50000x1, .i1⟩
  | 37 => ⟨S_, .i1⟩
  | 38 => ⟨S50000, .i1⟩
  | 39 => ⟨S50000x128, .f32⟩
  | 40 => ⟨S50000x128, .i1⟩
  | 41 => ⟨S_, .f32⟩
  | 42 => ⟨S50000x128, .f32⟩
  | 43 => ⟨S50000x128, .f32⟩
  | 44 => ⟨S50000x128, .f32⟩
  | 45 => ⟨S50000x1, .i32⟩
  | 46 => ⟨S50000, .i32⟩
  | 47 => ⟨S_, .i32⟩
  | 48 => ⟨S50000, .i32⟩
  | 49 => ⟨S50000, .i1⟩
  | 50 => ⟨S_, .i32⟩
  | 51 => ⟨S50000, .i32⟩
  | 52 => ⟨S50000, .i32⟩
  | 53 => ⟨S50000, .i32⟩
  | 54 => ⟨S50000x1, .i32⟩
  | 55 => ⟨S1, .i32⟩
  | 56 => ⟨S_, .i32⟩
  | 57 => ⟨S50000x1, .i32⟩
  | 58 => ⟨S50000x1, .i1⟩
  | 59 => ⟨S1x1, .i32⟩
  | 60 => ⟨S50000x1, .i32⟩
  | 61 => ⟨S50000x1, .i1⟩
  | 62 => ⟨S50000x1, .i1⟩
  | 63 => ⟨S_, .i1⟩
  | 64 => ⟨S50000, .i1⟩
  | 65 => ⟨S50000x128, .f32⟩
  | 66 => ⟨S50000x128, .i1⟩
  | 67 => ⟨S_, .f32⟩
  | 68 => ⟨S50000x128, .f32⟩
  | 69 => ⟨S50000x128, .f32⟩
  | 70 => ⟨S50000x128, .f32⟩
  | 71 => ⟨S50000x1, .i32⟩
  | 72 => ⟨S50000, .i32⟩
  | 73 => ⟨S_, .i32⟩
  | 74 => ⟨S50000, .i32⟩
  | 75 => ⟨S50000, .i1⟩
  | 76 => ⟨S_, .i32⟩
  | 77 => ⟨S50000, .i32⟩
  | 78 => ⟨S50000, .i32⟩
  | 79 => ⟨S50000, .i32⟩
  | 80 => ⟨S50000x1, .i32⟩
  | 81 => ⟨S1, .i32⟩
  | 82 => ⟨S_, .i32⟩
  | 83 => ⟨S50000x1, .i32⟩
  | 84 => ⟨S50000x1, .i1⟩
  | 85 => ⟨S1x1, .i32⟩
  | 86 => ⟨S50000x1, .i32⟩
  | 87 => ⟨S50000x1, .i1⟩
  | 88 => ⟨S50000x1, .i1⟩
  | 89 => ⟨S_, .i1⟩
  | 90 => ⟨S50000, .i1⟩
  | 91 => ⟨S50000x128, .f32⟩
  | 92 => ⟨S50000x128, .i1⟩
  | 93 => ⟨S_, .f32⟩
  | 94 => ⟨S50000x128, .f32⟩
  | 95 => ⟨S50000x128, .f32⟩
  | 96 => ⟨S50000x128, .f32⟩
  | 97 => ⟨S50000x1, .i32⟩
  | 98 => ⟨S50000, .i32⟩
  | 99 => ⟨S_, .i32⟩
  | 100 => ⟨S50000, .i32⟩
  | 101 => ⟨S50000, .i1⟩
  | 102 => ⟨S_, .i32⟩
  | 103 => ⟨S50000, .i32⟩
  | 104 => ⟨S50000, .i32⟩
  | 105 => ⟨S50000, .i32⟩
  | 106 => ⟨S50000x1, .i32⟩
  | 107 => ⟨S1, .i32⟩
  | 108 => ⟨S_, .i32⟩
  | 109 => ⟨S50000x1, .i32⟩
  | 110 => ⟨S50000x1, .i1⟩
  | 111 => ⟨S1x1, .i32⟩
  | 112 => ⟨S50000x1, .i32⟩
  | 113 => ⟨S50000x1, .i1⟩
  | 114 => ⟨S50000x1, .i1⟩
  | 115 => ⟨S_, .i1⟩
  | 116 => ⟨S50000, .i1⟩
  | 117 => ⟨S50000x128, .f32⟩
  | 118 => ⟨S50000x128, .i1⟩
  | 119 => ⟨S_, .f32⟩
  | 120 => ⟨S50000x128, .f32⟩
  | 121 => ⟨S50000x128, .f32⟩
  | 122 => ⟨S50000x128, .f32⟩
  | 123 => ⟨S50000x1, .i32⟩
  | 124 => ⟨S50000, .i32⟩
  | 125 => ⟨S_, .i32⟩
  | 126 => ⟨S50000, .i32⟩
  | 127 => ⟨S50000, .i1⟩
  | _ => ⟨S50000x128, .f32⟩

abbrev hbmTy0_2 (i : Nat) : BufTy := match i % 128 with
  | 0 => ⟨S_, .i32⟩
  | 1 => ⟨S50000, .i32⟩
  | 2 => ⟨S50000, .i32⟩
  | 3 => ⟨S50000, .i32⟩
  | 4 => ⟨S50000x1, .i32⟩
  | 5 => ⟨S1, .i32⟩
  | 6 => ⟨S_, .i32⟩
  | 7 => ⟨S50000x1, .i32⟩
  | 8 => ⟨S50000x1, .i1⟩
  | 9 => ⟨S1x1, .i32⟩
  | 10 => ⟨S50000x1, .i32⟩
  | 11 => ⟨S50000x1, .i1⟩
  | 12 => ⟨S50000x1, .i1⟩
  | 13 => ⟨S_, .i1⟩
  | 14 => ⟨S50000, .i1⟩
  | 15 => ⟨S50000x128, .f32⟩
  | 16 => ⟨S50000x128, .i1⟩
  | 17 => ⟨S_, .f32⟩
  | 18 => ⟨S50000x128, .f32⟩
  | 19 => ⟨S50000x128, .f32⟩
  | 20 => ⟨S50000x128, .f32⟩
  | 21 => ⟨S50000x1, .i32⟩
  | 22 => ⟨S50000, .i32⟩
  | 23 => ⟨S_, .i32⟩
  | 24 => ⟨S50000, .i32⟩
  | 25 => ⟨S50000, .i1⟩
  | 26 => ⟨S_, .i32⟩
  | 27 => ⟨S50000, .i32⟩
  | 28 => ⟨S50000, .i32⟩
  | 29 => ⟨S50000, .i32⟩
  | 30 => ⟨S50000x1, .i32⟩
  | 31 => ⟨S1, .i32⟩
  | 32 => ⟨S_, .i32⟩
  | 33 => ⟨S50000x1, .i32⟩
  | 34 => ⟨S50000x1, .i1⟩
  | 35 => ⟨S1x1, .i32⟩
  | 36 => ⟨S50000x1, .i32⟩
  | 37 => ⟨S50000x1, .i1⟩
  | 38 => ⟨S50000x1, .i1⟩
  | 39 => ⟨S_, .i1⟩
  | 40 => ⟨S50000, .i1⟩
  | 41 => ⟨S50000x128, .f32⟩
  | 42 => ⟨S50000x128, .i1⟩
  | 43 => ⟨S_, .f32⟩
  | 44 => ⟨S50000x128, .f32⟩
  | 45 => ⟨S50000x128, .f32⟩
  | 46 => ⟨S50000x128, .f32⟩
  | 47 => ⟨S50000x1, .i32⟩
  | 48 => ⟨S50000, .i32⟩
  | 49 => ⟨S_, .i32⟩
  | 50 => ⟨S50000, .i32⟩
  | 51 => ⟨S50000, .i1⟩
  | 52 => ⟨S_, .i32⟩
  | 53 => ⟨S50000, .i32⟩
  | 54 => ⟨S50000, .i32⟩
  | 55 => ⟨S50000, .i32⟩
  | 56 => ⟨S50000x1, .i32⟩
  | 57 => ⟨S1, .i32⟩
  | 58 => ⟨S_, .i32⟩
  | 59 => ⟨S50000x1, .i32⟩
  | 60 => ⟨S50000x1, .i1⟩
  | 61 => ⟨S1x1, .i32⟩
  | 62 => ⟨S50000x1, .i32⟩
  | 63 => ⟨S50000x1, .i1⟩
  | 64 => ⟨S50000x1, .i1⟩
  | 65 => ⟨S_, .i1⟩
  | 66 => ⟨S50000, .i1⟩
  | 67 => ⟨S50000x128, .f32⟩
  | 68 => ⟨S50000x128, .i1⟩
  | 69 => ⟨S_, .f32⟩
  | 70 => ⟨S50000x128, .f32⟩
  | 71 => ⟨S50000x128, .f32⟩
  | 72 => ⟨S50000x128, .f32⟩
  | 73 => ⟨S50000x1, .i32⟩
  | 74 => ⟨S50000, .i32⟩
  | 75 => ⟨S_, .i32⟩
  | 76 => ⟨S50000, .i32⟩
  | 77 => ⟨S50000, .i1⟩
  | 78 => ⟨S_, .i32⟩
  | 79 => ⟨S50000, .i32⟩
  | 80 => ⟨S50000, .i32⟩
  | 81 => ⟨S50000, .i32⟩
  | 82 => ⟨S50000x1, .i32⟩
  | 83 => ⟨S1, .i32⟩
  | 84 => ⟨S_, .i32⟩
  | 85 => ⟨S50000x1, .i32⟩
  | 86 => ⟨S50000x1, .i1⟩
  | 87 => ⟨S1x1, .i32⟩
  | 88 => ⟨S50000x1, .i32⟩
  | 89 => ⟨S50000x1, .i1⟩
  | 90 => ⟨S50000x1, .i1⟩
  | 91 => ⟨S_, .i1⟩
  | 92 => ⟨S50000, .i1⟩
  | 93 => ⟨S50000x128, .f32⟩
  | 94 => ⟨S50000x128, .i1⟩
  | 95 => ⟨S_, .f32⟩
  | 96 => ⟨S50000x128, .f32⟩
  | 97 => ⟨S50000x128, .f32⟩
  | 98 => ⟨S50000x128, .f32⟩
  | 99 => ⟨S50000x1, .i32⟩
  | 100 => ⟨S50000, .i32⟩
  | 101 => ⟨S_, .i32⟩
  | 102 => ⟨S50000, .i32⟩
  | 103 => ⟨S50000, .i1⟩
  | 104 => ⟨S_, .i32⟩
  | 105 => ⟨S50000, .i32⟩
  | 106 => ⟨S50000, .i32⟩
  | 107 => ⟨S50000, .i32⟩
  | 108 => ⟨S50000x1, .i32⟩
  | 109 => ⟨S1, .i32⟩
  | 110 => ⟨S_, .i32⟩
  | 111 => ⟨S50000x1, .i32⟩
  | 112 => ⟨S50000x1, .i1⟩
  | 113 => ⟨S1x1, .i32⟩
  | 114 => ⟨S50000x1, .i32⟩
  | 115 => ⟨S50000x1, .i1⟩
  | 116 => ⟨S50000x1, .i1⟩
  | 117 => ⟨S_, .i1⟩
  | 118 => ⟨S50000, .i1⟩
  | 119 => ⟨S50000x128, .f32⟩
  | 120 => ⟨S50000x128, .i1⟩
  | 121 => ⟨S_, .f32⟩
  | 122 => ⟨S50000x128, .f32⟩
  | 123 => ⟨S50000x128, .f32⟩
  | 124 => ⟨S50000x128, .f32⟩
  | 125 => ⟨S50000x1, .i32⟩
  | 126 => ⟨S50000, .i32⟩
  | 127 => ⟨S_, .i32⟩
  | _ => ⟨S50000x128, .f32⟩

abbrev hbmTy0_3 (i : Nat) : BufTy := match i % 128 with
  | 0 => ⟨S50000, .i32⟩
  | 1 => ⟨S50000, .i1⟩
  | 2 => ⟨S_, .i32⟩
  | 3 => ⟨S50000, .i32⟩
  | 4 => ⟨S50000, .i32⟩
  | 5 => ⟨S50000, .i32⟩
  | 6 => ⟨S50000x1, .i32⟩
  | 7 => ⟨S1, .i32⟩
  | 8 => ⟨S_, .i32⟩
  | 9 => ⟨S50000x1, .i32⟩
  | 10 => ⟨S50000x1, .i1⟩
  | 11 => ⟨S1x1, .i32⟩
  | 12 => ⟨S50000x1, .i32⟩
  | 13 => ⟨S50000x1, .i1⟩
  | 14 => ⟨S50000x1, .i1⟩
  | 15 => ⟨S_, .i1⟩
  | 16 => ⟨S50000, .i1⟩
  | 17 => ⟨S50000x128, .f32⟩
  | 18 => ⟨S50000x128, .i1⟩
  | 19 => ⟨S_, .f32⟩
  | 20 => ⟨S50000x128, .f32⟩
  | 21 => ⟨S50000x128, .f32⟩
  | 22 => ⟨S50000x128, .f32⟩
  | 23 => ⟨S50000x1, .i32⟩
  | 24 => ⟨S50000, .i32⟩
  | 25 => ⟨S_, .i32⟩
  | 26 => ⟨S50000, .i32⟩
  | 27 => ⟨S50000, .i1⟩
  | 28 => ⟨S_, .i32⟩
  | 29 => ⟨S50000, .i32⟩
  | 30 => ⟨S50000, .i32⟩
  | 31 => ⟨S50000, .i32⟩
  | 32 => ⟨S50000x1, .i32⟩
  | 33 => ⟨S1, .i32⟩
  | 34 => ⟨S_, .i32⟩
  | 35 => ⟨S50000x1, .i32⟩
  | 36 => ⟨S50000x1, .i1⟩
  | 37 => ⟨S1x1, .i32⟩
  | 38 => ⟨S50000x1, .i32⟩
  | 39 => ⟨S50000x1, .i1⟩
  | 40 => ⟨S50000x1, .i1⟩
  | 41 => ⟨S_, .i1⟩
  | 42 => ⟨S50000, .i1⟩
  | 43 => ⟨S50000x128, .f32⟩
  | 44 => ⟨S50000x128, .i1⟩
  | 45 => ⟨S_, .f32⟩
  | 46 => ⟨S50000x128, .f32⟩
  | 47 => ⟨S50000x128, .f32⟩
  | 48 => ⟨S50000x128, .f32⟩
  | 49 => ⟨S50000x1, .i32⟩
  | 50 => ⟨S50000, .i32⟩
  | 51 => ⟨S_, .i32⟩
  | 52 => ⟨S50000, .i32⟩
  | 53 => ⟨S50000, .i1⟩
  | 54 => ⟨S_, .i32⟩
  | 55 => ⟨S50000, .i32⟩
  | 56 => ⟨S50000, .i32⟩
  | 57 => ⟨S50000, .i32⟩
  | 58 => ⟨S50000x1, .i32⟩
  | 59 => ⟨S1, .i32⟩
  | 60 => ⟨S_, .i32⟩
  | 61 => ⟨S50000x1, .i32⟩
  | 62 => ⟨S50000x1, .i1⟩
  | 63 => ⟨S1x1, .i32⟩
  | 64 => ⟨S50000x1, .i32⟩
  | 65 => ⟨S50000x1, .i1⟩
  | 66 => ⟨S50000x1, .i1⟩
  | 67 => ⟨S_, .i1⟩
  | 68 => ⟨S50000, .i1⟩
  | 69 => ⟨S50000x128, .f32⟩
  | 70 => ⟨S50000x128, .i1⟩
  | 71 => ⟨S_, .f32⟩
  | 72 => ⟨S50000x128, .f32⟩
  | 73 => ⟨S50000x128, .f32⟩
  | 74 => ⟨S50000x128, .f32⟩
  | 75 => ⟨S50000x1, .i32⟩
  | 76 => ⟨S50000, .i32⟩
  | 77 => ⟨S_, .i32⟩
  | 78 => ⟨S50000, .i32⟩
  | 79 => ⟨S50000, .i1⟩
  | 80 => ⟨S_, .i32⟩
  | 81 => ⟨S50000, .i32⟩
  | 82 => ⟨S50000, .i32⟩
  | 83 => ⟨S50000, .i32⟩
  | 84 => ⟨S50000x1, .i32⟩
  | 85 => ⟨S1, .i32⟩
  | 86 => ⟨S_, .i32⟩
  | 87 => ⟨S50000x1, .i32⟩
  | 88 => ⟨S50000x1, .i1⟩
  | 89 => ⟨S1x1, .i32⟩
  | 90 => ⟨S50000x1, .i32⟩
  | 91 => ⟨S50000x1, .i1⟩
  | 92 => ⟨S50000x1, .i1⟩
  | 93 => ⟨S_, .i1⟩
  | 94 => ⟨S50000, .i1⟩
  | 95 => ⟨S50000x128, .f32⟩
  | 96 => ⟨S50000x128, .i1⟩
  | 97 => ⟨S_, .f32⟩
  | 98 => ⟨S50000x128, .f32⟩
  | 99 => ⟨S50000x128, .f32⟩
  | 100 => ⟨S50000x128, .f32⟩
  | 101 => ⟨S50000x1, .i32⟩
  | 102 => ⟨S50000, .i32⟩
  | 103 => ⟨S_, .i32⟩
  | 104 => ⟨S50000, .i32⟩
  | 105 => ⟨S50000, .i1⟩
  | 106 => ⟨S_, .i32⟩
  | 107 => ⟨S50000, .i32⟩
  | 108 => ⟨S50000, .i32⟩
  | 109 => ⟨S50000, .i32⟩
  | 110 => ⟨S50000x1, .i32⟩
  | 111 => ⟨S1, .i32⟩
  | 112 => ⟨S_, .i32⟩
  | 113 => ⟨S50000x1, .i32⟩
  | 114 => ⟨S50000x1, .i1⟩
  | 115 => ⟨S1x1, .i32⟩
  | 116 => ⟨S50000x1, .i32⟩
  | 117 => ⟨S50000x1, .i1⟩
  | 118 => ⟨S50000x1, .i1⟩
  | 119 => ⟨S_, .i1⟩
  | 120 => ⟨S50000, .i1⟩
  | 121 => ⟨S50000x128, .f32⟩
  | 122 => ⟨S50000x128, .i1⟩
  | 123 => ⟨S_, .f32⟩
  | 124 => ⟨S50000x128, .f32⟩
  | 125 => ⟨S50000x128, .f32⟩
  | 126 => ⟨S50000x128, .f32⟩
  | 127 => ⟨S50000x1, .i32⟩
  | _ => ⟨S50000x128, .f32⟩

abbrev hbmTy0_4 (i : Nat) : BufTy := match i % 128 with
  | 0 => ⟨S50000, .i32⟩
  | 1 => ⟨S_, .i32⟩
  | 2 => ⟨S50000, .i32⟩
  | 3 => ⟨S50000, .i1⟩
  | 4 => ⟨S_, .i32⟩
  | 5 => ⟨S50000, .i32⟩
  | 6 => ⟨S50000, .i32⟩
  | 7 => ⟨S50000, .i32⟩
  | 8 => ⟨S50000x1, .i32⟩
  | 9 => ⟨S1, .i32⟩
  | 10 => ⟨S_, .i32⟩
  | 11 => ⟨S50000x1, .i32⟩
  | 12 => ⟨S50000x1, .i1⟩
  | 13 => ⟨S1x1, .i32⟩
  | 14 => ⟨S50000x1, .i32⟩
  | 15 => ⟨S50000x1, .i1⟩
  | 16 => ⟨S50000x1, .i1⟩
  | 17 => ⟨S_, .i1⟩
  | 18 => ⟨S50000, .i1⟩
  | 19 => ⟨S50000x128, .f32⟩
  | 20 => ⟨S50000x128, .i1⟩
  | 21 => ⟨S_, .f32⟩
  | 22 => ⟨S50000x128, .f32⟩
  | 23 => ⟨S50000x128, .f32⟩
  | 24 => ⟨S50000x128, .f32⟩
  | 25 => ⟨S50000x1, .i32⟩
  | 26 => ⟨S50000, .i32⟩
  | 27 => ⟨S_, .i32⟩
  | 28 => ⟨S50000, .i32⟩
  | 29 => ⟨S50000, .i1⟩
  | 30 => ⟨S_, .i32⟩
  | 31 => ⟨S50000, .i32⟩
  | 32 => ⟨S50000, .i32⟩
  | 33 => ⟨S50000, .i32⟩
  | 34 => ⟨S50000x1, .i32⟩
  | 35 => ⟨S1, .i32⟩
  | 36 => ⟨S_, .i32⟩
  | 37 => ⟨S50000x1, .i32⟩
  | 38 => ⟨S50000x1, .i1⟩
  | 39 => ⟨S1x1, .i32⟩
  | 40 => ⟨S50000x1, .i32⟩
  | 41 => ⟨S50000x1, .i1⟩
  | 42 => ⟨S50000x1, .i1⟩
  | 43 => ⟨S_, .i1⟩
  | 44 => ⟨S50000, .i1⟩
  | 45 => ⟨S50000x128, .f32⟩
  | 46 => ⟨S50000x128, .i1⟩
  | 47 => ⟨S_, .f32⟩
  | 48 => ⟨S50000x128, .f32⟩
  | 49 => ⟨S50000x128, .f32⟩
  | 50 => ⟨S50000x128, .f32⟩
  | 51 => ⟨S50000x1, .i32⟩
  | 52 => ⟨S50000, .i32⟩
  | 53 => ⟨S_, .i32⟩
  | 54 => ⟨S50000, .i32⟩
  | 55 => ⟨S50000, .i1⟩
  | 56 => ⟨S_, .i32⟩
  | 57 => ⟨S50000, .i32⟩
  | 58 => ⟨S50000, .i32⟩
  | 59 => ⟨S50000, .i32⟩
  | 60 => ⟨S50000x1, .i32⟩
  | 61 => ⟨S1, .i32⟩
  | 62 => ⟨S_, .i32⟩
  | 63 => ⟨S50000x1, .i32⟩
  | 64 => ⟨S50000x1, .i1⟩
  | 65 => ⟨S1x1, .i32⟩
  | 66 => ⟨S50000x1, .i32⟩
  | 67 => ⟨S50000x1, .i1⟩
  | 68 => ⟨S50000x1, .i1⟩
  | 69 => ⟨S_, .i1⟩
  | 70 => ⟨S50000, .i1⟩
  | 71 => ⟨S50000x128, .f32⟩
  | 72 => ⟨S50000x128, .i1⟩
  | 73 => ⟨S_, .f32⟩
  | 74 => ⟨S50000x128, .f32⟩
  | 75 => ⟨S50000x128, .f32⟩
  | 76 => ⟨S50000x128, .f32⟩
  | 77 => ⟨S50000x1, .i32⟩
  | 78 => ⟨S50000, .i32⟩
  | 79 => ⟨S_, .i32⟩
  | 80 => ⟨S50000, .i32⟩
  | 81 => ⟨S50000, .i1⟩
  | 82 => ⟨S_, .i32⟩
  | 83 => ⟨S50000, .i32⟩
  | 84 => ⟨S50000, .i32⟩
  | 85 => ⟨S50000, .i32⟩
  | 86 => ⟨S50000x1, .i32⟩
  | 87 => ⟨S1, .i32⟩
  | 88 => ⟨S_, .i32⟩
  | 89 => ⟨S50000x1, .i32⟩
  | 90 => ⟨S50000x1, .i1⟩
  | 91 => ⟨S1x1, .i32⟩
  | 92 => ⟨S50000x1, .i32⟩
  | 93 => ⟨S50000x1, .i1⟩
  | 94 => ⟨S50000x1, .i1⟩
  | 95 => ⟨S_, .i1⟩
  | 96 => ⟨S50000, .i1⟩
  | 97 => ⟨S50000x128, .f32⟩
  | 98 => ⟨S50000x128, .i1⟩
  | 99 => ⟨S_, .f32⟩
  | 100 => ⟨S50000x128, .f32⟩
  | 101 => ⟨S50000x128, .f32⟩
  | 102 => ⟨S50000x128, .f32⟩
  | 103 => ⟨S50000x1, .i32⟩
  | 104 => ⟨S50000, .i32⟩
  | 105 => ⟨S_, .i32⟩
  | 106 => ⟨S50000, .i32⟩
  | 107 => ⟨S50000, .i1⟩
  | 108 => ⟨S_, .i32⟩
  | 109 => ⟨S50000, .i32⟩
  | 110 => ⟨S50000, .i32⟩
  | 111 => ⟨S50000, .i32⟩
  | 112 => ⟨S50000x1, .i32⟩
  | 113 => ⟨S1, .i32⟩
  | 114 => ⟨S_, .i32⟩
  | 115 => ⟨S50000x1, .i32⟩
  | 116 => ⟨S50000x1, .i1⟩
  | 117 => ⟨S1x1, .i32⟩
  | 118 => ⟨S50000x1, .i32⟩
  | 119 => ⟨S50000x1, .i1⟩
  | 120 => ⟨S50000x1, .i1⟩
  | 121 => ⟨S_, .i1⟩
  | 122 => ⟨S50000, .i1⟩
  | 123 => ⟨S50000x128, .f32⟩
  | 124 => ⟨S50000x128, .i1⟩
  | 125 => ⟨S_, .f32⟩
  | 126 => ⟨S50000x128, .f32⟩
  | 127 => ⟨S50000x128, .f32⟩
  | _ => ⟨S50000x128, .f32⟩

abbrev hbmTy0_5 (i : Nat) : BufTy := match i % 128 with
  | 0 => ⟨S50000x128, .f32⟩
  | 1 => ⟨S50000x1, .i32⟩
  | 2 => ⟨S50000, .i32⟩
  | 3 => ⟨S_, .i32⟩
  | 4 => ⟨S50000, .i32⟩
  | 5 => ⟨S50000, .i1⟩
  | 6 => ⟨S_, .i32⟩
  | 7 => ⟨S50000, .i32⟩
  | 8 => ⟨S50000, .i32⟩
  | 9 => ⟨S50000, .i32⟩
  | 10 => ⟨S50000x1, .i32⟩
  | 11 => ⟨S1, .i32⟩
  | 12 => ⟨S_, .i32⟩
  | 13 => ⟨S50000x1, .i32⟩
  | 14 => ⟨S50000x1, .i1⟩
  | 15 => ⟨S1x1, .i32⟩
  | 16 => ⟨S50000x1, .i32⟩
  | 17 => ⟨S50000x1, .i1⟩
  | 18 => ⟨S50000x1, .i1⟩
  | 19 => ⟨S_, .i1⟩
  | 20 => ⟨S50000, .i1⟩
  | 21 => ⟨S50000x128, .f32⟩
  | 22 => ⟨S50000x128, .i1⟩
  | 23 => ⟨S_, .f32⟩
  | 24 => ⟨S50000x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S50000x128, .bf16⟩
  | 31 => ⟨S50000x128, .f32⟩
  | 32 => ⟨S50000x128, .f32⟩
  | 33 => ⟨S_, .f32⟩
  | 34 => ⟨S50000x128, .f32⟩
  | 35 => ⟨S50000x1, .i32⟩
  | 36 => ⟨S50000, .i32⟩
  | 37 => ⟨S_, .i32⟩
  | 38 => ⟨S50000, .i32⟩
  | 39 => ⟨S50000, .i1⟩
  | 40 => ⟨S_, .i32⟩
  | 41 => ⟨S50000, .i32⟩
  | 42 => ⟨S50000, .i32⟩
  | 43 => ⟨S50000, .i32⟩
  | 44 => ⟨S50000x1, .i32⟩
  | 45 => ⟨S1, .i32⟩
  | 46 => ⟨S_, .i32⟩
  | 47 => ⟨S50000x1, .i32⟩
  | 48 => ⟨S50000x1, .i1⟩
  | 49 => ⟨S1x1, .i32⟩
  | 50 => ⟨S50000x1, .i32⟩
  | 51 => ⟨S50000x1, .i1⟩
  | 52 => ⟨S50000x1, .i1⟩
  | 53 => ⟨S_, .i1⟩
  | 54 => ⟨S50000, .i1⟩
  | 55 => ⟨S50000x128, .f32⟩
  | 56 => ⟨S50000x128, .i1⟩
  | 57 => ⟨S_, .f32⟩
  | 58 => ⟨S50000x128, .f32⟩
  | 59 => ⟨S50000x128, .f32⟩
  | 60 => ⟨S50000x128, .f32⟩
  | 61 => ⟨S50000x1, .i32⟩
  | 62 => ⟨S50000, .i32⟩
  | 63 => ⟨S_, .i32⟩
  | 64 => ⟨S50000, .i32⟩
  | 65 => ⟨S50000, .i1⟩
  | 66 => ⟨S_, .i32⟩
  | 67 => ⟨S50000, .i32⟩
  | 68 => ⟨S50000, .i32⟩
  | 69 => ⟨S50000, .i32⟩
  | 70 => ⟨S50000x1, .i32⟩
  | 71 => ⟨S1, .i32⟩
  | 72 => ⟨S_, .i32⟩
  | 73 => ⟨S50000x1, .i32⟩
  | 74 => ⟨S50000x1, .i1⟩
  | 75 => ⟨S1x1, .i32⟩
  | 76 => ⟨S50000x1, .i32⟩
  | 77 => ⟨S50000x1, .i1⟩
  | 78 => ⟨S50000x1, .i1⟩
  | 79 => ⟨S_, .i1⟩
  | 80 => ⟨S50000, .i1⟩
  | 81 => ⟨S50000x128, .f32⟩
  | 82 => ⟨S50000x128, .i1⟩
  | 83 => ⟨S_, .f32⟩
  | 84 => ⟨S50000x128, .f32⟩
  | 85 => ⟨S50000x128, .f32⟩
  | 86 => ⟨S50000x128, .f32⟩
  | 87 => ⟨S50000x1, .i32⟩
  | 88 => ⟨S50000, .i32⟩
  | 89 => ⟨S_, .i32⟩
  | 90 => ⟨S50000, .i32⟩
  | 91 => ⟨S50000, .i1⟩
  | 92 => ⟨S_, .i32⟩
  | 93 => ⟨S50000, .i32⟩
  | 94 => ⟨S50000, .i32⟩
  | 95 => ⟨S50000, .i32⟩
  | 96 => ⟨S50000x1, .i32⟩
  | 97 => ⟨S1, .i32⟩
  | 98 => ⟨S_, .i32⟩
  | 99 => ⟨S50000x1, .i32⟩
  | 100 => ⟨S50000x1, .i1⟩
  | 101 => ⟨S1x1, .i32⟩
  | 102 => ⟨S50000x1, .i32⟩
  | 103 => ⟨S50000x1, .i1⟩
  | 104 => ⟨S50000x1, .i1⟩
  | 105 => ⟨S_, .i1⟩
  | 106 => ⟨S50000, .i1⟩
  | 107 => ⟨S50000x128, .f32⟩
  | 108 => ⟨S50000x128, .i1⟩
  | 109 => ⟨S_, .f32⟩
  | 110 => ⟨S50000x128, .f32⟩
  | 111 => ⟨S50000x128, .f32⟩
  | 112 => ⟨S50000x128, .f32⟩
  | 113 => ⟨S50000x1, .i32⟩
  | 114 => ⟨S50000, .i32⟩
  | 115 => ⟨S_, .i32⟩
  | 116 => ⟨S50000, .i32⟩
  | 117 => ⟨S50000, .i1⟩
  | 118 => ⟨S_, .i32⟩
  | 119 => ⟨S50000, .i32⟩
  | 120 => ⟨S50000, .i32⟩
  | 121 => ⟨S50000, .i32⟩
  | 122 => ⟨S50000x1, .i32⟩
  | 123 => ⟨S1, .i32⟩
  | 124 => ⟨S_, .i32⟩
  | 125 => ⟨S50000x1, .i32⟩
  | 126 => ⟨S50000x1, .i1⟩
  | 127 => ⟨S1x1, .i32⟩
  | _ => ⟨S50000x128, .f32⟩

abbrev hbmTy0_6 (i : Nat) : BufTy := match i % 128 with
  | 0 => ⟨S50000x1, .i32⟩
  | 1 => ⟨S50000x1, .i1⟩
  | 2 => ⟨S50000x1, .i1⟩
  | 3 => ⟨S_, .i1⟩
  | 4 => ⟨S50000, .i1⟩
  | 5 => ⟨S50000x128, .f32⟩
  | 6 => ⟨S50000x128, .i1⟩
  | 7 => ⟨S_, .f32⟩
  | 8 => ⟨S50000x128, .f32⟩
  | 9 => ⟨S50000x128, .f32⟩
  | 10 => ⟨S50000x128, .f32⟩
  | 11 => ⟨S50000x1, .i32⟩
  | 12 => ⟨S50000, .i32⟩
  | 13 => ⟨S_, .i32⟩
  | 14 => ⟨S50000, .i32⟩
  | 15 => ⟨S50000, .i1⟩
  | 16 => ⟨S_, .i32⟩
  | 17 => ⟨S50000, .i32⟩
  | 18 => ⟨S50000, .i32⟩
  | 19 => ⟨S50000, .i32⟩
  | 20 => ⟨S50000x1, .i32⟩
  | 21 => ⟨S1, .i32⟩
  | 22 => ⟨S_, .i32⟩
  | 23 => ⟨S50000x1, .i32⟩
  | 24 => ⟨S50000x1, .i1⟩
  | 25 => ⟨S1x1, .i32⟩
  | 26 => ⟨S50000x1, .i32⟩
  | 27 => ⟨S50000x1, .i1⟩
  | 28 => ⟨S50000x1, .i1⟩
  | 29 => ⟨S_, .i1⟩
  | 30 => ⟨S50000, .i1⟩
  | 31 => ⟨S50000x128, .f32⟩
  | 32 => ⟨S50000x128, .i1⟩
  | 33 => ⟨S_, .f32⟩
  | 34 => ⟨S50000x128, .f32⟩
  | 35 => ⟨S50000x128, .f32⟩
  | 36 => ⟨S50000x128, .f32⟩
  | 37 => ⟨S50000x1, .i32⟩
  | 38 => ⟨S50000, .i32⟩
  | 39 => ⟨S_, .i32⟩
  | 40 => ⟨S50000, .i32⟩
  | 41 => ⟨S50000, .i1⟩
  | 42 => ⟨S_, .i32⟩
  | 43 => ⟨S50000, .i32⟩
  | 44 => ⟨S50000, .i32⟩
  | 45 => ⟨S50000, .i32⟩
  | 46 => ⟨S50000x1, .i32⟩
  | 47 => ⟨S1, .i32⟩
  | 48 => ⟨S_, .i32⟩
  | 49 => ⟨S50000x1, .i32⟩
  | 50 => ⟨S50000x1, .i1⟩
  | 51 => ⟨S1x1, .i32⟩
  | 52 => ⟨S50000x1, .i32⟩
  | 53 => ⟨S50000x1, .i1⟩
  | 54 => ⟨S50000x1, .i1⟩
  | 55 => ⟨S_, .i1⟩
  | 56 => ⟨S50000, .i1⟩
  | 57 => ⟨S50000x128, .f32⟩
  | 58 => ⟨S50000x128, .i1⟩
  | 59 => ⟨S_, .f32⟩
  | 60 => ⟨S50000x128, .f32⟩
  | 61 => ⟨S50000x128, .f32⟩
  | 62 => ⟨S50000x128, .f32⟩
  | 63 => ⟨S50000x1, .i32⟩
  | 64 => ⟨S50000, .i32⟩
  | 65 => ⟨S_, .i32⟩
  | 66 => ⟨S50000, .i32⟩
  | 67 => ⟨S50000, .i1⟩
  | 68 => ⟨S_, .i32⟩
  | 69 => ⟨S50000, .i32⟩
  | 70 => ⟨S50000, .i32⟩
  | 71 => ⟨S50000, .i32⟩
  | 72 => ⟨S50000x1, .i32⟩
  | 73 => ⟨S1, .i32⟩
  | 74 => ⟨S_, .i32⟩
  | 75 => ⟨S50000x1, .i32⟩
  | 76 => ⟨S50000x1, .i1⟩
  | 77 => ⟨S1x1, .i32⟩
  | 78 => ⟨S50000x1, .i32⟩
  | 79 => ⟨S50000x1, .i1⟩
  | 80 => ⟨S50000x1, .i1⟩
  | 81 => ⟨S_, .i1⟩
  | 82 => ⟨S50000, .i1⟩
  | 83 => ⟨S50000x128, .f32⟩
  | 84 => ⟨S50000x128, .i1⟩
  | 85 => ⟨S_, .f32⟩
  | 86 => ⟨S50000x128, .f32⟩
  | 87 => ⟨S50000x128, .f32⟩
  | 88 => ⟨S50000x128, .f32⟩
  | 89 => ⟨S50000x1, .i32⟩
  | 90 => ⟨S50000, .i32⟩
  | 91 => ⟨S_, .i32⟩
  | 92 => ⟨S50000, .i32⟩
  | 93 => ⟨S50000, .i1⟩
  | 94 => ⟨S_, .i32⟩
  | 95 => ⟨S50000, .i32⟩
  | 96 => ⟨S50000, .i32⟩
  | 97 => ⟨S50000, .i32⟩
  | 98 => ⟨S50000x1, .i32⟩
  | 99 => ⟨S1, .i32⟩
  | 100 => ⟨S_, .i32⟩
  | 101 => ⟨S50000x1, .i32⟩
  | 102 => ⟨S50000x1, .i1⟩
  | 103 => ⟨S1x1, .i32⟩
  | 104 => ⟨S50000x1, .i32⟩
  | 105 => ⟨S50000x1, .i1⟩
  | 106 => ⟨S50000x1, .i1⟩
  | 107 => ⟨S_, .i1⟩
  | 108 => ⟨S50000, .i1⟩
  | 109 => ⟨S50000x128, .f32⟩
  | 110 => ⟨S50000x128, .i1⟩
  | 111 => ⟨S_, .f32⟩
  | 112 => ⟨S50000x128, .f32⟩
  | 113 => ⟨S50000x128, .f32⟩
  | 114 => ⟨S50000x128, .f32⟩
  | 115 => ⟨S50000x1, .i32⟩
  | 116 => ⟨S50000, .i32⟩
  | 117 => ⟨S_, .i32⟩
  | 118 => ⟨S50000, .i32⟩
  | 119 => ⟨S50000, .i1⟩
  | 120 => ⟨S_, .i32⟩
  | 121 => ⟨S50000, .i32⟩
  | 122 => ⟨S50000, .i32⟩
  | 123 => ⟨S50000, .i32⟩
  | 124 => ⟨S50000x1, .i32⟩
  | 125 => ⟨S1, .i32⟩
  | 126 => ⟨S_, .i32⟩
  | 127 => ⟨S50000x1, .i32⟩
  | _ => ⟨S50000x128, .f32⟩

abbrev hbmTy0_7 (i : Nat) : BufTy := match i % 128 with
  | 0 => ⟨S50000x1, .i1⟩
  | 1 => ⟨S1x1, .i32⟩
  | 2 => ⟨S50000x1, .i32⟩
  | 3 => ⟨S50000x1, .i1⟩
  | 4 => ⟨S50000x1, .i1⟩
  | 5 => ⟨S_, .i1⟩
  | 6 => ⟨S50000, .i1⟩
  | 7 => ⟨S50000x128, .f32⟩
  | 8 => ⟨S50000x128, .i1⟩
  | 9 => ⟨S_, .f32⟩
  | 10 => ⟨S50000x128, .f32⟩
  | 11 => ⟨S50000x128, .f32⟩
  | 12 => ⟨S50000x128, .f32⟩
  | 13 => ⟨S50000x1, .i32⟩
  | 14 => ⟨S50000, .i32⟩
  | 15 => ⟨S_, .i32⟩
  | 16 => ⟨S50000, .i32⟩
  | 17 => ⟨S50000, .i1⟩
  | 18 => ⟨S_, .i32⟩
  | 19 => ⟨S50000, .i32⟩
  | 20 => ⟨S50000, .i32⟩
  | 21 => ⟨S50000, .i32⟩
  | 22 => ⟨S50000x1, .i32⟩
  | 23 => ⟨S1, .i32⟩
  | 24 => ⟨S_, .i32⟩
  | 25 => ⟨S50000x1, .i32⟩
  | 26 => ⟨S50000x1, .i1⟩
  | 27 => ⟨S1x1, .i32⟩
  | 28 => ⟨S50000x1, .i32⟩
  | 29 => ⟨S50000x1, .i1⟩
  | 30 => ⟨S50000x1, .i1⟩
  | 31 => ⟨S_, .i1⟩
  | 32 => ⟨S50000, .i1⟩
  | 33 => ⟨S50000x128, .f32⟩
  | 34 => ⟨S50000x128, .i1⟩
  | 35 => ⟨S_, .f32⟩
  | 36 => ⟨S50000x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S50000x128, .bf16⟩
  | 43 => ⟨S50000x128, .f32⟩
  | 44 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .bf16⟩
  | .local _ .vmem, ⟨3, _⟩ => ⟨S5000x128, .bf16⟩
  | .local _ .vmem, ⟨4, _⟩ => ⟨S128x128, .f32⟩
  | .local _ .vmem, ⟨5, _⟩ => ⟨S128x128, .f32⟩
  | .local _ .vmem, ⟨6, _⟩ => ⟨S5000x128, .f32⟩
  | .local _ .vmem, ⟨7, _⟩ => ⟨S5000x128, .f32⟩
  | .local _ .vmem, ⟨8, _⟩ => ⟨S2000x128, .f32⟩
  | .local _ .vmem, ⟨9, _⟩ => ⟨S2000x128, .f32⟩
  | .local _ .vmem, ⟨10, _⟩ => ⟨S3x2000x128, .f32⟩
  | .local _ .vmem, ⟨11, _⟩ => ⟨S3x2000x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .bf16⟩
  | .local _ .vmem, ⟨20, _⟩ => ⟨S5000x128, .bf16⟩
  | .local _ .vmem, ⟨21, _⟩ => ⟨S128x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S2000x128, .f32⟩
  | .local _ .vmem, ⟨26, _⟩ => ⟨S2000x128, .f32⟩
  | .local _ .vmem, ⟨27, _⟩ => ⟨S3x2000x128, .f32⟩
  | .local _ .vmem, ⟨28, _⟩ => ⟨S3x2000x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S2000x128, .f32⟩
  | .local _ .vmem, ⟨33, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_c_1 : Ref sig .tc := ⟨.hbm, 105, rfl⟩
abbrev main_call3_c_2 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_3 : Ref sig .tc := ⟨.hbm, 113, rfl⟩
abbrev main_call3_v12 : Ref sig .tc := ⟨.hbm, 114, rfl⟩
abbrev main_call3_v13 : Ref sig .tc := ⟨.hbm, 115, rfl⟩
abbrev main_call3_v14 : Ref sig .tc := ⟨.hbm, 116, rfl⟩
abbrev main_call3_cst : Ref sig .tc := ⟨.hbm, 117, rfl⟩
abbrev main_call3_v15 : Ref sig .tc := ⟨.hbm, 118, rfl⟩
abbrev main_v21 : Ref sig .tc := ⟨.hbm, 119, rfl⟩
abbrev main_v22 : Ref sig .tc := ⟨.hbm, 120, rfl⟩
abbrev main_v23 : Ref sig .tc := ⟨.hbm, 121, rfl⟩
abbrev main_v24 : Ref sig .tc := ⟨.hbm, 122, rfl⟩
abbrev main_call4_c : Ref sig .tc := ⟨.hbm, 123, rfl⟩
abbrev main_call4_v0 : Ref sig .tc := ⟨.hbm, 124, rfl⟩
abbrev main_call4_v1 : Ref sig .tc := ⟨.hbm, 125, rfl⟩
abbrev main_call4_c_0 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_call4_v5 : Ref sig .tc := ⟨.hbm, 130, rfl⟩
abbrev main_call4_c_1 : Ref sig .tc := ⟨.hbm, 131, rfl⟩
abbrev main_call4_c_2 : Ref sig .tc := ⟨.hbm, 132, rfl⟩
abbrev main_call4_v6 : Ref sig .tc := ⟨.hbm, 133, rfl⟩
abbrev main_call4_v7 : Ref sig .tc := ⟨.hbm, 134, rfl⟩
abbrev main_call4_v8 : Ref sig .tc := ⟨.hbm, 135, rfl⟩
abbrev main_call4_v9 : Ref sig .tc := ⟨.hbm, 136, rfl⟩
abbrev main_call4_v10 : Ref sig .tc := ⟨.hbm, 137, rfl⟩
abbrev main_call4_v11 : Ref sig .tc := ⟨.hbm, 138, rfl⟩
abbrev main_call4_c_3 : Ref sig .tc := ⟨.hbm, 139, rfl⟩
abbrev main_call4_v12 : Ref sig .tc := ⟨.hbm, 140, rfl⟩
abbrev main_call4_v13 : Ref sig .tc := ⟨.hbm, 141, rfl⟩
abbrev main_call4_v14 : Ref sig .tc := ⟨.hbm, 142, rfl⟩
abbrev main_call4_cst : Ref sig .tc := ⟨.hbm, 143, rfl⟩
abbrev main_call4_v15 : Ref sig .tc := ⟨.hbm, 144, rfl⟩
abbrev main_v25 : Ref sig .tc := ⟨.hbm, 145, rfl⟩
abbrev main_v26 : Ref sig .tc := ⟨.hbm, 146, rfl⟩
abbrev main_v27 : Ref sig .tc := ⟨.hbm, 147, rfl⟩
abbrev main_v28 : Ref sig .tc := ⟨.hbm, 148, rfl⟩
abbrev main_call5_c : Ref sig .tc := ⟨.hbm, 149, rfl⟩
abbrev main_call5_v0 : Ref sig .tc := ⟨.hbm, 150, rfl⟩
abbrev main_call5_v1 : Ref sig .tc := ⟨.hbm, 151, rfl⟩
abbrev main_call5_c_0 : Ref sig .tc := ⟨.hbm, 152, rfl⟩
abbrev main_call5_v2 : Ref sig .tc := ⟨.hbm, 153, rfl⟩
abbrev main_call5_v3 : Ref sig .tc := ⟨.hbm, 154, rfl⟩
abbrev main_call5_v4 : Ref sig .tc := ⟨.hbm, 155, rfl⟩
abbrev main_call5_v5 : Ref sig .tc := ⟨.hbm, 156, rfl⟩
abbrev main_call5_c_1 : Ref sig .tc := ⟨.hbm, 157, rfl⟩
abbrev main_call5_c_2 : Ref sig .tc := ⟨.hbm, 158, rfl⟩
abbrev main_call5_v6 : Ref sig .tc := ⟨.hbm, 159, rfl⟩
abbrev main_call5_v7 : Ref sig .tc := ⟨.hbm, 160, rfl⟩
abbrev main_call5_v8 : Ref sig .tc := ⟨.hbm, 161, rfl⟩
abbrev main_call5_v9 : Ref sig .tc := ⟨.hbm, 162, rfl⟩
abbrev main_call5_v10 : Ref sig .tc := ⟨.hbm, 163, rfl⟩
abbrev main_call5_v11 : Ref sig .tc := ⟨.hbm, 164, rfl⟩
abbrev main_call5_c_3 : Ref sig .tc := ⟨.hbm, 165, rfl⟩
abbrev main_call5_v12 : Ref sig .tc := ⟨.hbm, 166, rfl⟩
abbrev main_call5_v13 : Ref sig .tc := ⟨.hbm, 167, rfl⟩
abbrev main_call5_v14 : Ref sig .tc := ⟨.hbm, 168, rfl⟩
abbrev main_call5_cst : Ref sig .tc := ⟨.hbm, 169, rfl⟩
abbrev main_call5_v15 : Ref sig .tc := ⟨.hbm, 170, rfl⟩
abbrev main_v29 : Ref sig .tc := ⟨.hbm, 171, rfl⟩
abbrev main_v30 : Ref sig .tc := ⟨.hbm, 172, rfl⟩
abbrev main_v31 : Ref sig .tc := ⟨.hbm, 173, rfl⟩
abbrev main_v32 : Ref sig .tc := ⟨.hbm, 174, rfl⟩
abbrev main_call6_c : Ref sig .tc := ⟨.hbm, 175, rfl⟩
abbrev main_call6_v0 : Ref sig .tc := ⟨.hbm, 176, rfl⟩
abbrev main_call6_v1 : Ref sig .tc := ⟨.hbm, 177, rfl⟩
abbrev main_call6_c_0 : Ref sig .tc := ⟨.hbm, 178, rfl⟩
abbrev main_call6_v2 : Ref sig .tc := ⟨.hbm, 179, rfl⟩
abbrev main_call6_v3 : Ref sig .tc := ⟨.hbm, 180, rfl⟩
abbrev main_call6_v4 : Ref sig .tc := ⟨.hbm, 181, rfl⟩
abbrev main_call6_v5 : Ref sig .tc := ⟨.hbm, 182, rfl⟩
abbrev main_call6_c_1 : Ref sig .tc := ⟨.hbm, 183, rfl⟩
abbrev main_call6_c_2 : Ref sig .tc := ⟨.hbm, 184, rfl⟩
abbrev main_call6_v6 : Ref sig .tc := ⟨.hbm, 185, rfl⟩
abbrev main_call6_v7 : Ref sig .tc := ⟨.hbm, 186, rfl⟩
abbrev main_call6_v8 : Ref sig .tc := ⟨.hbm, 187, rfl⟩
abbrev main_call6_v9 : Ref sig .tc := ⟨.hbm, 188, rfl⟩
abbrev main_call6_v10 : Ref sig .tc := ⟨.hbm, 189, rfl⟩
abbrev main_call6_v11 : Ref sig .tc := ⟨.hbm, 190, rfl⟩
abbrev main_call6_c_3 : Ref sig .tc := ⟨.hbm, 191, rfl⟩
abbrev main_call6_v12 : Ref sig .tc := ⟨.hbm, 192, rfl⟩
abbrev main_call6_v13 : Ref sig .tc := ⟨.hbm, 193, rfl⟩
abbrev main_call6_v14 : Ref sig .tc := ⟨.hbm, 194, rfl⟩
abbrev main_call6_cst : Ref sig .tc := ⟨.hbm, 195, rfl⟩
abbrev main_call6_v15 : Ref sig .tc := ⟨.hbm, 196, rfl⟩
abbrev main_v33 : Ref sig .tc := ⟨.hbm, 197, rfl⟩
abbrev main_v34 : Ref sig .tc := ⟨.hbm, 198, rfl⟩
abbrev main_v35 : Ref sig .tc := ⟨.hbm, 199, rfl⟩
abbrev main_v36 : Ref sig .tc := ⟨.hbm, 200, rfl⟩
abbrev main_call7_c : Ref sig .tc := ⟨.hbm, 201, rfl⟩
abbrev main_call7_v0 : Ref sig .tc := ⟨.hbm, 202, rfl⟩
abbrev main_call7_v1 : Ref sig .tc := ⟨.hbm, 203, rfl⟩
abbrev main_call7_c_0 : Ref sig .tc := ⟨.hbm, 204, rfl⟩
abbrev main_call7_v2 : Ref sig .tc := ⟨.hbm, 205, rfl⟩
abbrev main_call7_v3 : Ref sig .tc := ⟨.hbm, 206, rfl⟩
abbrev main_call7_v4 : Ref sig .tc := ⟨.hbm, 207, rfl⟩
abbrev main_call7_v5 : Ref sig .tc := ⟨.hbm, 208, rfl⟩
abbrev main_call7_c_1 : Ref sig .tc := ⟨.hbm, 209, rfl⟩
abbrev main_call7_c_2 : Ref sig .tc := ⟨.hbm, 210, rfl⟩
abbrev main_call7_v6 : Ref sig .tc := ⟨.hbm, 211, rfl⟩
abbrev main_call7_v7 : Ref sig .tc := ⟨.hbm, 212, rfl⟩
abbrev main_call7_v8 : Ref sig .tc := ⟨.hbm, 213, rfl⟩
abbrev main_call7_v9 : Ref sig .tc := ⟨.hbm, 214, rfl⟩
abbrev main_call7_v10 : Ref sig .tc := ⟨.hbm, 215, rfl⟩
abbrev main_call7_v11 : Ref sig .tc := ⟨.hbm, 216, rfl⟩
abbrev main_call7_c_3 : Ref sig .tc := ⟨.hbm, 217, rfl⟩
abbrev main_call7_v12 : Ref sig .tc := ⟨.hbm, 218, rfl⟩
abbrev main_call7_v13 : Ref sig .tc := ⟨.hbm, 219, rfl⟩
abbrev main_call7_v14 : Ref sig .tc := ⟨.hbm, 220, rfl⟩
abbrev main_call7_cst : Ref sig .tc := ⟨.hbm, 221, rfl⟩
abbrev main_call7_v15 : Ref sig .tc := ⟨.hbm, 222, rfl⟩
abbrev main_v37 : Ref sig .tc := ⟨.hbm, 223, rfl⟩
abbrev main_v38 : Ref sig .tc := ⟨.hbm, 224, rfl⟩
abbrev main_v39 : Ref sig .tc := ⟨.hbm, 225, rfl⟩
abbrev main_v40 : Ref sig .tc := ⟨.hbm, 226, rfl⟩
abbrev main_call8_c : Ref sig .tc := ⟨.hbm, 227, rfl⟩
abbrev main_call8_v0 : Ref sig .tc := ⟨.hbm, 228, rfl⟩
abbrev main_call8_v1 : Ref sig .tc := ⟨.hbm, 229, rfl⟩
abbrev main_call8_c_0 : Ref sig .tc := ⟨.hbm, 230, rfl⟩
abbrev main_call8_v2 : Ref sig .tc := ⟨.hbm, 231, rfl⟩
abbrev main_call8_v3 : Ref sig .tc := ⟨.hbm, 232, rfl⟩
abbrev main_call8_v4 : Ref sig .tc := ⟨.hbm, 233, rfl⟩
abbrev main_call8_v5 : Ref sig .tc := ⟨.hbm, 234, rfl⟩
abbrev main_call8_c_1 : Ref sig .tc := ⟨.hbm, 235, rfl⟩
abbrev main_call8_c_2 : Ref sig .tc := ⟨.hbm, 236, rfl⟩
abbrev main_call8_v6 : Ref sig .tc := ⟨.hbm, 237, rfl⟩
abbrev main_call8_v7 : Ref sig .tc := ⟨.hbm, 238, rfl⟩
abbrev main_call8_v8 : Ref sig .tc := ⟨.hbm, 239, rfl⟩
abbrev main_call8_v9 : Ref sig .tc := ⟨.hbm, 240, rfl⟩
abbrev main_call8_v10 : Ref sig .tc := ⟨.hbm, 241, rfl⟩
abbrev main_call8_v11 : Ref sig .tc := ⟨.hbm, 242, rfl⟩
abbrev main_call8_c_3 : Ref sig .tc := ⟨.hbm, 243, rfl⟩
abbrev main_call8_v12 : Ref sig .tc := ⟨.hbm, 244, rfl⟩
abbrev main_call8_v13 : Ref sig .tc := ⟨.hbm, 245, rfl⟩
abbrev main_call8_v14 : Ref sig .tc := ⟨.hbm, 246, rfl⟩
abbrev main_call8_cst : Ref sig .tc := ⟨.hbm, 247, rfl⟩
abbrev main_call8_v15 : Ref sig .tc := ⟨.hbm, 248, rfl⟩
abbrev main_v41 : Ref sig .tc := ⟨.hbm, 249, rfl⟩
abbrev main_v42 : Ref sig .tc := ⟨.hbm, 250, rfl⟩
abbrev main_v43 : Ref sig .tc := ⟨.hbm, 251, rfl⟩
abbrev main_v44 : Ref sig .tc := ⟨.hbm, 252, rfl⟩
abbrev main_call9_c : Ref sig .tc := ⟨.hbm, 253, rfl⟩
abbrev main_call9_v0 : Ref sig .tc := ⟨.hbm, 254, rfl⟩
abbrev main_call9_v1 : Ref sig .tc := ⟨.hbm, 255, rfl⟩
abbrev main_call9_c_0 : Ref sig .tc := ⟨.hbm, 256, rfl⟩
abbrev main_call9_v2 : Ref sig .tc := ⟨.hbm, 257, rfl⟩
abbrev main_call9_v3 : Ref sig .tc := ⟨.hbm, 258, rfl⟩
abbrev main_call9_v4 : Ref sig .tc := ⟨.hbm, 259, rfl⟩
abbrev main_call9_v5 : Ref sig .tc := ⟨.hbm, 260, rfl⟩
abbrev main_call9_c_1 : Ref sig .tc := ⟨.hbm, 261, rfl⟩
abbrev main_call9_c_2 : Ref sig .tc := ⟨.hbm, 262, rfl⟩
abbrev main_call9_v6 : Ref sig .tc := ⟨.hbm, 263, rfl⟩
abbrev main_call9_v7 : Ref sig .tc := ⟨.hbm, 264, rfl⟩
abbrev main_call9_v8 : Ref sig .tc := ⟨.hbm, 265, rfl⟩
abbrev main_call9_v9 : Ref sig .tc := ⟨.hbm, 266, rfl⟩
abbrev main_call9_v10 : Ref sig .tc := ⟨.hbm, 267, rfl⟩
abbrev main_call9_v11 : Ref sig .tc := ⟨.hbm, 268, rfl⟩
abbrev main_call9_c_3 : Ref sig .tc := ⟨.hbm, 269, rfl⟩
abbrev main_call9_v12 : Ref sig .tc := ⟨.hbm, 270, rfl⟩
abbrev main_call9_v13 : Ref sig .tc := ⟨.hbm, 271, rfl⟩
abbrev main_call9_v14 : Ref sig .tc := ⟨.hbm, 272, rfl⟩
abbrev main_call9_cst : Ref sig .tc := ⟨.hbm, 273, rfl⟩
abbrev main_call9_v15 : Ref sig .tc := ⟨.hbm, 274, rfl⟩
abbrev main_v45 : Ref sig .tc := ⟨.hbm, 275, rfl⟩
abbrev main_v46 : Ref sig .tc := ⟨.hbm, 276, rfl⟩
abbrev main_v47 : Ref sig .tc := ⟨.hbm, 277, rfl⟩
abbrev main_v48 : Ref sig .tc := ⟨.hbm, 278, rfl⟩
abbrev main_call10_c : Ref sig .tc := ⟨.hbm, 279, rfl⟩
abbrev main_call10_v0 : Ref sig .tc := ⟨.hbm, 280, rfl⟩
abbrev main_call10_v1 : Ref sig .tc := ⟨.hbm, 281, rfl⟩
abbrev main_call10_c_0 : Ref sig .tc := ⟨.hbm, 282, rfl⟩
abbrev main_call10_v2 : Ref sig .tc := ⟨.hbm, 283, rfl⟩
abbrev main_call10_v3 : Ref sig .tc := ⟨.hbm, 284, rfl⟩
abbrev main_call10_v4 : Ref sig .tc := ⟨.hbm, 285, rfl⟩
abbrev main_call10_v5 : Ref sig .tc := ⟨.hbm, 286, rfl⟩
abbrev main_call10_c_1 : Ref sig .tc := ⟨.hbm, 287, rfl⟩
abbrev main_call10_c_2 : Ref sig .tc := ⟨.hbm, 288, rfl⟩
abbrev main_call10_v6 : Ref sig .tc := ⟨.hbm, 289, rfl⟩
abbrev main_call10_v7 : Ref sig .tc := ⟨.hbm, 290, rfl⟩
abbrev main_call10_v8 : Ref sig .tc := ⟨.hbm, 291, rfl⟩
abbrev main_call10_v9 : Ref sig .tc := ⟨.hbm, 292, rfl⟩
abbrev main_call10_v10 : Ref sig .tc := ⟨.hbm, 293, rfl⟩
abbrev main_call10_v11 : Ref sig .tc := ⟨.hbm, 294, rfl⟩
abbrev main_call10_c_3 : Ref sig .tc := ⟨.hbm, 295, rfl⟩
abbrev main_call10_v12 : Ref sig .tc := ⟨.hbm, 296, rfl⟩
abbrev main_call10_v13 : Ref sig .tc := ⟨.hbm, 297, rfl⟩
abbrev main_call10_v14 : Ref sig .tc := ⟨.hbm, 298, rfl⟩
abbrev main_call10_cst : Ref sig .tc := ⟨.hbm, 299, rfl⟩
abbrev main_call10_v15 : Ref sig .tc := ⟨.hbm, 300, rfl⟩
abbrev main_v49 : Ref sig .tc := ⟨.hbm, 301, rfl⟩
abbrev main_v50 : Ref sig .tc := ⟨.hbm, 302, rfl⟩
abbrev main_v51 : Ref sig .tc := ⟨.hbm, 303, rfl⟩
abbrev main_v52 : Ref sig .tc := ⟨.hbm, 304, rfl⟩
abbrev main_call11_c : Ref sig .tc := ⟨.hbm, 305, rfl⟩
abbrev main_call11_v0 : Ref sig .tc := ⟨.hbm, 306, rfl⟩
abbrev main_call11_v1 : Ref sig .tc := ⟨.hbm, 307, rfl⟩
abbrev main_call11_c_0 : Ref sig .tc := ⟨.hbm, 308, rfl⟩
abbrev main_call11_v2 : Ref sig .tc := ⟨.hbm, 309, rfl⟩
abbrev main_call11_v3 : Ref sig .tc := ⟨.hbm, 310, rfl⟩
abbrev main_call11_v4 : Ref sig .tc := ⟨.hbm, 311, rfl⟩
abbrev main_call11_v5 : Ref sig .tc := ⟨.hbm, 312, rfl⟩
abbrev main_call11_c_1 : Ref sig .tc := ⟨.hbm, 313, rfl⟩
abbrev main_call11_c_2 : Ref sig .tc := ⟨.hbm, 314, rfl⟩
abbrev main_call11_v6 : Ref sig .tc := ⟨.hbm, 315, rfl⟩
abbrev main_call11_v7 : Ref sig .tc := ⟨.hbm, 316, rfl⟩
abbrev main_call11_v8 : Ref sig .tc := ⟨.hbm, 317, rfl⟩
abbrev main_call11_v9 : Ref sig .tc := ⟨.hbm, 318, rfl⟩
abbrev main_call11_v10 : Ref sig .tc := ⟨.hbm, 319, rfl⟩
abbrev main_call11_v11 : Ref sig .tc := ⟨.hbm, 320, rfl⟩
abbrev main_call11_c_3 : Ref sig .tc := ⟨.hbm, 321, rfl⟩
abbrev main_call11_v12 : Ref sig .tc := ⟨.hbm, 322, rfl⟩
abbrev main_call11_v13 : Ref sig .tc := ⟨.hbm, 323, rfl⟩
abbrev main_call11_v14 : Ref sig .tc := ⟨.hbm, 324, rfl⟩
abbrev main_call11_cst : Ref sig .tc := ⟨.hbm, 325, rfl⟩
abbrev main_call11_v15 : Ref sig .tc := ⟨.hbm, 326, rfl⟩
abbrev main_v53 : Ref sig .tc := ⟨.hbm, 327, rfl⟩
abbrev main_v54 : Ref sig .tc := ⟨.hbm, 328, rfl⟩
abbrev main_v55 : Ref sig .tc := ⟨.hbm, 329, rfl⟩
abbrev main_v56 : Ref sig .tc := ⟨.hbm, 330, rfl⟩
abbrev main_call12_c : Ref sig .tc := ⟨.hbm, 331, rfl⟩
abbrev main_call12_v0 : Ref sig .tc := ⟨.hbm, 332, rfl⟩
abbrev main_call12_v1 : Ref sig .tc := ⟨.hbm, 333, rfl⟩
abbrev main_call12_c_0 : Ref sig .tc := ⟨.hbm, 334, rfl⟩
abbrev main_call12_v2 : Ref sig .tc := ⟨.hbm, 335, rfl⟩
abbrev main_call12_v3 : Ref sig .tc := ⟨.hbm, 336, rfl⟩
abbrev main_call12_v4 : Ref sig .tc := ⟨.hbm, 337, rfl⟩
abbrev main_call12_v5 : Ref sig .tc := ⟨.hbm, 338, rfl⟩
abbrev main_call12_c_1 : Ref sig .tc := ⟨.hbm, 339, rfl⟩
abbrev main_call12_c_2 : Ref sig .tc := ⟨.hbm, 340, rfl⟩
abbrev main_call12_v6 : Ref sig .tc := ⟨.hbm, 341, rfl⟩
abbrev main_call12_v7 : Ref sig .tc := ⟨.hbm, 342, rfl⟩
abbrev main_call12_v8 : Ref sig .tc := ⟨.hbm, 343, rfl⟩
abbrev main_call12_v9 : Ref sig .tc := ⟨.hbm, 344, rfl⟩
abbrev main_call12_v10 : Ref sig .tc := ⟨.hbm, 345, rfl⟩
abbrev main_call12_v11 : Ref sig .tc := ⟨.hbm, 346, rfl⟩
abbrev main_call12_c_3 : Ref sig .tc := ⟨.hbm, 347, rfl⟩
abbrev main_call12_v12 : Ref sig .tc := ⟨.hbm, 348, rfl⟩
abbrev main_call12_v13 : Ref sig .tc := ⟨.hbm, 349, rfl⟩
abbrev main_call12_v14 : Ref sig .tc := ⟨.hbm, 350, rfl⟩
abbrev main_call12_cst : Ref sig .tc := ⟨.hbm, 351, rfl⟩
abbrev main_call12_v15 : Ref sig .tc := ⟨.hbm, 352, rfl⟩
abbrev main_v57 : Ref sig .tc := ⟨.hbm, 353, rfl⟩
abbrev main_v58 : Ref sig .tc := ⟨.hbm, 354, rfl⟩
abbrev main_v59 : Ref sig .tc := ⟨.hbm, 355, rfl⟩
abbrev main_v60 : Ref sig .tc := ⟨.hbm, 356, rfl⟩
abbrev main_call13_c : Ref sig .tc := ⟨.hbm, 357, rfl⟩
abbrev main_call13_v0 : Ref sig .tc := ⟨.hbm, 358, rfl⟩
abbrev main_call13_v1 : Ref sig .tc := ⟨.hbm, 359, rfl⟩
abbrev main_call13_c_0 : Ref sig .tc := ⟨.hbm, 360, rfl⟩
abbrev main_call13_v2 : Ref sig .tc := ⟨.hbm, 361, rfl⟩
abbrev main_call13_v3 : Ref sig .tc := ⟨.hbm, 362, rfl⟩
abbrev main_call13_v4 : Ref sig .tc := ⟨.hbm, 363, rfl⟩
abbrev main_call13_v5 : Ref sig .tc := ⟨.hbm, 364, rfl⟩
abbrev main_call13_c_1 : Ref sig .tc := ⟨.hbm, 365, rfl⟩
abbrev main_call13_c_2 : Ref sig .tc := ⟨.hbm, 366, rfl⟩
abbrev main_call13_v6 : Ref sig .tc := ⟨.hbm, 367, rfl⟩
abbrev main_call13_v7 : Ref sig .tc := ⟨.hbm, 368, rfl⟩
abbrev main_call13_v8 : Ref sig .tc := ⟨.hbm, 369, rfl⟩
abbrev main_call13_v9 : Ref sig .tc := ⟨.hbm, 370, rfl⟩
abbrev main_call13_v10 : Ref sig .tc := ⟨.hbm, 371, rfl⟩
abbrev main_call13_v11 : Ref sig .tc := ⟨.hbm, 372, rfl⟩
abbrev main_call13_c_3 : Ref sig .tc := ⟨.hbm, 373, rfl⟩
abbrev main_call13_v12 : Ref sig .tc := ⟨.hbm, 374, rfl⟩
abbrev main_call13_v13 : Ref sig .tc := ⟨.hbm, 375, rfl⟩
abbrev main_call13_v14 : Ref sig .tc := ⟨.hbm, 376, rfl⟩
abbrev main_call13_cst : Ref sig .tc := ⟨.hbm, 377, rfl⟩
abbrev main_call13_v15 : Ref sig .tc := ⟨.hbm, 378, rfl⟩
abbrev main_v61 : Ref sig .tc := ⟨.hbm, 379, rfl⟩
abbrev main_v62 : Ref sig .tc := ⟨.hbm, 380, rfl⟩
abbrev main_v63 : Ref sig .tc := ⟨.hbm, 381, rfl⟩
abbrev main_v64 : Ref sig .tc := ⟨.hbm, 382, rfl⟩
abbrev main_call14_c : Ref sig .tc := ⟨.hbm, 383, rfl⟩
abbrev main_call14_v0 : Ref sig .tc := ⟨.hbm, 384, rfl⟩
abbrev main_call14_v1 : Ref sig .tc := ⟨.hbm, 385, rfl⟩
abbrev main_call14_c_0 : Ref sig .tc := ⟨.hbm, 386, rfl⟩
abbrev main_call14_v2 : Ref sig .tc := ⟨.hbm, 387, rfl⟩
abbrev main_call14_v3 : Ref sig .tc := ⟨.hbm, 388, rfl⟩
abbrev main_call14_v4 : Ref sig .tc := ⟨.hbm, 389, rfl⟩
abbrev main_call14_v5 : Ref sig .tc := ⟨.hbm, 390, rfl⟩
abbrev main_call14_c_1 : Ref sig .tc := ⟨.hbm, 391, rfl⟩
abbrev main_call14_c_2 : Ref sig .tc := ⟨.hbm, 392, rfl⟩
abbrev main_call14_v6 : Ref sig .tc := ⟨.hbm, 393, rfl⟩
abbrev main_call14_v7 : Ref sig .tc := ⟨.hbm, 394, rfl⟩
abbrev main_call14_v8 : Ref sig .tc := ⟨.hbm, 395, rfl⟩
abbrev main_call14_v9 : Ref sig .tc := ⟨.hbm, 396, rfl⟩
abbrev main_call14_v10 : Ref sig .tc := ⟨.hbm, 397, rfl⟩
abbrev main_call14_v11 : Ref sig .tc := ⟨.hbm, 398, rfl⟩
abbrev main_call14_c_3 : Ref sig .tc := ⟨.hbm, 399, rfl⟩
abbrev main_call14_v12 : Ref sig .tc := ⟨.hbm, 400, rfl⟩
abbrev main_call14_v13 : Ref sig .tc := ⟨.hbm, 401, rfl⟩
abbrev main_call14_v14 : Ref sig .tc := ⟨.hbm, 402, rfl⟩
abbrev main_call14_cst : Ref sig .tc := ⟨.hbm, 403, rfl⟩
abbrev main_call14_v15 : Ref sig .tc := ⟨.hbm, 404, rfl⟩
abbrev main_v65 : Ref sig .tc := ⟨.hbm, 405, rfl⟩
abbrev main_v66 : Ref sig .tc := ⟨.hbm, 406, rfl⟩
abbrev main_v67 : Ref sig .tc := ⟨.hbm, 407, rfl⟩
abbrev main_v68 : Ref sig .tc := ⟨.hbm, 408, rfl⟩
abbrev main_call15_c : Ref sig .tc := ⟨.hbm, 409, rfl⟩
abbrev main_call15_v0 : Ref sig .tc := ⟨.hbm, 410, rfl⟩
abbrev main_call15_v1 : Ref sig .tc := ⟨.hbm, 411, rfl⟩
abbrev main_call15_c_0 : Ref sig .tc := ⟨.hbm, 412, rfl⟩
abbrev main_call15_v2 : Ref sig .tc := ⟨.hbm, 413, rfl⟩
abbrev main_call15_v3 : Ref sig .tc := ⟨.hbm, 414, rfl⟩
abbrev main_call15_v4 : Ref sig .tc := ⟨.hbm, 415, rfl⟩
abbrev main_call15_v5 : Ref sig .tc := ⟨.hbm, 416, rfl⟩
abbrev main_call15_c_1 : Ref sig .tc := ⟨.hbm, 417, rfl⟩
abbrev main_call15_c_2 : Ref sig .tc := ⟨.hbm, 418, rfl⟩
abbrev main_call15_v6 : Ref sig .tc := ⟨.hbm, 419, rfl⟩
abbrev main_call15_v7 : Ref sig .tc := ⟨.hbm, 420, rfl⟩
abbrev main_call15_v8 : Ref sig .tc := ⟨.hbm, 421, rfl⟩
abbrev main_call15_v9 : Ref sig .tc := ⟨.hbm, 422, rfl⟩
abbrev main_call15_v10 : Ref sig .tc := ⟨.hbm, 423, rfl⟩
abbrev main_call15_v11 : Ref sig .tc := ⟨.hbm, 424, rfl⟩
abbrev main_call15_c_3 : Ref sig .tc := ⟨.hbm, 425, rfl⟩
abbrev main_call15_v12 : Ref sig .tc := ⟨.hbm, 426, rfl⟩
abbrev main_call15_v13 : Ref sig .tc := ⟨.hbm, 427, rfl⟩
abbrev main_call15_v14 : Ref sig .tc := ⟨.hbm, 428, rfl⟩
abbrev main_call15_cst : Ref sig .tc := ⟨.hbm, 429, rfl⟩
abbrev main_call15_v15 : Ref sig .tc := ⟨.hbm, 430, rfl⟩
abbrev main_v69 : Ref sig .tc := ⟨.hbm, 431, rfl⟩
abbrev main_v70 : Ref sig .tc := ⟨.hbm, 432, rfl⟩
abbrev main_v71 : Ref sig .tc := ⟨.hbm, 433, rfl⟩
abbrev main_v72 : Ref sig .tc := ⟨.hbm, 434, rfl⟩
abbrev main_call16_c : Ref sig .tc := ⟨.hbm, 435, rfl⟩
abbrev main_call16_v0 : Ref sig .tc := ⟨.hbm, 436, rfl⟩
abbrev main_call16_v1 : Ref sig .tc := ⟨.hbm, 437, rfl⟩
abbrev main_call16_c_0 : Ref sig .tc := ⟨.hbm, 438, rfl⟩
abbrev main_call16_v2 : Ref sig .tc := ⟨.hbm, 439, rfl⟩
abbrev main_call16_v3 : Ref sig .tc := ⟨.hbm, 440, rfl⟩
abbrev main_call16_v4 : Ref sig .tc := ⟨.hbm, 441, rfl⟩
abbrev main_call16_v5 : Ref sig .tc := ⟨.hbm, 442, rfl⟩
abbrev main_call16_c_1 : Ref sig .tc := ⟨.hbm, 443, rfl⟩
abbrev main_call16_c_2 : Ref sig .tc := ⟨.hbm, 444, rfl⟩
abbrev main_call16_v6 : Ref sig .tc := ⟨.hbm, 445, rfl⟩
abbrev main_call16_v7 : Ref sig .tc := ⟨.hbm, 446, rfl⟩
abbrev main_call16_v8 : Ref sig .tc := ⟨.hbm, 447, rfl⟩
abbrev main_call16_v9 : Ref sig .tc := ⟨.hbm, 448, rfl⟩
abbrev main_call16_v10 : Ref sig .tc := ⟨.hbm, 449, rfl⟩
abbrev main_call16_v11 : Ref sig .tc := ⟨.hbm, 450, rfl⟩
abbrev main_call16_c_3 : Ref sig .tc := ⟨.hbm, 451, rfl⟩
abbrev main_call16_v12 : Ref sig .tc := ⟨.hbm, 452, rfl⟩
abbrev main_call16_v13 : Ref sig .tc := ⟨.hbm, 453, rfl⟩
abbrev main_call16_v14 : Ref sig .tc := ⟨.hbm, 454, rfl⟩
abbrev main_call16_cst : Ref sig .tc := ⟨.hbm, 455, rfl⟩
abbrev main_call16_v15 : Ref sig .tc := ⟨.hbm, 456, rfl⟩
abbrev main_v73 : Ref sig .tc := ⟨.hbm, 457, rfl⟩
abbrev main_v74 : Ref sig .tc := ⟨.hbm, 458, rfl⟩
abbrev main_v75 : Ref sig .tc := ⟨.hbm, 459, rfl⟩
abbrev main_v76 : Ref sig .tc := ⟨.hbm, 460, rfl⟩
abbrev main_call17_c : Ref sig .tc := ⟨.hbm, 461, rfl⟩
abbrev main_call17_v0 : Ref sig .tc := ⟨.hbm, 462, rfl⟩
abbrev main_call17_v1 : Ref sig .tc := ⟨.hbm, 463, rfl⟩
abbrev main_call17_c_0 : Ref sig .tc := ⟨.hbm, 464, rfl⟩
abbrev main_call17_v2 : Ref sig .tc := ⟨.hbm, 465, rfl⟩
abbrev main_call17_v3 : Ref sig .tc := ⟨.hbm, 466, rfl⟩
abbrev main_call17_v4 : Ref sig .tc := ⟨.hbm, 467, rfl⟩
abbrev main_call17_v5 : Ref sig .tc := ⟨.hbm, 468, rfl⟩
abbrev main_call17_c_1 : Ref sig .tc := ⟨.hbm, 469, rfl⟩
abbrev main_call17_c_2 : Ref sig .tc := ⟨.hbm, 470, rfl⟩
abbrev main_call17_v6 : Ref sig .tc := ⟨.hbm, 471, rfl⟩
abbrev main_call17_v7 : Ref sig .tc := ⟨.hbm, 472, rfl⟩
abbrev main_call17_v8 : Ref sig .tc := ⟨.hbm, 473, rfl⟩
abbrev main_call17_v9 : Ref sig .tc := ⟨.hbm, 474, rfl⟩
abbrev main_call17_v10 : Ref sig .tc := ⟨.hbm, 475, rfl⟩
abbrev main_call17_v11 : Ref sig .tc := ⟨.hbm, 476, rfl⟩
abbrev main_call17_c_3 : Ref sig .tc := ⟨.hbm, 477, rfl⟩
abbrev main_call17_v12 : Ref sig .tc := ⟨.hbm, 478, rfl⟩
abbrev main_call17_v13 : Ref sig .tc := ⟨.hbm, 479, rfl⟩
abbrev main_call17_v14 : Ref sig .tc := ⟨.hbm, 480, rfl⟩
abbrev main_call17_cst : Ref sig .tc := ⟨.hbm, 481, rfl⟩
abbrev main_call17_v15 : Ref sig .tc := ⟨.hbm, 482, rfl⟩
abbrev main_v77 : Ref sig .tc := ⟨.hbm, 483, rfl⟩
abbrev main_v78 : Ref sig .tc := ⟨.hbm, 484, rfl⟩
abbrev main_v79 : Ref sig .tc := ⟨.hbm, 485, rfl⟩
abbrev main_v80 : Ref sig .tc := ⟨.hbm, 486, rfl⟩
abbrev main_call18_c : Ref sig .tc := ⟨.hbm, 487, rfl⟩
abbrev main_call18_v0 : Ref sig .tc := ⟨.hbm, 488, rfl⟩
abbrev main_call18_v1 : Ref sig .tc := ⟨.hbm, 489, rfl⟩
abbrev main_call18_c_0 : Ref sig .tc := ⟨.hbm, 490, rfl⟩
abbrev main_call18_v2 : Ref sig .tc := ⟨.hbm, 491, rfl⟩
abbrev main_call18_v3 : Ref sig .tc := ⟨.hbm, 492, rfl⟩
abbrev main_call18_v4 : Ref sig .tc := ⟨.hbm, 493, rfl⟩
abbrev main_call18_v5 : Ref sig .tc := ⟨.hbm, 494, rfl⟩
abbrev main_call18_c_1 : Ref sig .tc := ⟨.hbm, 495, rfl⟩
abbrev main_call18_c_2 : Ref sig .tc := ⟨.hbm, 496, rfl⟩
abbrev main_call18_v6 : Ref sig .tc := ⟨.hbm, 497, rfl⟩
abbrev main_call18_v7 : Ref sig .tc := ⟨.hbm, 498, rfl⟩
abbrev main_call18_v8 : Ref sig .tc := ⟨.hbm, 499, rfl⟩
abbrev main_call18_v9 : Ref sig .tc := ⟨.hbm, 500, rfl⟩
abbrev main_call18_v10 : Ref sig .tc := ⟨.hbm, 501, rfl⟩
abbrev main_call18_v11 : Ref sig .tc := ⟨.hbm, 502, rfl⟩
abbrev main_call18_c_3 : Ref sig .tc := ⟨.hbm, 503, rfl⟩
abbrev main_call18_v12 : Ref sig .tc := ⟨.hbm, 504, rfl⟩
abbrev main_call18_v13 : Ref sig .tc := ⟨.hbm, 505, rfl⟩
abbrev main_call18_v14 : Ref sig .tc := ⟨.hbm, 506, rfl⟩
abbrev main_call18_cst : Ref sig .tc := ⟨.hbm, 507, rfl⟩
abbrev main_call18_v15 : Ref sig .tc := ⟨.hbm, 508, rfl⟩
abbrev main_v81 : Ref sig .tc := ⟨.hbm, 509, rfl⟩
abbrev main_v82 : Ref sig .tc := ⟨.hbm, 510, rfl⟩
abbrev main_v83 : Ref sig .tc := ⟨.hbm, 511, rfl⟩
abbrev main_v84 : Ref sig .tc := ⟨.hbm, 512, rfl⟩
abbrev main_call19_c : Ref sig .tc := ⟨.hbm, 513, rfl⟩
abbrev main_call19_v0 : Ref sig .tc := ⟨.hbm, 514, rfl⟩
abbrev main_call19_v1 : Ref sig .tc := ⟨.hbm, 515, rfl⟩
abbrev main_call19_c_0 : Ref sig .tc := ⟨.hbm, 516, rfl⟩
abbrev main_call19_v2 : Ref sig .tc := ⟨.hbm, 517, rfl⟩
abbrev main_call19_v3 : Ref sig .tc := ⟨.hbm, 518, rfl⟩
abbrev main_call19_v4 : Ref sig .tc := ⟨.hbm, 519, rfl⟩
abbrev main_call19_v5 : Ref sig .tc := ⟨.hbm, 520, rfl⟩
abbrev main_call19_c_1 : Ref sig .tc := ⟨.hbm, 521, rfl⟩
abbrev main_call19_c_2 : Ref sig .tc := ⟨.hbm, 522, rfl⟩
abbrev main_call19_v6 : Ref sig .tc := ⟨.hbm, 523, rfl⟩
abbrev main_call19_v7 : Ref sig .tc := ⟨.hbm, 524, rfl⟩
abbrev main_call19_v8 : Ref sig .tc := ⟨.hbm, 525, rfl⟩
abbrev main_call19_v9 : Ref sig .tc := ⟨.hbm, 526, rfl⟩
abbrev main_call19_v10 : Ref sig .tc := ⟨.hbm, 527, rfl⟩
abbrev main_call19_v11 : Ref sig .tc := ⟨.hbm, 528, rfl⟩
abbrev main_call19_c_3 : Ref sig .tc := ⟨.hbm, 529, rfl⟩
abbrev main_call19_v12 : Ref sig .tc := ⟨.hbm, 530, rfl⟩
abbrev main_call19_v13 : Ref sig .tc := ⟨.hbm, 531, rfl⟩
abbrev main_call19_v14 : Ref sig .tc := ⟨.hbm, 532, rfl⟩
abbrev main_call19_cst : Ref sig .tc := ⟨.hbm, 533, rfl⟩
abbrev main_call19_v15 : Ref sig .tc := ⟨.hbm, 534, rfl⟩
abbrev main_v85 : Ref sig .tc := ⟨.hbm, 535, rfl⟩
abbrev main_v86 : Ref sig .tc := ⟨.hbm, 536, rfl⟩
abbrev main_v87 : Ref sig .tc := ⟨.hbm, 537, rfl⟩
abbrev main_v88 : Ref sig .tc := ⟨.hbm, 538, rfl⟩
abbrev main_call20_c : Ref sig .tc := ⟨.hbm, 539, rfl⟩
abbrev main_call20_v0 : Ref sig .tc := ⟨.hbm, 540, rfl⟩
abbrev main_call20_v1 : Ref sig .tc := ⟨.hbm, 541, rfl⟩
abbrev main_call20_c_0 : Ref sig .tc := ⟨.hbm, 542, rfl⟩
abbrev main_call20_v2 : Ref sig .tc := ⟨.hbm, 543, rfl⟩
abbrev main_call20_v3 : Ref sig .tc := ⟨.hbm, 544, rfl⟩
abbrev main_call20_v4 : Ref sig .tc := ⟨.hbm, 545, rfl⟩
abbrev main_call20_v5 : Ref sig .tc := ⟨.hbm, 546, rfl⟩
abbrev main_call20_c_1 : Ref sig .tc := ⟨.hbm, 547, rfl⟩
abbrev main_call20_c_2 : Ref sig .tc := ⟨.hbm, 548, rfl⟩
abbrev main_call20_v6 : Ref sig .tc := ⟨.hbm, 549, rfl⟩
abbrev main_call20_v7 : Ref sig .tc := ⟨.hbm, 550, rfl⟩
abbrev main_call20_v8 : Ref sig .tc := ⟨.hbm, 551, rfl⟩
abbrev main_call20_v9 : Ref sig .tc := ⟨.hbm, 552, rfl⟩
abbrev main_call20_v10 : Ref sig .tc := ⟨.hbm, 553, rfl⟩
abbrev main_call20_v11 : Ref sig .tc := ⟨.hbm, 554, rfl⟩
abbrev main_call20_c_3 : Ref sig .tc := ⟨.hbm, 555, rfl⟩
abbrev main_call20_v12 : Ref sig .tc := ⟨.hbm, 556, rfl⟩
abbrev main_call20_v13 : Ref sig .tc := ⟨.hbm, 557, rfl⟩
abbrev main_call20_v14 : Ref sig .tc := ⟨.hbm, 558, rfl⟩
abbrev main_call20_cst : Ref sig .tc := ⟨.hbm, 559, rfl⟩
abbrev main_call20_v15 : Ref sig .tc := ⟨.hbm, 560, rfl⟩
abbrev main_v89 : Ref sig .tc := ⟨.hbm, 561, rfl⟩
abbrev main_v90 : Ref sig .tc := ⟨.hbm, 562, rfl⟩
abbrev main_v91 : Ref sig .tc := ⟨.hbm, 563, rfl⟩
abbrev main_v92 : Ref sig .tc := ⟨.hbm, 564, rfl⟩
abbrev main_call21_c : Ref sig .tc := ⟨.hbm, 565, rfl⟩
abbrev main_call21_v0 : Ref sig .tc := ⟨.hbm, 566, rfl⟩
abbrev main_call21_v1 : Ref sig .tc := ⟨.hbm, 567, rfl⟩
abbrev main_call21_c_0 : Ref sig .tc := ⟨.hbm, 568, rfl⟩
abbrev main_call21_v2 : Ref sig .tc := ⟨.hbm, 569, rfl⟩
abbrev main_call21_v3 : Ref sig .tc := ⟨.hbm, 570, rfl⟩
abbrev main_call21_v4 : Ref sig .tc := ⟨.hbm, 571, rfl⟩
abbrev main_call21_v5 : Ref sig .tc := ⟨.hbm, 572, rfl⟩
abbrev main_call21_c_1 : Ref sig .tc := ⟨.hbm, 573, rfl⟩
abbrev main_call21_c_2 : Ref sig .tc := ⟨.hbm, 574, rfl⟩
abbrev main_call21_v6 : Ref sig .tc := ⟨.hbm, 575, rfl⟩
abbrev main_call21_v7 : Ref sig .tc := ⟨.hbm, 576, rfl⟩
abbrev main_call21_v8 : Ref sig .tc := ⟨.hbm, 577, rfl⟩
abbrev main_call21_v9 : Ref sig .tc := ⟨.hbm, 578, rfl⟩
abbrev main_call21_v10 : Ref sig .tc := ⟨.hbm, 579, rfl⟩
abbrev main_call21_v11 : Ref sig .tc := ⟨.hbm, 580, rfl⟩
abbrev main_call21_c_3 : Ref sig .tc := ⟨.hbm, 581, rfl⟩
abbrev main_call21_v12 : Ref sig .tc := ⟨.hbm, 582, rfl⟩
abbrev main_call21_v13 : Ref sig .tc := ⟨.hbm, 583, rfl⟩
abbrev main_call21_v14 : Ref sig .tc := ⟨.hbm, 584, rfl⟩
abbrev main_call21_cst : Ref sig .tc := ⟨.hbm, 585, rfl⟩
abbrev main_call21_v15 : Ref sig .tc := ⟨.hbm, 586, rfl⟩
abbrev main_v93 : Ref sig .tc := ⟨.hbm, 587, rfl⟩
abbrev main_v94 : Ref sig .tc := ⟨.hbm, 588, rfl⟩
abbrev main_v95 : Ref sig .tc := ⟨.hbm, 589, rfl⟩
abbrev main_v96 : Ref sig .tc := ⟨.hbm, 590, rfl⟩
abbrev main_call22_c : Ref sig .tc := ⟨.hbm, 591, rfl⟩
abbrev main_call22_v0 : Ref sig .tc := ⟨.hbm, 592, rfl⟩
abbrev main_call22_v1 : Ref sig .tc := ⟨.hbm, 593, rfl⟩
abbrev main_call22_c_0 : Ref sig .tc := ⟨.hbm, 594, rfl⟩
abbrev main_call22_v2 : Ref sig .tc := ⟨.hbm, 595, rfl⟩
abbrev main_call22_v3 : Ref sig .tc := ⟨.hbm, 596, rfl⟩
abbrev main_call22_v4 : Ref sig .tc := ⟨.hbm, 597, rfl⟩
abbrev main_call22_v5 : Ref sig .tc := ⟨.hbm, 598, rfl⟩
abbrev main_call22_c_1 : Ref sig .tc := ⟨.hbm, 599, rfl⟩
abbrev main_call22_c_2 : Ref sig .tc := ⟨.hbm, 600, rfl⟩
abbrev main_call22_v6 : Ref sig .tc := ⟨.hbm, 601, rfl⟩
abbrev main_call22_v7 : Ref sig .tc := ⟨.hbm, 602, rfl⟩
abbrev main_call22_v8 : Ref sig .tc := ⟨.hbm, 603, rfl⟩
abbrev main_call22_v9 : Ref sig .tc := ⟨.hbm, 604, rfl⟩
abbrev main_call22_v10 : Ref sig .tc := ⟨.hbm, 605, rfl⟩
abbrev main_call22_v11 : Ref sig .tc := ⟨.hbm, 606, rfl⟩
abbrev main_call22_c_3 : Ref sig .tc := ⟨.hbm, 607, rfl⟩
abbrev main_call22_v12 : Ref sig .tc := ⟨.hbm, 608, rfl⟩
abbrev main_call22_v13 : Ref sig .tc := ⟨.hbm, 609, rfl⟩
abbrev main_call22_v14 : Ref sig .tc := ⟨.hbm, 610, rfl⟩
abbrev main_call22_cst : Ref sig .tc := ⟨.hbm, 611, rfl⟩
abbrev main_call22_v15 : Ref sig .tc := ⟨.hbm, 612, rfl⟩
abbrev main_v97 : Ref sig .tc := ⟨.hbm, 613, rfl⟩
abbrev main_v98 : Ref sig .tc := ⟨.hbm, 614, rfl⟩
abbrev main_v99 : Ref sig .tc := ⟨.hbm, 615, rfl⟩
abbrev main_v100 : Ref sig .tc := ⟨.hbm, 616, rfl⟩
abbrev main_call23_c : Ref sig .tc := ⟨.hbm, 617, rfl⟩
abbrev main_call23_v0 : Ref sig .tc := ⟨.hbm, 618, rfl⟩
abbrev main_call23_v1 : Ref sig .tc := ⟨.hbm, 619, rfl⟩
abbrev main_call23_c_0 : Ref sig .tc := ⟨.hbm, 620, rfl⟩
abbrev main_call23_v2 : Ref sig .tc := ⟨.hbm, 621, rfl⟩
abbrev main_call23_v3 : Ref sig .tc := ⟨.hbm, 622, rfl⟩
abbrev main_call23_v4 : Ref sig .tc := ⟨.hbm, 623, rfl⟩
abbrev main_call23_v5 : Ref sig .tc := ⟨.hbm, 624, rfl⟩
abbrev main_call23_c_1 : Ref sig .tc := ⟨.hbm, 625, rfl⟩
abbrev main_call23_c_2 : Ref sig .tc := ⟨.hbm, 626, rfl⟩
abbrev main_call23_v6 : Ref sig .tc := ⟨.hbm, 627, rfl⟩
abbrev main_call23_v7 : Ref sig .tc := ⟨.hbm, 628, rfl⟩
abbrev main_call23_v8 : Ref sig .tc := ⟨.hbm, 629, rfl⟩
abbrev main_call23_v9 : Ref sig .tc := ⟨.hbm, 630, rfl⟩
abbrev main_call23_v10 : Ref sig .tc := ⟨.hbm, 631, rfl⟩
abbrev main_call23_v11 : Ref sig .tc := ⟨.hbm, 632, rfl⟩
abbrev main_call23_c_3 : Ref sig .tc := ⟨.hbm, 633, rfl⟩
abbrev main_call23_v12 : Ref sig .tc := ⟨.hbm, 634, rfl⟩
abbrev main_call23_v13 : Ref sig .tc := ⟨.hbm, 635, rfl⟩
abbrev main_call23_v14 : Ref sig .tc := ⟨.hbm, 636, rfl⟩
abbrev main_call23_cst : Ref sig .tc := ⟨.hbm, 637, rfl⟩
abbrev main_call23_v15 : Ref sig .tc := ⟨.hbm, 638, rfl⟩
abbrev main_v101 : Ref sig .tc := ⟨.hbm, 639, rfl⟩
abbrev main_v102 : Ref sig .tc := ⟨.hbm, 640, rfl⟩
abbrev main_v103 : Ref sig .tc := ⟨.hbm, 641, rfl⟩
abbrev main_v104 : Ref sig .tc := ⟨.hbm, 642, rfl⟩
abbrev main_call24_c : Ref sig .tc := ⟨.hbm, 643, rfl⟩
abbrev main_call24_v0 : Ref sig .tc := ⟨.hbm, 644, rfl⟩
abbrev main_call24_v1 : Ref sig .tc := ⟨.hbm, 645, rfl⟩
abbrev main_call24_c_0 : Ref sig .tc := ⟨.hbm, 646, rfl⟩
abbrev main_call24_v2 : Ref sig .tc := ⟨.hbm, 647, rfl⟩
abbrev main_call24_v3 : Ref sig .tc := ⟨.hbm, 648, rfl⟩
abbrev main_call24_v4 : Ref sig .tc := ⟨.hbm, 649, rfl⟩
abbrev main_call24_v5 : Ref sig .tc := ⟨.hbm, 650, rfl⟩
abbrev main_call24_c_1 : Ref sig .tc := ⟨.hbm, 651, rfl⟩
abbrev main_call24_c_2 : Ref sig .tc := ⟨.hbm, 652, rfl⟩
abbrev main_call24_v6 : Ref sig .tc := ⟨.hbm, 653, rfl⟩
abbrev main_call24_v7 : Ref sig .tc := ⟨.hbm, 654, rfl⟩
abbrev main_call24_v8 : Ref sig .tc := ⟨.hbm, 655, rfl⟩
abbrev main_call24_v9 : Ref sig .tc := ⟨.hbm, 656, rfl⟩
abbrev main_call24_v10 : Ref sig .tc := ⟨.hbm, 657, rfl⟩
abbrev main_call24_v11 : Ref sig .tc := ⟨.hbm, 658, rfl⟩
abbrev main_call24_c_3 : Ref sig .tc := ⟨.hbm, 659, rfl⟩
abbrev main_call24_v12 : Ref sig .tc := ⟨.hbm, 660, rfl⟩
abbrev main_call24_v13 : Ref sig .tc := ⟨.hbm, 661, rfl⟩
abbrev main_call24_v14 : Ref sig .tc := ⟨.hbm, 662, rfl⟩
abbrev main_call24_cst : Ref sig .tc := ⟨.hbm, 663, rfl⟩
abbrev main_call24_v15 : Ref sig .tc := ⟨.hbm, 664, rfl⟩
abbrev main_v105 : Ref sig .tc := ⟨.hbm, 665, rfl⟩
abbrev main_v106 : Ref sig .tc := ⟨.hbm, 666, rfl⟩
abbrev main_cst_0 : Ref sig .tc := ⟨.hbm, 667, rfl⟩
abbrev main_v107 : Ref sig .tc := ⟨.hbm, 668, rfl⟩
abbrev main_v108 : Ref sig .tc := ⟨.hbm, 669, rfl⟩
abbrev main_v109 : Ref sig .tc := ⟨.hbm, 670, rfl⟩
abbrev main_v110 : Ref sig .tc := ⟨.hbm, 671, rfl⟩
abbrev main_v111 : Ref sig .tc := ⟨.hbm, 672, rfl⟩
abbrev main_cst_1 : Ref sig .tc := ⟨.hbm, 673, rfl⟩
abbrev main_v112 : Ref sig .tc := ⟨.hbm, 674, rfl⟩
abbrev main_v113 : Ref sig .tc := ⟨.hbm, 675, rfl⟩
abbrev main_v114 : Ref sig .tc := ⟨.hbm, 676, rfl⟩
abbrev main_call25_c : Ref sig .tc := ⟨.hbm, 677, rfl⟩
abbrev main_call25_v0 : Ref sig .tc := ⟨.hbm, 678, rfl⟩
abbrev main_call25_v1 : Ref sig .tc := ⟨.hbm, 679, rfl⟩
abbrev main_call25_c_0 : Ref sig .tc := ⟨.hbm, 680, rfl⟩
abbrev main_call25_v2 : Ref sig .tc := ⟨.hbm, 681, rfl⟩
abbrev main_call25_v3 : Ref sig .tc := ⟨.hbm, 682, rfl⟩
abbrev main_call25_v4 : Ref sig .tc := ⟨.hbm, 683, rfl⟩
abbrev main_call25_v5 : Ref sig .tc := ⟨.hbm, 684, rfl⟩
abbrev main_call25_c_1 : Ref sig .tc := ⟨.hbm, 685, rfl⟩
abbrev main_call25_c_2 : Ref sig .tc := ⟨.hbm, 686, rfl⟩
abbrev main_call25_v6 : Ref sig .tc := ⟨.hbm, 687, rfl⟩
abbrev main_call25_v7 : Ref sig .tc := ⟨.hbm, 688, rfl⟩
abbrev main_call25_v8 : Ref sig .tc := ⟨.hbm, 689, rfl⟩
abbrev main_call25_v9 : Ref sig .tc := ⟨.hbm, 690, rfl⟩
abbrev main_call25_v10 : Ref sig .tc := ⟨.hbm, 691, rfl⟩
abbrev main_call25_v11 : Ref sig .tc := ⟨.hbm, 692, rfl⟩
abbrev main_call25_c_3 : Ref sig .tc := ⟨.hbm, 693, rfl⟩
abbrev main_call25_v12 : Ref sig .tc := ⟨.hbm, 694, rfl⟩
abbrev main_call25_v13 : Ref sig .tc := ⟨.hbm, 695, rfl⟩
abbrev main_call25_v14 : Ref sig .tc := ⟨.hbm, 696, rfl⟩
abbrev main_call25_cst : Ref sig .tc := ⟨.hbm, 697, rfl⟩
abbrev main_call25_v15 : Ref sig .tc := ⟨.hbm, 698, rfl⟩
abbrev main_v115 : Ref sig .tc := ⟨.hbm, 699, rfl⟩
abbrev main_v116 : Ref sig .tc := ⟨.hbm, 700, rfl⟩
abbrev main_v117 : Ref sig .tc := ⟨.hbm, 701, rfl⟩
abbrev main_v118 : Ref sig .tc := ⟨.hbm, 702, rfl⟩
abbrev main_call26_c : Ref sig .tc := ⟨.hbm, 703, rfl⟩
abbrev main_call26_v0 : Ref sig .tc := ⟨.hbm, 704, rfl⟩
abbrev main_call26_v1 : Ref sig .tc := ⟨.hbm, 705, rfl⟩
abbrev main_call26_c_0 : Ref sig .tc := ⟨.hbm, 706, rfl⟩
abbrev main_call26_v2 : Ref sig .tc := ⟨.hbm, 707, rfl⟩
abbrev main_call26_v3 : Ref sig .tc := ⟨.hbm, 708, rfl⟩
abbrev main_call26_v4 : Ref sig .tc := ⟨.hbm, 709, rfl⟩
abbrev main_call26_v5 : Ref sig .tc := ⟨.hbm, 710, rfl⟩
abbrev main_call26_c_1 : Ref sig .tc := ⟨.hbm, 711, rfl⟩
abbrev main_call26_c_2 : Ref sig .tc := ⟨.hbm, 712, rfl⟩
abbrev main_call26_v6 : Ref sig .tc := ⟨.hbm, 713, rfl⟩
abbrev main_call26_v7 : Ref sig .tc := ⟨.hbm, 714, rfl⟩
abbrev main_call26_v8 : Ref sig .tc := ⟨.hbm, 715, rfl⟩
abbrev main_call26_v9 : Ref sig .tc := ⟨.hbm, 716, rfl⟩
abbrev main_call26_v10 : Ref sig .tc := ⟨.hbm, 717, rfl⟩
abbrev main_call26_v11 : Ref sig .tc := ⟨.hbm, 718, rfl⟩
abbrev main_call26_c_3 : Ref sig .tc := ⟨.hbm, 719, rfl⟩
abbrev main_call26_v12 : Ref sig .tc := ⟨.hbm, 720, rfl⟩
abbrev main_call26_v13 : Ref sig .tc := ⟨.hbm, 721, rfl⟩
abbrev main_call26_v14 : Ref sig .tc := ⟨.hbm, 722, rfl⟩
abbrev main_call26_cst : Ref sig .tc := ⟨.hbm, 723, rfl⟩
abbrev main_call26_v15 : Ref sig .tc := ⟨.hbm, 724, rfl⟩
abbrev main_v119 : Ref sig .tc := ⟨.hbm, 725, rfl⟩
abbrev main_v120 : Ref sig .tc := ⟨.hbm, 726, rfl⟩
abbrev main_v121 : Ref sig .tc := ⟨.hbm, 727, rfl⟩
abbrev main_v122 : Ref sig .tc := ⟨.hbm, 728, rfl⟩
abbrev main_call27_c : Ref sig .tc := ⟨.hbm, 729, rfl⟩
abbrev main_call27_v0 : Ref sig .tc := ⟨.hbm, 730, rfl⟩
abbrev main_call27_v1 : Ref sig .tc := ⟨.hbm, 731, rfl⟩
abbrev main_call27_c_0 : Ref sig .tc := ⟨.hbm, 732, rfl⟩
abbrev main_call27_v2 : Ref sig .tc := ⟨.hbm, 733, rfl⟩
abbrev main_call27_v3 : Ref sig .tc := ⟨.hbm, 734, rfl⟩
abbrev main_call27_v4 : Ref sig .tc := ⟨.hbm, 735, rfl⟩
abbrev main_call27_v5 : Ref sig .tc := ⟨.hbm, 736, rfl⟩
abbrev main_call27_c_1 : Ref sig .tc := ⟨.hbm, 737, rfl⟩
abbrev main_call27_c_2 : Ref sig .tc := ⟨.hbm, 738, rfl⟩
abbrev main_call27_v6 : Ref sig .tc := ⟨.hbm, 739, rfl⟩
abbrev main_call27_v7 : Ref sig .tc := ⟨.hbm, 740, rfl⟩
abbrev main_call27_v8 : Ref sig .tc := ⟨.hbm, 741, rfl⟩
abbrev main_call27_v9 : Ref sig .tc := ⟨.hbm, 742, rfl⟩
abbrev main_call27_v10 : Ref sig .tc := ⟨.hbm, 743, rfl⟩
abbrev main_call27_v11 : Ref sig .tc := ⟨.hbm, 744, rfl⟩
abbrev main_call27_c_3 : Ref sig .tc := ⟨.hbm, 745, rfl⟩
abbrev main_call27_v12 : Ref sig .tc := ⟨.hbm, 746, rfl⟩
abbrev main_call27_v13 : Ref sig .tc := ⟨.hbm, 747, rfl⟩
abbrev main_call27_v14 : Ref sig .tc := ⟨.hbm, 748, rfl⟩
abbrev main_call27_cst : Ref sig .tc := ⟨.hbm, 749, rfl⟩
abbrev main_call27_v15 : Ref sig .tc := ⟨.hbm, 750, rfl⟩
abbrev main_v123 : Ref sig .tc := ⟨.hbm, 751, rfl⟩
abbrev main_v124 : Ref sig .tc := ⟨.hbm, 752, rfl⟩
abbrev main_v125 : Ref sig .tc := ⟨.hbm, 753, rfl⟩
abbrev main_v126 : Ref sig .tc := ⟨.hbm, 754, rfl⟩
abbrev main_call28_c : Ref sig .tc := ⟨.hbm, 755, rfl⟩
abbrev main_call28_v0 : Ref sig .tc := ⟨.hbm, 756, rfl⟩
abbrev main_call28_v1 : Ref sig .tc := ⟨.hbm, 757, rfl⟩
abbrev main_call28_c_0 : Ref sig .tc := ⟨.hbm, 758, rfl⟩
abbrev main_call28_v2 : Ref sig .tc := ⟨.hbm, 759, rfl⟩
abbrev main_call28_v3 : Ref sig .tc := ⟨.hbm, 760, rfl⟩
abbrev main_call28_v4 : Ref sig .tc := ⟨.hbm, 761, rfl⟩
abbrev main_call28_v5 : Ref sig .tc := ⟨.hbm, 762, rfl⟩
abbrev main_call28_c_1 : Ref sig .tc := ⟨.hbm, 763, rfl⟩
abbrev main_call28_c_2 : Ref sig .tc := ⟨.hbm, 764, rfl⟩
abbrev main_call28_v6 : Ref sig .tc := ⟨.hbm, 765, rfl⟩
abbrev main_call28_v7 : Ref sig .tc := ⟨.hbm, 766, rfl⟩
abbrev main_call28_v8 : Ref sig .tc := ⟨.hbm, 767, rfl⟩
abbrev main_call28_v9 : Ref sig .tc := ⟨.hbm, 768, rfl⟩
abbrev main_call28_v10 : Ref sig .tc := ⟨.hbm, 769, rfl⟩
abbrev main_call28_v11 : Ref sig .tc := ⟨.hbm, 770, rfl⟩
abbrev main_call28_c_3 : Ref sig .tc := ⟨.hbm, 771, rfl⟩
abbrev main_call28_v12 : Ref sig .tc := ⟨.hbm, 772, rfl⟩
abbrev main_call28_v13 : Ref sig .tc := ⟨.hbm, 773, rfl⟩
abbrev main_call28_v14 : Ref sig .tc := ⟨.hbm, 774, rfl⟩
abbrev main_call28_cst : Ref sig .tc := ⟨.hbm, 775, rfl⟩
abbrev main_call28_v15 : Ref sig .tc := ⟨.hbm, 776, rfl⟩
abbrev main_v127 : Ref sig .tc := ⟨.hbm, 777, rfl⟩
abbrev main_v128 : Ref sig .tc := ⟨.hbm, 778, rfl⟩
abbrev main_v129 : Ref sig .tc := ⟨.hbm, 779, rfl⟩
abbrev main_v130 : Ref sig .tc := ⟨.hbm, 780, rfl⟩
abbrev main_call29_c : Ref sig .tc := ⟨.hbm, 781, rfl⟩
abbrev main_call29_v0 : Ref sig .tc := ⟨.hbm, 782, rfl⟩
abbrev main_call29_v1 : Ref sig .tc := ⟨.hbm, 783, rfl⟩
abbrev main_call29_c_0 : Ref sig .tc := ⟨.hbm, 784, rfl⟩
abbrev main_call29_v2 : Ref sig .tc := ⟨.hbm, 785, rfl⟩
abbrev main_call29_v3 : Ref sig .tc := ⟨.hbm, 786, rfl⟩
abbrev main_call29_v4 : Ref sig .tc := ⟨.hbm, 787, rfl⟩
abbrev main_call29_v5 : Ref sig .tc := ⟨.hbm, 788, rfl⟩
abbrev main_call29_c_1 : Ref sig .tc := ⟨.hbm, 789, rfl⟩
abbrev main_call29_c_2 : Ref sig .tc := ⟨.hbm, 790, rfl⟩
abbrev main_call29_v6 : Ref sig .tc := ⟨.hbm, 791, rfl⟩
abbrev main_call29_v7 : Ref sig .tc := ⟨.hbm, 792, rfl⟩
abbrev main_call29_v8 : Ref sig .tc := ⟨.hbm, 793, rfl⟩
abbrev main_call29_v9 : Ref sig .tc := ⟨.hbm, 794, rfl⟩
abbrev main_call29_v10 : Ref sig .tc := ⟨.hbm, 795, rfl⟩
abbrev main_call29_v11 : Ref sig .tc := ⟨.hbm, 796, rfl⟩
abbrev main_call29_c_3 : Ref sig .tc := ⟨.hbm, 797, rfl⟩
abbrev main_call29_v12 : Ref sig .tc := ⟨.hbm, 798, rfl⟩
abbrev main_call29_v13 : Ref sig .tc := ⟨.hbm, 799, rfl⟩
abbrev main_call29_v14 : Ref sig .tc := ⟨.hbm, 800, rfl⟩
abbrev main_call29_cst : Ref sig .tc := ⟨.hbm, 801, rfl⟩
abbrev main_call29_v15 : Ref sig .tc := ⟨.hbm, 802, rfl⟩
abbrev main_v131 : Ref sig .tc := ⟨.hbm, 803, rfl⟩
abbrev main_v132 : Ref sig .tc := ⟨.hbm, 804, rfl⟩
abbrev main_v133 : Ref sig .tc := ⟨.hbm, 805, rfl⟩
abbrev main_v134 : Ref sig .tc := ⟨.hbm, 806, rfl⟩
abbrev main_call30_c : Ref sig .tc := ⟨.hbm, 807, rfl⟩
abbrev main_call30_v0 : Ref sig .tc := ⟨.hbm, 808, rfl⟩
abbrev main_call30_v1 : Ref sig .tc := ⟨.hbm, 809, rfl⟩
abbrev main_call30_c_0 : Ref sig .tc := ⟨.hbm, 810, rfl⟩
abbrev main_call30_v2 : Ref sig .tc := ⟨.hbm, 811, rfl⟩
abbrev main_call30_v3 : Ref sig .tc := ⟨.hbm, 812, rfl⟩
abbrev main_call30_v4 : Ref sig .tc := ⟨.hbm, 813, rfl⟩
abbrev main_call30_v5 : Ref sig .tc := ⟨.hbm, 814, rfl⟩
abbrev main_call30_c_1 : Ref sig .tc := ⟨.hbm, 815, rfl⟩
abbrev main_call30_c_2 : Ref sig .tc := ⟨.hbm, 816, rfl⟩
abbrev main_call30_v6 : Ref sig .tc := ⟨.hbm, 817, rfl⟩
abbrev main_call30_v7 : Ref sig .tc := ⟨.hbm, 818, rfl⟩
abbrev main_call30_v8 : Ref sig .tc := ⟨.hbm, 819, rfl⟩
abbrev main_call30_v9 : Ref sig .tc := ⟨.hbm, 820, rfl⟩
abbrev main_call30_v10 : Ref sig .tc := ⟨.hbm, 821, rfl⟩
abbrev main_call30_v11 : Ref sig .tc := ⟨.hbm, 822, rfl⟩
abbrev main_call30_c_3 : Ref sig .tc := ⟨.hbm, 823, rfl⟩
abbrev main_call30_v12 : Ref sig .tc := ⟨.hbm, 824, rfl⟩
abbrev main_call30_v13 : Ref sig .tc := ⟨.hbm, 825, rfl⟩
abbrev main_call30_v14 : Ref sig .tc := ⟨.hbm, 826, rfl⟩
abbrev main_call30_cst : Ref sig .tc := ⟨.hbm, 827, rfl⟩
abbrev main_call30_v15 : Ref sig .tc := ⟨.hbm, 828, rfl⟩
abbrev main_v135 : Ref sig .tc := ⟨.hbm, 829, rfl⟩
abbrev main_v136 : Ref sig .tc := ⟨.hbm, 830, rfl⟩
abbrev main_v137 : Ref sig .tc := ⟨.hbm, 831, rfl⟩
abbrev main_v138 : Ref sig .tc := ⟨.hbm, 832, rfl⟩
abbrev main_call31_c : Ref sig .tc := ⟨.hbm, 833, rfl⟩
abbrev main_call31_v0 : Ref sig .tc := ⟨.hbm, 834, rfl⟩
abbrev main_call31_v1 : Ref sig .tc := ⟨.hbm, 835, rfl⟩
abbrev main_call31_c_0 : Ref sig .tc := ⟨.hbm, 836, rfl⟩
abbrev main_call31_v2 : Ref sig .tc := ⟨.hbm, 837, rfl⟩
abbrev main_call31_v3 : Ref sig .tc := ⟨.hbm, 838, rfl⟩
abbrev main_call31_v4 : Ref sig .tc := ⟨.hbm, 839, rfl⟩
abbrev main_call31_v5 : Ref sig .tc := ⟨.hbm, 840, rfl⟩
abbrev main_call31_c_1 : Ref sig .tc := ⟨.hbm, 841, rfl⟩
abbrev main_call31_c_2 : Ref sig .tc := ⟨.hbm, 842, rfl⟩
abbrev main_call31_v6 : Ref sig .tc := ⟨.hbm, 843, rfl⟩
abbrev main_call31_v7 : Ref sig .tc := ⟨.hbm, 844, rfl⟩
abbrev main_call31_v8 : Ref sig .tc := ⟨.hbm, 845, rfl⟩
abbrev main_call31_v9 : Ref sig .tc := ⟨.hbm, 846, rfl⟩
abbrev main_call31_v10 : Ref sig .tc := ⟨.hbm, 847, rfl⟩
abbrev main_call31_v11 : Ref sig .tc := ⟨.hbm, 848, rfl⟩
abbrev main_call31_c_3 : Ref sig .tc := ⟨.hbm, 849, rfl⟩
abbrev main_call31_v12 : Ref sig .tc := ⟨.hbm, 850, rfl⟩
abbrev main_call31_v13 : Ref sig .tc := ⟨.hbm, 851, rfl⟩
abbrev main_call31_v14 : Ref sig .tc := ⟨.hbm, 852, rfl⟩
abbrev main_call31_cst : Ref sig .tc := ⟨.hbm, 853, rfl⟩
abbrev main_call31_v15 : Ref sig .tc := ⟨.hbm, 854, rfl⟩
abbrev main_v139 : Ref sig .tc := ⟨.hbm, 855, rfl⟩
abbrev main_v140 : Ref sig .tc := ⟨.hbm, 856, rfl⟩
abbrev main_v141 : Ref sig .tc := ⟨.hbm, 857, rfl⟩
abbrev main_v142 : Ref sig .tc := ⟨.hbm, 858, rfl⟩
abbrev main_call32_c : Ref sig .tc := ⟨.hbm, 859, rfl⟩
abbrev main_call32_v0 : Ref sig .tc := ⟨.hbm, 860, rfl⟩
abbrev main_call32_v1 : Ref sig .tc := ⟨.hbm, 861, rfl⟩
abbrev main_call32_c_0 : Ref sig .tc := ⟨.hbm, 862, rfl⟩
abbrev main_call32_v2 : Ref sig .tc := ⟨.hbm, 863, rfl⟩
abbrev main_call32_v3 : Ref sig .tc := ⟨.hbm, 864, rfl⟩
abbrev main_call32_v4 : Ref sig .tc := ⟨.hbm, 865, rfl⟩
abbrev main_call32_v5 : Ref sig .tc := ⟨.hbm, 866, rfl⟩
abbrev main_call32_c_1 : Ref sig .tc := ⟨.hbm, 867, rfl⟩
abbrev main_call32_c_2 : Ref sig .tc := ⟨.hbm, 868, rfl⟩
abbrev main_call32_v6 : Ref sig .tc := ⟨.hbm, 869, rfl⟩
abbrev main_call32_v7 : Ref sig .tc := ⟨.hbm, 870, rfl⟩
abbrev main_call32_v8 : Ref sig .tc := ⟨.hbm, 871, rfl⟩
abbrev main_call32_v9 : Ref sig .tc := ⟨.hbm, 872, rfl⟩
abbrev main_call32_v10 : Ref sig .tc := ⟨.hbm, 873, rfl⟩
abbrev main_call32_v11 : Ref sig .tc := ⟨.hbm, 874, rfl⟩
abbrev main_call32_c_3 : Ref sig .tc := ⟨.hbm, 875, rfl⟩
abbrev main_call32_v12 : Ref sig .tc := ⟨.hbm, 876, rfl⟩
abbrev main_call32_v13 : Ref sig .tc := ⟨.hbm, 877, rfl⟩
abbrev main_call32_v14 : Ref sig .tc := ⟨.hbm, 878, rfl⟩
abbrev main_call32_cst : Ref sig .tc := ⟨.hbm, 879, rfl⟩
abbrev main_call32_v15 : Ref sig .tc := ⟨.hbm, 880, rfl⟩
abbrev main_v143 : Ref sig .tc := ⟨.hbm, 881, rfl⟩
abbrev main_v144 : Ref sig .tc := ⟨.hbm, 882, rfl⟩
abbrev main_v145 : Ref sig .tc := ⟨.hbm, 883, rfl⟩
abbrev main_v146 : Ref sig .tc := ⟨.hbm, 884, rfl⟩
abbrev main_call33_c : Ref sig .tc := ⟨.hbm, 885, rfl⟩
abbrev main_call33_v0 : Ref sig .tc := ⟨.hbm, 886, rfl⟩
abbrev main_call33_v1 : Ref sig .tc := ⟨.hbm, 887, rfl⟩
abbrev main_call33_c_0 : Ref sig .tc := ⟨.hbm, 888, rfl⟩
abbrev main_call33_v2 : Ref sig .tc := ⟨.hbm, 889, rfl⟩
abbrev main_call33_v3 : Ref sig .tc := ⟨.hbm, 890, rfl⟩
abbrev main_call33_v4 : Ref sig .tc := ⟨.hbm, 891, rfl⟩
abbrev main_call33_v5 : Ref sig .tc := ⟨.hbm, 892, rfl⟩
abbrev main_call33_c_1 : Ref sig .tc := ⟨.hbm, 893, rfl⟩
abbrev main_call33_c_2 : Ref sig .tc := ⟨.hbm, 894, rfl⟩
abbrev main_call33_v6 : Ref sig .tc := ⟨.hbm, 895, rfl⟩
abbrev main_call33_v7 : Ref sig .tc := ⟨.hbm, 896, rfl⟩
abbrev main_call33_v8 : Ref sig .tc := ⟨.hbm, 897, rfl⟩
abbrev main_call33_v9 : Ref sig .tc := ⟨.hbm, 898, rfl⟩
abbrev main_call33_v10 : Ref sig .tc := ⟨.hbm, 899, rfl⟩
abbrev main_call33_v11 : Ref sig .tc := ⟨.hbm, 900, rfl⟩
abbrev main_call33_c_3 : Ref sig .tc := ⟨.hbm, 901, rfl⟩
abbrev main_call33_v12 : Ref sig .tc := ⟨.hbm, 902, rfl⟩
abbrev main_call33_v13 : Ref sig .tc := ⟨.hbm, 903, rfl⟩
abbrev main_call33_v14 : Ref sig .tc := ⟨.hbm, 904, rfl⟩
abbrev main_call33_cst : Ref sig .tc := ⟨.hbm, 905, rfl⟩
abbrev main_call33_v15 : Ref sig .tc := ⟨.hbm, 906, rfl⟩
abbrev main_v147 : Ref sig .tc := ⟨.hbm, 907, rfl⟩
abbrev main_v148 : Ref sig .tc := ⟨.hbm, 908, rfl⟩
abbrev main_v149 : Ref sig .tc := ⟨.hbm, 909, rfl⟩
abbrev main_v150 : Ref sig .tc := ⟨.hbm, 910, rfl⟩
abbrev main_call34_c : Ref sig .tc := ⟨.hbm, 911, rfl⟩
abbrev main_call34_v0 : Ref sig .tc := ⟨.hbm, 912, rfl⟩
abbrev main_call34_v1 : Ref sig .tc := ⟨.hbm, 913, rfl⟩
abbrev main_call34_c_0 : Ref sig .tc := ⟨.hbm, 914, rfl⟩
abbrev main_call34_v2 : Ref sig .tc := ⟨.hbm, 915, rfl⟩
abbrev main_call34_v3 : Ref sig .tc := ⟨.hbm, 916, rfl⟩
abbrev main_call34_v4 : Ref sig .tc := ⟨.hbm, 917, rfl⟩
abbrev main_call34_v5 : Ref sig .tc := ⟨.hbm, 918, rfl⟩
abbrev main_call34_c_1 : Ref sig .tc := ⟨.hbm, 919, rfl⟩
abbrev main_call34_c_2 : Ref sig .tc := ⟨.hbm, 920, rfl⟩
abbrev main_call34_v6 : Ref sig .tc := ⟨.hbm, 921, rfl⟩
abbrev main_call34_v7 : Ref sig .tc := ⟨.hbm, 922, rfl⟩
abbrev main_call34_v8 : Ref sig .tc := ⟨.hbm, 923, rfl⟩
abbrev main_call34_v9 : Ref sig .tc := ⟨.hbm, 924, rfl⟩
abbrev main_call34_v10 : Ref sig .tc := ⟨.hbm, 925, rfl⟩
abbrev main_call34_v11 : Ref sig .tc := ⟨.hbm, 926, rfl⟩
abbrev main_call34_c_3 : Ref sig .tc := ⟨.hbm, 927, rfl⟩
abbrev main_call34_v12 : Ref sig .tc := ⟨.hbm, 928, rfl⟩
abbrev main_call34_v13 : Ref sig .tc := ⟨.hbm, 929, rfl⟩
abbrev main_call34_v14 : Ref sig .tc := ⟨.hbm, 930, rfl⟩
abbrev main_call34_cst : Ref sig .tc := ⟨.hbm, 931, rfl⟩
abbrev main_call34_v15 : Ref sig .tc := ⟨.hbm, 932, rfl⟩
abbrev main_v151 : Ref sig .tc := ⟨.hbm, 933, rfl⟩
abbrev main_v152 : Ref sig .tc := ⟨.hbm, 934, rfl⟩
abbrev main_cst_2 : Ref sig .tc := ⟨.hbm, 935, rfl⟩
abbrev main_v153 : Ref sig .tc := ⟨.hbm, 936, rfl⟩
abbrev main_v154 : Ref sig .tc := ⟨.hbm, 937, rfl⟩
abbrev main_v155 : Ref sig .tc := ⟨.hbm, 938, rfl⟩
abbrev main_v156 : Ref sig .tc := ⟨.hbm, 939, rfl⟩
abbrev main_v157 : Ref sig .tc := ⟨.hbm, 940, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def k1_cond1 (i : grid1.Coords) : BitVec 1 :=
  let arg0 : BitVec 32 := BitVec.ofNat 32 (i 0).val
  let c10_i32 : BitVec 32 := 10#32
  let v2 : BitVec 1 := Scalar.cmpi .slt arg0 c10_i32
  let v3 : BitVec 32 := Scalar.extui v2
  let c0_i32 : BitVec 32 := 0#32
  let v4 : BitVec 1 := Scalar.cmpi .ne v3 c0_i32
  v4

def k1_cond2 (i : grid1.Coords) : BitVec 1 :=
  let arg0 : BitVec 32 := BitVec.ofNat 32 (i 0).val
  let c10_i32_1 : BitVec 32 := 10#32
  let v5 : BitVec 1 := Scalar.cmpi .sge arg0 c10_i32_1
  let v6 : BitVec 32 := Scalar.extui v5
  let c0_i32_2 : BitVec 32 := 0#32
  let v7 : BitVec 1 := Scalar.cmpi .ne v6 c0_i32_2
  v7

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  let c0_i32_1 : BitVec 32 := 0#32
  ![c0_i32.toNat, v0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def k3_cond1 (i : grid3.Coords) : BitVec 1 :=
  let arg0 : BitVec 32 := BitVec.ofNat 32 (i 0).val
  let c10_i32 : BitVec 32 := 10#32
  let v2 : BitVec 1 := Scalar.cmpi .slt arg0 c10_i32
  let v3 : BitVec 32 := Scalar.extui v2
  let c0_i32 : BitVec 32 := 0#32
  let v4 : BitVec 1 := Scalar.cmpi .ne v3 c0_i32
  v4

def k3_cond2 (i : grid3.Coords) : BitVec 1 :=
  let arg0 : BitVec 32 := BitVec.ofNat 32 (i 0).val
  let c10_i32_1 : BitVec 32 := 10#32
  let v5 : BitVec 1 := Scalar.cmpi .sge arg0 c10_i32_1
  let v6 : BitVec 32 := Scalar.extui v5
  let c0_i32_2 : BitVec 32 := 0#32
  let v7 : BitVec 1 := Scalar.cmpi .ne v6 c0_i32_2
  v7

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  let c0_i32_1 : BitVec 32 := 0#32
  ![c0_i32.toNat, v0.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3x2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S256x128_S128x128_0_0 : S256x128.Slices ![0, 0] S128x128
  slices_S256x128_S128x128_128_0 : S256x128.Slices ![128, 0] S128x128
  bcast_S_S50000x128 : S_.BroadcastsInDim S50000x128 (![] : Fin 0 → Fin S50000x128.rank)
  slices_S50000x25_S50000x1_0_0 : S50000x25.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x128_0 : S50000.BroadcastsInDim S50000x128 (![0] : Fin 1 → Fin S50000x128.rank)
  slices_S50000x25_S50000x1_0_1 : S50000x25.Slices ![0, 1] S50000x1
  slices_S50000x25_S50000x1_0_2 : S50000x25.Slices ![0, 2] S50000x1
  slices_S50000x25_S50000x1_0_3 : S50000x25.Slices ![0, 3] S50000x1
  slices_S50000x25_S50000x1_0_4 : S50000x25.Slices ![0, 4] S50000x1
  slices_S50000x25_S50000x1_0_5 : S50000x25.Slices ![0, 5] S50000x1
  slices_S50000x25_S50000x1_0_6 : S50000x25.Slices ![0, 6] S50000x1
  slices_S50000x25_S50000x1_0_7 : S50000x25.Slices ![0, 7] S50000x1
  slices_S50000x25_S50000x1_0_8 : S50000x25.Slices ![0, 8] S50000x1
  slices_S50000x25_S50000x1_0_9 : S50000x25.Slices ![0, 9] S50000x1
  slices_S50000x25_S50000x1_0_10 : S50000x25.Slices ![0, 10] S50000x1
  slices_S50000x25_S50000x1_0_11 : S50000x25.Slices ![0, 11] S50000x1
  slices_S50000x25_S50000x1_0_12 : S50000x25.Slices ![0, 12] S50000x1
  slices_S50000x25_S50000x1_0_13 : S50000x25.Slices ![0, 13] S50000x1
  slices_S50000x25_S50000x1_0_14 : S50000x25.Slices ![0, 14] S50000x1
  slices_S50000x25_S50000x1_0_15 : S50000x25.Slices ![0, 15] S50000x1
  slices_S50000x25_S50000x1_0_16 : S50000x25.Slices ![0, 16] S50000x1
  slices_S50000x25_S50000x1_0_17 : S50000x25.Slices ![0, 17] S50000x1
  slices_S50000x25_S50000x1_0_18 : S50000x25.Slices ![0, 18] S50000x1
  slices_S50000x25_S50000x1_0_19 : S50000x25.Slices ![0, 19] S50000x1
  slices_S50000x25_S50000x1_0_20 : S50000x25.Slices ![0, 20] S50000x1
  slices_S50000x25_S50000x1_0_21 : S50000x25.Slices ![0, 21] S50000x1
  slices_S50000x25_S50000x1_0_22 : S50000x25.Slices ![0, 22] S50000x1
  slices_S50000x25_S50000x1_0_23 : S50000x25.Slices ![0, 23] S50000x1
  slices_S50000x25_S50000x1_0_24 : S50000x25.Slices ![0, 24] S50000x1
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S5000x128_S5000 : S5000x128.Reduces [1] S5000
  shapeCasts_S5000_S5000x1 : S5000.ShapeCasts S5000x1
  broadcasts_S5000x1_S5000x128 : S5000x1.Broadcasts S5000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S3x2000x128_S1x2000x128_0_0_0 : ∀ a, (![0, 0, 0] : Fin 3 → Nat) a + S1x2000x128.size a ≤ S3x2000x128.size a
  h_S1x2000x128 : 0 < S1x2000x128.numel
  shapeCasts_S1x2000x128_S2000x128 : S1x2000x128.ShapeCasts S2000x128
  inb_S3x2000x128_S1x2000x128_1_0_0 : ∀ a, (![1, 0, 0] : Fin 3 → Nat) a + S1x2000x128.size a ≤ S3x2000x128.size a
  inb_S3x2000x128_S1x2000x128_2_0_0 : ∀ a, (![2, 0, 0] : Fin 3 → Nat) a + S1x2000x128.size a ≤ S3x2000x128.size a
  reduces_S2000x128_S2000 : S2000x128.Reduces [1] S2000
  shapeCasts_S2000_S2000x1 : S2000.ShapeCasts S2000x1
  broadcasts_S2000x1_S2000x128 : S2000x1.Broadcasts S2000x128
  slices_S50000x10_S50000x1_0_0 : S50000x10.Slices ![0, 0] S50000x1
  slices_S50000x10_S50000x1_0_1 : S50000x10.Slices ![0, 1] S50000x1
  slices_S50000x10_S50000x1_0_2 : S50000x10.Slices ![0, 2] S50000x1
  slices_S50000x10_S50000x1_0_3 : S50000x10.Slices ![0, 3] S50000x1
  slices_S50000x10_S50000x1_0_4 : S50000x10.Slices ![0, 4] S50000x1
  slices_S50000x10_S50000x1_0_5 : S50000x10.Slices ![0, 5] S50000x1
  slices_S50000x10_S50000x1_0_6 : S50000x10.Slices ![0, 6] S50000x1
  slices_S50000x10_S50000x1_0_7 : S50000x10.Slices ![0, 7] S50000x1
  slices_S50000x10_S50000x1_0_8 : S50000x10.Slices ![0, 8] S50000x1
  slices_S50000x10_S50000x1_0_9 : S50000x10.Slices ![0, 9] S50000x1
  gather_S50000x128_S50000x1_S50000x128_1_0_n_n_0_1_1128_wf : GatherDims.WF S50000x128 S50000x1 S50000x128 [1] [0] [] [0] [] 1 ![1, 128]
  dot_S5000x128_S128x128_S5000x128_1_0_0_1_n_n_wf : DotDims.WF S5000x128 S128x128 S5000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .bf16 = 32 ∨ (Rect.block (s := S50000x128) S5000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x2000x128.size a ≤ S3x20000x128.size a
  hwx1_1 : ∀ i : grid1.Coords, EltTy.bits .f32 = 32 ∨ (Rect.block (s := S3x20000x128) S3x2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .bf16 = 32 ∨ (Rect.block (s := S50000x128) S5000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3x2000x128.size a ≤ S3x20000x128.size a
  hwx3_1 : ∀ i : grid3.Coords, EltTy.bits .f32 = 32 ∨ (Rect.block (s := S3x20000x128) S3x2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v109) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v110) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v110) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S3x2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v111) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond1 i == 1#1) && !(k1_cond2 i == 1#1) | ⟨_ + 6, h⟩ => absurd h (Nat.not_lt.2 (Nat.le_add_left _ _))

abbrev win2_0 : Pipeline.Window sig grid2 :=
  Pipeline.Window.ofSpec (Memref.whole main_v111) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v155) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v156) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v156) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S3x2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v4) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v5) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v157) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond1 i == 1#1) && !(k3_cond2 i == 1#1) | ⟨_ + 6, h⟩ => absurd h (Nat.not_lt.2 (Nat.le_add_left _ _))

class Facts : Prop extends Facts₀ where

variable [Facts]
-- ==== ReferenceIdeal.lean ====
abbrev S50000x128 : Shape := ⟨2, ![50000, 128]⟩
abbrev S50000x25 : Shape := ⟨2, ![50000, 25]⟩
abbrev S50000x10 : Shape := ⟨2, ![50000, 10]⟩
abbrev S3x20000x128 : Shape := ⟨3, ![3, 20000, 128]⟩
abbrev S256x128 : Shape := ⟨2, ![256, 128]⟩
abbrev S128x128 : Shape := ⟨2, ![128, 128]⟩
abbrev S_ : Shape := ⟨0, ![]⟩
abbrev S50000x25x1 : Shape := ⟨3, ![50000, 25, 1]⟩
abbrev S50000x25x128 : Shape := ⟨3, ![50000, 25, 128]⟩
abbrev S50000x256 : Shape := ⟨2, ![50000, 256]⟩
abbrev S50000 : Shape := ⟨1, ![50000]⟩
abbrev S50000x1 : Shape := ⟨2, ![50000, 1]⟩
abbrev S20000x128 : Shape := ⟨2, ![20000, 128]⟩
abbrev S20000x256 : Shape := ⟨2, ![20000, 256]⟩
abbrev S20000 : Shape := ⟨1, ![20000]⟩
abbrev S20000x1 : Shape := ⟨2, ![20000, 1]⟩
abbrev S30000x128 : Shape := ⟨2, ![30000, 128]⟩
abbrev S50000x10x1 : Shape := ⟨3, ![50000, 10, 1]⟩
abbrev S50000x10x128 : Shape := ⟨3, ![50000, 10, 128]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S50000x25, .i32⟩
  | 2 => ⟨S50000x10, .i32⟩
  | 3 => ⟨S3x20000x128, .f32⟩
  | 4 => ⟨S3x20000x128, .f32⟩
  | 5 => ⟨S256x128, .f32⟩
  | 6 => ⟨S256x128, .f32⟩
  | 7 => ⟨S128x128, .f32⟩
  | 8 => ⟨S256x128, .f32⟩
  | 9 => ⟨S_, .i32⟩
  | 10 => ⟨S50000x25, .i32⟩
  | 11 => ⟨S50000x25, .i1⟩
  | 12 => ⟨S_, .i32⟩
  | 13 => ⟨S50000x25, .i32⟩
  | 14 => ⟨S50000x25, .i32⟩
  | 15 => ⟨S50000x25, .i32⟩
  | 16 => ⟨S50000x25x1, .i32⟩
  | 17 => ⟨S50000x25x128, .f32⟩
  | 18 => ⟨S_, .f32⟩
  | 19 => ⟨S50000x128, .f32⟩
  | 20 => ⟨S_, .f32⟩
  | 21 => ⟨S50000x128, .f32⟩
  | 22 => ⟨S50000x128, .f32⟩
  | 23 => ⟨S50000x256, .f32⟩
  | 24 => ⟨S50000x128, .f32⟩
  | 25 => ⟨S_, .f32⟩
  | 26 => ⟨S_, .f32⟩
  | 27 => ⟨S50000x128, .f32⟩
  | 28 => ⟨S50000x128, .i1⟩
  | 29 => ⟨S_, .f32⟩
  | 30 => ⟨S50000x128, .f32⟩
  | 31 => ⟨S50000x128, .f32⟩
  | 32 => ⟨S50000x128, .f32⟩
  | 33 => ⟨S50000x128, .f32⟩
  | 34 => ⟨S_, .f32⟩
  | 35 => ⟨S50000, .f32⟩
  | 36 => ⟨S50000x1, .f32⟩
  | 37 => ⟨S50000x1, .f32⟩
  | 38 => ⟨S_, .f32⟩
  | 39 => ⟨S50000x1, .f32⟩
  | 40 => ⟨S50000x1, .f32⟩
  | 41 => ⟨S50000x128, .f32⟩
  | 42 => ⟨S50000x128, .f32⟩
  | 43 => ⟨S20000x128, .f32⟩
  | 44 => ⟨S_, .f32⟩
  | 45 => ⟨S20000x128, .f32⟩
  | 46 => ⟨S20000x128, .f32⟩
  | 47 => ⟨S_, .f32⟩
  | 48 => ⟨S20000x128, .f32⟩
  | 49 => ⟨S20000x128, .f32⟩
  | 50 => ⟨S20000x256, .f32⟩
  | 51 => ⟨S20000x128, .f32⟩
  | 52 => ⟨S_, .f32⟩
  | 53 => ⟨S_, .f32⟩
  | 54 => ⟨S20000x128, .f32⟩
  | 55 => ⟨S20000x128, .i1⟩
  | 56 => ⟨S_, .f32⟩
  | 57 => ⟨S20000x128, .f32⟩
  | 58 => ⟨S20000x128, .f32⟩
  | 59 => ⟨S20000x128, .f32⟩
  | 60 => ⟨S20000x128, .f32⟩
  | 61 => ⟨S_, .f32⟩
  | 62 => ⟨S20000, .f32⟩
  | 63 => ⟨S20000x1, .f32⟩
  | 64 => ⟨S20000x1, .f32⟩
  | 65 => ⟨S_, .f32⟩
  | 66 => ⟨S20000x1, .f32⟩
  | 67 => ⟨S20000x1, .f32⟩
  | 68 => ⟨S20000x128, .f32⟩
  | 69 => ⟨S20000x128, .f32⟩
  | 70 => ⟨S30000x128, .f32⟩
  | 71 => ⟨S50000x128, .f32⟩
  | 72 => ⟨S_, .i32⟩
  | 73 => ⟨S50000x10, .i32⟩
  | 74 => ⟨S50000x10, .i1⟩
  | 75 => ⟨S_, .i32⟩
  | 76 => ⟨S50000x10, .i32⟩
  | 77 => ⟨S50000x10, .i32⟩
  | 78 => ⟨S50000x10, .i32⟩
  | 79 => ⟨S50000x10x1, .i32⟩
  | 80 => ⟨S50000x10x128, .f32⟩
  | 81 => ⟨S_, .f32⟩
  | 82 => ⟨S50000x128, .f32⟩
  | 83 => ⟨S_, .f32⟩
  | 84 => ⟨S50000x128, .f32⟩
  | 85 => ⟨S50000x128, .f32⟩
  | 86 => ⟨S50000x256, .f32⟩
  | 87 => ⟨S50000x128, .f32⟩
  | 88 => ⟨S_, .f32⟩
  | 89 => ⟨S_, .f32⟩
  | 90 => ⟨S50000x128, .f32⟩
  | 91 => ⟨S50000x128, .i1⟩
  | 92 => ⟨S_, .f32⟩
  | 93 => ⟨S50000x128, .f32⟩
  | 94 => ⟨S50000x128, .f32⟩
  | 95 => ⟨S50000x128, .f32⟩
  | 96 => ⟨S50000x128, .f32⟩
  | 97 => ⟨S_, .f32⟩
  | 98 => ⟨S50000, .f32⟩
  | 99 => ⟨S50000x1, .f32⟩
  | 100 => ⟨S50000x1, .f32⟩
  | 101 => ⟨S_, .f32⟩
  | 102 => ⟨S50000x1, .f32⟩
  | 103 => ⟨S50000x1, .f32⟩
  | 104 => ⟨S50000x128, .f32⟩
  | 105 => ⟨S50000x128, .f32⟩
  | 106 => ⟨S20000x128, .f32⟩
  | 107 => ⟨S_, .f32⟩
  | 108 => ⟨S20000x128, .f32⟩
  | 109 => ⟨S20000x128, .f32⟩
  | 110 => ⟨S_, .f32⟩
  | 111 => ⟨S20000x128, .f32⟩
  | 112 => ⟨S20000x128, .f32⟩
  | 113 => ⟨S20000x256, .f32⟩
  | 114 => ⟨S20000x128, .f32⟩
  | 115 => ⟨S_, .f32⟩
  | 116 => ⟨S_, .f32⟩
  | 117 => ⟨S20000x128, .f32⟩
  | 118 => ⟨S20000x128, .i1⟩
  | 119 => ⟨S_, .f32⟩
  | 120 => ⟨S20000x128, .f32⟩
  | 121 => ⟨S20000x128, .f32⟩
  | 122 => ⟨S20000x128, .f32⟩
  | 123 => ⟨S20000x128, .f32⟩
  | 124 => ⟨S_, .f32⟩
  | 125 => ⟨S20000, .f32⟩
  | 126 => ⟨S20000x1, .f32⟩
  | 127 => ⟨S20000x1, .f32⟩
  | _ => ⟨S50000x128, .f32⟩

abbrev hbmTy0_1 (i : Nat) : BufTy := match i % 128 with
  | 0 => ⟨S_, .f32⟩
  | 1 => ⟨S20000x1, .f32⟩
  | 2 => ⟨S20000x1, .f32⟩
  | 3 => ⟨S20000x128, .f32⟩
  | 4 => ⟨S20000x128, .f32⟩
  | 5 => ⟨S30000x128, .f32⟩
  | 6 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_7 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v28 : Ref sig .tc := ⟨.hbm, 59, rfl⟩
abbrev main_v29 : Ref sig .tc := ⟨.hbm, 60, rfl⟩
abbrev main_cst_8 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_9 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_c_10 : Ref sig .tc := ⟨.hbm, 72, rfl⟩
abbrev main_v39 : Ref sig .tc := ⟨.hbm, 73, rfl⟩
abbrev main_v40 : Ref sig .tc := ⟨.hbm, 74, rfl⟩
abbrev main_c_11 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_12 : Ref sig .tc := ⟨.hbm, 81, rfl⟩
abbrev main_v46 : Ref sig .tc := ⟨.hbm, 82, rfl⟩
abbrev main_cst_13 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_14 : Ref sig .tc := ⟨.hbm, 88, rfl⟩
abbrev main_call2_cst : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_v51 : Ref sig .tc := ⟨.hbm, 95, rfl⟩
abbrev main_v52 : Ref sig .tc := ⟨.hbm, 96, rfl⟩
abbrev main_cst_15 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_16 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_cst_17 : Ref sig .tc := ⟨.hbm, 107, rfl⟩
abbrev main_v61 : Ref sig .tc := ⟨.hbm, 108, rfl⟩
abbrev main_v62 : Ref sig .tc := ⟨.hbm, 109, rfl⟩
abbrev main_cst_18 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_19 : Ref sig .tc := ⟨.hbm, 115, rfl⟩
abbrev main_call3_cst : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_v67 : Ref sig .tc := ⟨.hbm, 122, rfl⟩
abbrev main_v68 : Ref sig .tc := ⟨.hbm, 123, rfl⟩
abbrev main_cst_20 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_cst_21 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩

abbrev nD : Nat := 1
abbrev τ : Topo := Topo.v7x

variable {F : FTy → Type} [FloatOps F]

class Facts₀ : Prop where
  bcast_S_S50000x25 : S_.BroadcastsInDim S50000x25 (![] : Fin 0 → Fin S50000x25.rank)
  bcast_S50000x25_S50000x25x1_0_1 : S50000x25.BroadcastsInDim S50000x25x1 (![0, 1] : Fin 2 → Fin S50000x25x1.rank)
  reducesTo_S50000x25x128_S50000x128_d1 : S50000x25x128.ReducesTo [1] S50000x128
  h_S_ : 0 < S_.numel
  bcast_S_S50000x128 : S_.BroadcastsInDim S50000x128 (![] : Fin 0 → Fin S50000x128.rank)
  concatenates_S50000x128_S50000x128_S50000x256_d1 : Shape.Concatenates [S50000x128, S50000x128] S50000x256 1
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S50000x128_S20000x128_0_0 : S50000x128.Slices ![0, 0] S20000x128
  reducesTo_S3x20000x128_S20000x128_d0 : S3x20000x128.ReducesTo [0] S20000x128
  bcast_S_S20000x128 : S_.BroadcastsInDim S20000x128 (![] : Fin 0 → Fin S20000x128.rank)
  concatenates_S20000x128_S20000x128_S20000x256_d1 : Shape.Concatenates [S20000x128, S20000x128] S20000x256 1
  reducesTo_S20000x128_S20000_d1 : S20000x128.ReducesTo [1] S20000
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  slices_S50000x128_S30000x128_20000_0 : S50000x128.Slices ![20000, 0] S30000x128
  concatenates_S20000x128_S30000x128_S50000x128_d0 : Shape.Concatenates [S20000x128, S30000x128] S50000x128 0
  bcast_S_S50000x10 : S_.BroadcastsInDim S50000x10 (![] : Fin 0 → Fin S50000x10.rank)
  bcast_S50000x10_S50000x10x1_0_1 : S50000x10.BroadcastsInDim S50000x10x1 (![0, 1] : Fin 2 → Fin S50000x10x1.rank)
  reducesTo_S50000x10x128_S50000x128_d1 : S50000x10x128.ReducesTo [1] S50000x128
  gather_S50000x128_S50000x25x1_S50000x25x128_2_0_n_n_0_2_1128_wf : GatherDims.WF S50000x128 S50000x25x1 S50000x25x128 [2] [0] [] [0] [] 2 ![1, 128]
  dot_S50000x256_S256x128_S50000x128_1_0_0_1_n_n_wf : DotDims.WF S50000x256 S256x128 S50000x128 [1] [0] [0] [1] [] []
  dot_S20000x128_S128x128_S20000x128_1_0_0_1_n_n_wf : DotDims.WF S20000x128 S128x128 S20000x128 [1] [0] [0] [1] [] []
  dot_S20000x256_S256x128_S20000x128_1_0_0_1_n_n_wf : DotDims.WF S20000x256 S256x128 S20000x128 [1] [0] [0] [1] [] []
  gather_S50000x128_S50000x10x1_S50000x10x128_2_0_n_n_0_2_1128_wf : GatherDims.WF S50000x128 S50000x10x1 S50000x10x128 [2] [0] [] [0] [] 2 ![1, 128]

variable [Facts₀]

def gather_S50000x128_S50000x25x1_S50000x25x128_2_0_n_n_0_2_1128 : GatherDims S50000x128 S50000x25x1 S50000x25x128 where
  offsetDims := [2]
  collapsedSliceDims := [0]
  operandBatchingDims := []
  startIndicesBatchingDims := []
  startIndexMap := [0]
  indexVectorDim := 2
  sliceSizes := ![1, 128]
  wf := gather_S50000x128_S50000x25x1_S50000x25x128_2_0_n_n_0_2_1128_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def gather_S50000x128_S50000x10x1_S50000x10x128_2_0_n_n_0_2_1128 : GatherDims S50000x128 S50000x10x1 S50000x10x128 where
  offsetDims := [2]
  collapsedSliceDims := [0]
  operandBatchingDims := []
  startIndicesBatchingDims := []
  startIndexMap := [0]
  indexVectorDim := 2
  sliceSizes := ![1, 128]
  wf := gather_S50000x128_S50000x10x1_S50000x10x128_2_0_n_n_0_2_1128_wf

class Facts : Prop extends Facts₀ where

variable [Facts]
-- ==== Proof.Spec.lean ====
import Idealize.ShloMosaic.PureOps.Ideal
import Idealize.ShloMosaic.Lib.ValueIdx

noncomputable section

open scoped BigOperators

-- The network over the extended reals: a layer is the mean of the sampled neighbours' rows joined to the node's own
-- row, one linear map, LeakyReLU and division of the row by max(‖row‖₂, ε); a temporal step does the same for the first
-- 20000 nodes with the mean of three history snapshots in the neighbours' place and keeps the other rows.
namespace Cert.Spec

open Idealize.ShloMosaic Idealize.ShloMosaic.ValueIdx

abbrev Mat (r c : Nat) : Type := (⟨2, ![r, c]⟩ : Shape).Idx → EReal

abbrev Ten (a b c : Nat) : Type := (⟨3, ![a, b, c]⟩ : Shape).Idx → EReal

abbrev IMat (r c : Nat) : Type := (⟨2, ![r, c]⟩ : Shape).Idx → BitVec 32

abbrev zeroW : EReal := Ideal.ofBits .f32 0x00000000#32
abbrev alphaW : EReal := Ideal.ofBits .f32 0x3E4CCCCD#32
abbrev epsW : EReal := Ideal.ofBits .f32 0x2B8CBCCC#32
abbrev w25 : EReal := Ideal.ofBits .f32 0x41C80000#32
abbrev w10 : EReal := Ideal.ofBits .f32 0x41200000#32
abbrev w3 : EReal := Ideal.ofBits .f32 0x40400000#32

def nrm (w : BitVec 32) : BitVec 32 := Scalar.select (IntOp.cmpi .slt w 0#32) (IntOp.addi w 50000#32) w

def rowOf (w : BitVec 32) : Fin 50000 := ⟨min (nrm w).toInt.toNat 49999, by omega⟩

def lk (x : EReal) : EReal :=
  Scalar.select (FloatOps.cmpf (F := Ideal) (φ := .f32) .oge x zeroW) x (alphaW * x)

def post (p : Fin 128 → EReal) (j : Fin 128) : EReal :=
  Ideal.div (lk (p j)) (max (Ideal.sqrt (∑ k : Fin 128, lk (p k) * lk (p k))) epsW)

def meanAt (K : Nat) (kw : EReal) (X : Mat 50000 128) (I : IMat 50000 K) (n : Fin 50000) (d : Fin 128) : EReal :=
  Ideal.div (∑ k : Fin K, X (ix2 (rowOf (I (ix2 n k))) d)) kw

def meanArr (K : Nat) (kw : EReal) (X : Mat 50000 128) (I : IMat 50000 K) : Mat 50000 128 :=
  fun i => meanAt K kw X I (i 0) (i 1)

def loW (W : Mat 256 128) : Mat 128 128 :=
  fun i => W (ix2 (⟨(i 0).val, by have := idx2_lt0 i; omega⟩ : Fin 256) (i 1))

def hiW (W : Mat 256 128) : Mat 128 128 :=
  fun i => W (ix2 (⟨128 + (i 0).val, by have := idx2_lt0 i; omega⟩ : Fin 256) (i 1))

def sageK (x nm : Mat 50000 128) (wa wb : Mat 128 128) : Mat 50000 128 :=
  fun i => post (fun k => (∑ d : Fin 128, x (ix2 (i 0) d) * wa (ix2 d k)) + (∑ d : Fin 128, nm (ix2 (i 0) d) * wb (ix2 d k))) (i 1)

def tfAt (H : Ten 3 20000 128) (Wh : Mat 128 128) (n : Fin 20000) (e : Fin 128) : EReal :=
  Ideal.div (∑ p : Fin 3, ∑ d : Fin 128, H (ix3 p n d) * Wh (ix2 d e)) w3

def tempK (h : Mat 50000 128) (H : Ten 3 20000 128) (Wh wta wtb : Mat 128 128) : Mat 50000 128 :=
  fun i =>
    if hlt : (i 0).val < 20000 then
      post (fun k => (∑ d : Fin 128, h (ix2 (i 0) d) * wta (ix2 d k))
        + (∑ d : Fin 128, tfAt H Wh ⟨(i 0).val, hlt⟩ d * wtb (ix2 d k))) (i 1)
    else h i

def sageOut (x nm : Mat 50000 128) (W : Mat 256 128) : Mat 50000 128 := sageK x nm (loW W) (hiW W)

def tempOut (h : Mat 50000 128) (H : Ten 3 20000 128) (Wh : Mat 128 128) (WT : Mat 256 128) : Mat 50000 128 :=
  tempK h H Wh (loW WT) (hiW WT)

def resH1 (X : Mat 50000 128) (I1 : IMat 50000 25) (W1 : Mat 256 128) : Mat 50000 128 :=
  sageOut X (meanArr 25 w25 X I1) W1
def resC1 (X : Mat 50000 128) (I1 : IMat 50000 25) (H1 : Ten 3 20000 128) (W1 : Mat 256 128) (Wh : Mat 128 128) (WT : Mat 256 128) :
    Mat 50000 128 :=
  tempOut (resH1 X I1 W1) H1 Wh WT
def resH2 (X : Mat 50000 128) (I1 : IMat 50000 25) (I2 : IMat 50000 10) (H1 : Ten 3 20000 128) (W1 W2 : Mat 256 128)
    (Wh : Mat 128 128) (WT : Mat 256 128) : Mat 50000 128 :=
  sageOut (resC1 X I1 H1 W1 Wh WT) (meanArr 10 w10 (resC1 X I1 H1 W1 Wh WT) I2) W2
def resFeat (X : Mat 50000 128) (I1 : IMat 50000 25) (I2 : IMat 50000 10) (H1 H2 : Ten 3 20000 128) (W1 W2 : Mat 256 128)
    (Wh : Mat 128 128) (WT : Mat 256 128) : Mat 50000 128 :=
  tempOut (resH2 X I1 I2 H1 W1 W2 Wh WT) H2 Wh WT

end Cert.Spec

end
-- ==== Proof.PreFacts.lean ====
import proofs.«404205_j84782654423298_2_alg».proof.Pre_finite_inputs
import proofs.«404205_j84782654423298_2_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Idealize.ShloMosaic Cert.Pre_finite_inputs

variable [Cert.Pre_finite_inputs.Facts]

instance : Subsingleton S_.Idx := ⟨fun a b => funext fun d => d.elim0⟩

theorem inf_word : Ideal.ofBits .f32 0x7F800000#32 = (⊤ : EReal) := by simp [Ideal.ofBits, Ideal.ieee]

theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : Ideal.cmp .olt (max x (-x)) (Ideal.ofBits .f32 0x7F800000#32) = 1#1 := h
  rw [inf_word] at h'
  unfold Ideal.cmp at h'
  rw [StableHlo.Predicate.ofBool_eq_one_iff, decide_eq_true_eq, max_lt_iff] at h'
  induction x using EReal.rec with
  | bot => simp at h'
  | coe r => exact ⟨r, rfl⟩
  | top => simp at h'

theorem range_of_cmp (w : BitVec 32) (h0 : IntOp.cmpi .sge w 0#32 = 1#1) (h1 : IntOp.cmpi .slt w 50000#32 = 1#1) :
    0 ≤ w.toInt ∧ w.toInt < 50000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (50000#32 : BitVec 32).toInt = 50000 := by decide
  rw [e0] at h0
  rw [e1] at h1
  exact ⟨h0, h1⟩

theorem of_pre (a0 : FVec Ideal S50000x128 .f32) (a1 : IVec S50000x25 32) (a2 : IVec S50000x10 32) (a3 a4 : FVec Ideal S3x20000x128 .f32)
    (a5 a6 : FVec Ideal S256x128 .f32) (a7 : FVec Ideal S128x128 .f32) (a8 : FVec Ideal S256x128 .f32)
    (h : Cert.Pre_finite_inputs.fn (F := Ideal) a0 a1 a2 a3 a4 a5 a6 a7 a8 = (fun _ => 1#1)) :
    (∀ i, 0 ≤ (a1 i).toInt ∧ (a1 i).toInt < 50000) ∧ (∀ i, 0 ≤ (a2 i).toInt ∧ (a2 i).toInt < 50000)
    ∧ (∀ i, ∃ r : ℝ, a3 i = (r : EReal)) ∧ (∀ i, ∃ r : ℝ, a4 i = (r : EReal)) ∧ (∀ i, ∃ r : ℝ, a7 i = (r : EReal)) := by
  have h0 := congrFun h ValueIdx.ix0
  dsimp only [fn, fn_part1, fn_part2] at h0
  dsimp only [andi] at h0
  simp only [IntOp.andi_eq_one] at h0
  obtain ⟨⟨⟨⟨⟨⟨⟨⟨-, h3⟩, h4⟩, -⟩, -⟩, h7⟩, -⟩, hi1⟩, hi2⟩ := h0
  refine ⟨fun i => ?_, fun i => ?_, fun i => ?_, fun i => ?_, fun i => ?_⟩
  · have e : IntOp.andi (IntOp.cmpi .sge (a1 i) 0#32) (IntOp.cmpi .slt (a1 i) 50000#32) = 1#1 :=
      Host.reduce_andi_all _ _ _ _ _ hi1 i
    obtain ⟨e0, e1⟩ := IntOp.andi_eq_one.1 e
    exact range_of_cmp (a1 i) e0 e1
  · have e : IntOp.andi (IntOp.cmpi .sge (a2 i) 0#32) (IntOp.cmpi .slt (a2 i) 50000#32) = 1#1 :=
      Host.reduce_andi_all _ _ _ _ _ hi2 i
    obtain ⟨e0, e1⟩ := IntOp.andi_eq_one.1 e
    exact range_of_cmp (a2 i) e0 e1
  · exact real_of_abs_lt (a3 i) (Host.reduce_andi_all _ _ _ _ _ h3 i)
  · exact real_of_abs_lt (a4 i) (Host.reduce_andi_all _ _ _ _ _ h4 i)
  · exact real_of_abs_lt (a7 i) (Host.reduce_andi_all _ _ _ _ _ h7 i)

end Cert.PreFacts

end
-- ==== Proof.KTerms.lean ====
import proofs.«404205_j84782654423298_2_alg».proof.KernelIdeal

noncomputable section

namespace Cert.KernelIdeal.Terms

open Idealize.ShloMosaic
open Facts₀

variable {F : FTy → Type} [FloatOps F] [Facts₀]

def wrapIdx (idx : IVec S50000 32) : IVec S50000 32 :=
  select (cmpi .slt idx (broadcastInDim S50000 ![] bcast_S_S50000 (constantI S_ 32 0#32)))
    (addi idx (broadcastInDim S50000 ![] bcast_S_S50000 (constantI S_ 32 50000#32))) idx

def idxCol (idx : IVec S50000 32) : IVec S50000x1 32 :=
  broadcastInDim S50000x1 ![0] bcast_S50000_S50000x1_0 (wrapIdx idx)

def inRange (v : IVec S50000x1 32) : IVec S50000 1 :=
  Host.reduce IntOp.andi
    (andi (cmpi .sge v (broadcastInDim S50000x1 ![] bcast_S_S50000x1 (constantI S_ 32 0#32)))
      (cmpi .sle v (broadcastInDim S50000x1 ![0, 1] bcast_S1x1_S50000x1_0_1
        (broadcastInDim S1x1 ![1] bcast_S1_S1x1_1 (constantI S1 32 49999#32)))))
    (constantI S_ 1 1#1) reducesTo_S50000x1_S50000_d1 h_S_

def takeFill (X : Vec F S50000x128 .f32) (idx : IVec S50000 32) : Vec F S50000x128 .f32 :=
  select (broadcastInDim S50000x128 ![0] bcast_S50000_S50000x128_0 (inRange (idxCol idx)))
    (Host.gather gather_S50000x128_S50000x1_S50000x128_1_0_n_n_0_1_1128 X (idxCol idx))
    (broadcastInDim S50000x128 ![] bcast_S_S50000x128 (constant S_ .f32 0x7FC00000#32))

def colOf {s : Shape} (off : Fin s.rank → Nat) (I : IVec s 32) (h : s.Slices off S50000x1) : IVec S50000 32 :=
  shapeCast S50000 (extractStridedSlice S50000x1 off I h) shapeCasts_S50000x1_S50000

def zerosArr : Vec F S50000x128 .f32 :=
  broadcastInDim S50000x128 ![] bcast_S_S50000x128 (constant S_ .f32 0x00000000#32)

theorem slices_col (K k : Nat) (hk : k < K) : (⟨2, ![50000, K]⟩ : Shape).Slices ![0, k] S50000x1 :=
  ⟨rfl, fun a => match a with
    | ⟨0, _⟩ => Nat.le_refl 50000
    | ⟨1, _⟩ => hk⟩

def acc {K : Nat} (X : Vec F S50000x128 .f32) (I : IVec ⟨2, ![50000, K]⟩ 32) : (n : Nat) → n ≤ K → Vec F S50000x128 .f32
  | 0, _ => zerosArr
  | n + 1, h => addf (acc X I n (Nat.le_of_succ_le h)) (takeFill X (colOf ![0, n] I (slices_col K n h)))

def meanK25 (X : Vec F S50000x128 .f32) (I : IVec S50000x25 32) : Vec F S50000x128 .bf16 :=
  truncf .bf16 (Host.divf (acc X I 25 (Nat.le_refl 25))
    (broadcastInDim S50000x128 ![] bcast_S_S50000x128 (constant S_ .f32 0x41C80000#32))) bitsLt_bf16_f32

def meanK10 (X : Vec F S50000x128 .f32) (I : IVec S50000x10 32) : Vec F S50000x128 .bf16 :=
  truncf .bf16 (Host.divf (acc X I 10 (Nat.le_refl 10))
    (broadcastInDim S50000x128 ![] bcast_S_S50000x128 (constant S_ .f32 0x41200000#32))) bitsLt_bf16_f32

end Cert.KernelIdeal.Terms

end
-- ==== Proof.KSteps.lean ====
import proofs.«404205_j84782654423298_2_alg».proof.Proof.Gen.KernelIdeal.Frame
import proofs.«404205_j84782654423298_2_alg».proof.Proof.KTerms
import Idealize.ShloMosaic.Lib.StableHlo.Run
import Idealize.ShloMosaic.PureOps.Ideal

noncomputable section

namespace Cert.KernelIdeal.Fold

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem s25_1 (c : Dev nD) : Gen.W3 m ρ c (Proc.devRef .tc main_v10) = addf (Gen.W1 m ρ c (Proc.devRef .tc main_v6))
    (Terms.takeFill (Gen.W0 m ρ c (Proc.devRef .tc main_arg0)) (Terms.colOf ![0, 0] (Gen.W0 m ρ c (Proc.devRef .tc main_arg1)) slices_S50000x25_S50000x1_0_0)) := by
  dsimp only [Gen.W3, Gen.W2, Gen.W1]; generalize Gen.W0 m ρ c = V
  after_results_simp; simp only [TRef.ofBuf, TRef.toBuf, cast_eq]; rfl

theorem s25_2 (c : Dev nD) : Gen.W5 m ρ c (Proc.devRef .tc main_v14) = addf (Gen.W3 m ρ c (Proc.devRef .tc main_v10))
    (Terms.takeFill (Gen.W2 m ρ c (Proc.devRef .tc main_arg0)) (Terms.colOf ![0, 1] (Gen.W2 m ρ c (Proc.devRef .tc main_arg1)) slices_S50000x25_S50000x1_0_1)) := by
  dsimp only [Gen.W5, Gen.W4, Gen.W3]; generalize Gen.W2 m ρ c = V
  after_results_simp; simp only [TRef.ofBuf, TRef.toBuf, cast_eq]; rfl

theorem s25_3 (c : Dev nD) : Gen.W7 m ρ c (Proc.devRef .tc main_v18) = addf (Gen.W5 m ρ c (Proc.devRef .tc main_v14))
    (Terms.takeFill (Gen.W4 m ρ c (Proc.devRef .tc main_arg0)) (Terms.colOf ![0, 2] (Gen.W4 m ρ c (Proc.devRef .tc main_arg1)) slices_S50000x25_S50000x1_0_2)) := by
  dsimp only [Gen.W7, Gen.W6, Gen.W5]; generalize Gen.W4 m ρ c = V
  after_results_simp; simp only [TRef.ofBuf, TRef.toBuf, cast_eq]; rfl

theorem s25_4 (c : Dev nD) : Gen.W9 m ρ c (Proc.devRef .tc main_v22) = addf (Gen.W7 m ρ c (Proc.devRef .tc main_v18))
    (Terms.takeFill (Gen.W6 m ρ c (Proc.devRef .tc main_arg0)) (Terms.colOf ![0, 3] (Gen.W6 m ρ c (Proc.devRef .tc main_arg1)) slices_S50000x25_S50000x1_0_3)) := by
  dsimp only [Gen.W9, Gen.W8, Gen.W7]; generalize Gen.W6 m ρ c = V
  after_results_simp; simp only [TRef.ofBuf, TRef.toBuf, cast_eq]; rfl

theorem s25_5 (c : Dev nD) : Gen.W11 m ρ c (Proc.devRef .tc main_v26) = addf (Gen.W9 m ρ c (Proc.devRef .tc main_v22))
    (Terms.takeFill (Gen.W8 m ρ c (Proc.devRef .tc main_arg0)) (Terms.colOf ![0, 4] (Gen.W8 m ρ c (Proc.devRef .tc main_arg1)) slices_S50000x25_S50000x1_0_4)) := by
  dsimp only [Gen.W11, Gen.W10, Gen.W9]; generalize Gen.W8 m ρ c = V
  after_results_simp; simp only [TRef.ofBuf, TRef.toBuf, cast_eq]; rfl

theorem s25_6 (c : Dev nD) : Gen.W13 m ρ c (Proc.devRef .tc main_v30) = addf (Gen.W11 m ρ c (Proc.devRef .tc main_v26))
    (Terms.takeFill (Gen.W10 m ρ c (Proc.devRef .tc main_arg0)) (Terms.colOf ![0, 5] (Gen.W10 m ρ c (Proc.devRef .tc main_arg1)) slices_S50000x25_S50000x1_0_5)) := by
  dsimp only [Gen.W13, Gen.W12, Gen.W11]; generalize Gen.W10 m ρ c = V
  after_results_simp; simp only [TRef.ofBuf, TRef.toBuf, cast_eq]; rfl

theorem s25_7 (c : Dev nD) : Gen.W15 m ρ c (Proc.devRef .tc main_v34) = addf (Gen.W13 m ρ c (Proc.devRef .tc main_v30))
    (Terms.takeFill (Gen.W12 m ρ c (Proc.devRef .tc main_arg0)) (Terms.colOf ![0, 6] (Gen.W12 m ρ c (Proc.devRef .tc main_arg1)) slices_S50000x25_S50000x1_0_6)) := by
  dsimp only [Gen.W15, Gen.W14, Gen.W13]; generalize Gen.W12 m ρ c = V
  after_results_simp; simp only [TRef.ofBuf, TRef.toBuf, cast_eq]; rfl

theorem s25_8 (c : Dev nD) : Gen.W17 m ρ c (Proc.devRef .tc main_v38) = addf (Gen.W15 m ρ c (Proc.devRef .tc main_v34))
    (Terms.takeFill (Gen.W14 m ρ c (Proc.devRef .tc main_arg0)) (Terms.colOf ![0, 7] (Gen.W14 m ρ c (Proc.devRef .tc main_arg1)) slices_S50000x25_S50000x1_0_7)) := by
  dsimp only [Gen.W17, Gen.W16, Gen.W15]; generalize Gen.W14 m ρ c = V
  after_results_simp; simp only [TRef.ofBuf, TRef.toBuf, cast_eq]; rfl

theorem s25_9 (c : Dev nD) : Gen.W19 m ρ c (Proc.devRef .tc main_v42) = addf (Gen.W17 m ρ c (Proc.devRef .tc main_v38))
    (Terms.takeFill (Gen.W16 m ρ c (Proc.devRef .tc main_arg0)) (Terms.colOf ![0, 8] (Gen.W16 m ρ c (Proc.devRef .tc main_arg1)) slices_S50000x25_S50000x1_0_8)) := by
  dsimp only [Gen.W19, Gen.W18, Gen.W17]; generalize Gen.W16 m ρ c = V
  after_results_simp; simp only [TRef.ofBuf, TRef.toBuf, cast_eq]; rfl

theorem s25_10 (c : Dev nD) : Gen.W21 m ρ c (Proc.devRef .tc main_v46) = addf (Gen.W19 m ρ c (Proc.devRef .tc main_v42))
    (Terms.takeFill (Gen.W18 m ρ c (Proc.devRef .tc main_arg0)) (Terms.colOf ![0, 9] (Gen.W18 m ρ c (Proc.devRef .tc main_arg1)) slices_S50000x25_S50000x1_0_9)) := by
  dsimp only [Gen.W21, Gen.W20, Gen.W19]; generalize Gen.W18 m ρ c = V
  after_results_simp; simp only [TRef.ofBuf, TRef.toBuf, cast_eq]; rfl

theorem s25_11 (c : Dev nD) : Gen.W23 m ρ c (Proc.devRef .tc main_v50) = addf (Gen.W21 m ρ c (Proc.devRef .tc main_v46))
    (Terms.takeFill (Gen.W20 m ρ c (Proc.devRef .tc main_arg0)) (Terms.colOf ![0, 10] (Gen.W20 m ρ c (Proc.devRef .tc main_arg1)) slices_S50000x25_S50000x1_0_10)) := by
  dsimp only [Gen.W23, Gen.W22, Gen.W21]; generalize Gen.W20 m ρ c = V
  after_results_simp; simp only [TRef.ofBuf, TRef.toBuf, cast_eq]; rfl

theorem s25_12 (c : Dev nD) : Gen.W25 m ρ c (Proc.devRef .tc main_v54) = addf (Gen.W23 m ρ c (Proc.devRef .tc main_v50))
    (Terms.takeFill (Gen.W22 m ρ c (Proc.devRef .tc main_arg0)) (Terms.colOf ![0, 11] (Gen.W22 m ρ c (Proc.devRef .tc main_arg1)) slices_S50000x25_S50000x1_0_11)) := by
  dsimp only [Gen.W25, Gen.W24, Gen.W23]; generalize Gen.W22 m ρ c = V
  after_results_simp; simp only [TRef.ofBuf, TRef.toBuf, cast_eq]; rfl

theorem s25_13 (c : Dev nD) : Gen.W27 m ρ c (Proc.devRef .tc main_v58) = addf (Gen.W25 m ρ c (Proc.devRef .tc main_v54))
    (Terms.takeFill (Gen.W24 m ρ c (Proc.devRef .tc main_arg0)) (Terms.colOf ![0, 12] (Gen.W24 m ρ c (Proc.devRef .tc main_arg1)) slices_S50000x25_S50000x1_0_12)) := by
  dsimp only [Gen.W27, Gen.W26, Gen.W25]; generalize Gen.W24 m ρ c = V
  after_results_simp; simp only [TRef.ofBuf, TRef.toBuf, cast_eq]; rfl

theorem s25_14 (c : Dev nD) : Gen.W29 m ρ c (Proc.devRef .tc main_v62) = addf (Gen.W27 m ρ c (Proc.devRef .tc main_v58))
    (Terms.takeFill (Gen.W26 m ρ c (Proc.devRef .tc main_arg0)) (Terms.colOf ![0, 13] (Gen.W26 m ρ c (Proc.devRef .tc main_arg1)) slices_S50000x25_S50000x1_0_13)) := by
  dsimp only [Gen.W29, Gen.W28, Gen.W27]; generalize Gen.W26 m ρ c = V
  after_results_simp; simp only [TRef.ofBuf, TRef.toBuf, cast_eq]; rfl

theorem s25_15 (c : Dev nD) : Gen.W31 m ρ c (Proc.devRef .tc main_v66) = addf (Gen.W29 m ρ c (Proc.devRef .tc main_v62))
    (Terms.takeFill (Gen.W28 m ρ c (Proc.devRef .tc main_arg0)) (Terms.colOf ![0, 14] (Gen.W28 m ρ c (Proc.devRef .tc main_arg1)) slices_S50000x25_S50000x1_0_14)) := by
  dsimp only [Gen.W31, Gen.W30, Gen.W29]; generalize Gen.W28 m ρ c = V
  after_results_simp; simp only [TRef.ofBuf, TRef.toBuf, cast_eq]; rfl

theorem s25_16 (c : Dev nD) : Gen.W33 m ρ c (Proc.devRef .tc main_v70) = addf (Gen.W31 m ρ c (Proc.devRef .tc main_v66))
    (Terms.takeFill (Gen.W30 m ρ c (Proc.devRef .tc main_arg0)) (Terms.colOf ![0, 15] (Gen.W30 m ρ c (Proc.devRef .tc main_arg1)) slices_S50000x25_S50000x1_0_15)) := by
  dsimp only [Gen.W33, Gen.W32, Gen.W31]; generalize Gen.W30 m ρ c = V
  after_results_simp; simp only [TRef.ofBuf, TRef.toBuf, cast_eq]; rfl

theorem s25_17 (c : Dev nD) : Gen.W35 m ρ c (Proc.devRef .tc main_v74) = addf (Gen.W33 m ρ c (Proc.devRef .tc main_v70))
    (Terms.takeFill (Gen.W32 m ρ c (Proc.devRef .tc main_arg0)) (Terms.colOf ![0, 16] (Gen.W32 m ρ c (Proc.devRef .tc main_arg1)) slices_S50000x25_S50000x1_0_16)) := by
  dsimp only [Gen.W35, Gen.W34, Gen.W33]; generalize Gen.W32 m ρ c = V
  after_results_simp; simp only [TRef.ofBuf, TRef.toBuf, cast_eq]; rfl

theorem s25_18 (c : Dev nD) : Gen.W37 m ρ c (Proc.devRef .tc main_v78) = addf (Gen.W35 m ρ c (Proc.devRef .tc main_v74))
    (Terms.takeFill (Gen.W34 m ρ c (Proc.devRef .tc main_arg0)) (Terms.colOf ![0, 17] (Gen.W34 m ρ c (Proc.devRef .tc main_arg1)) slices_S50000x25_S50000x1_0_17)) := by
  dsimp only [Gen.W37, Gen.W36, Gen.W35]; generalize Gen.W34 m ρ c = V
  after_results_simp; simp only [TRef.ofBuf, TRef.toBuf, cast_eq]; rfl

theorem s25_19 (c : Dev nD) : Gen.W39 m ρ c (Proc.devRef .tc main_v82) = addf (Gen.W37 m ρ c (Proc.devRef .tc main_v78))
    (Terms.takeFill (Gen.W36 m ρ c (Proc.devRef .tc main_arg0)) (Terms.colOf ![0, 18] (Gen.W36 m ρ c (Proc.devRef .tc main_arg1)) slices_S50000x25_S50000x1_0_18)) := by
  dsimp only [Gen.W39, Gen.W38, Gen.W37]; generalize Gen.W36 m ρ c = V
  after_results_simp; simp only [TRef.ofBuf, TRef.toBuf, cast_eq]; rfl

theorem s25_20 (c : Dev nD) : Gen.W41 m ρ c (Proc.devRef .tc main_v86) = addf (Gen.W39 m ρ c (Proc.devRef .tc main_v82))
    (Terms.takeFill (Gen.W38 m ρ c (Proc.devRef .tc main_arg0)) (Terms.colOf ![0, 19] (Gen.W38 m ρ c (Proc.devRef .tc main_arg1)) slices_S50000x25_S50000x1_0_19)) := by
  dsimp only [Gen.W41, Gen.W40, Gen.W39]; generalize Gen.W38 m ρ c = V
  after_results_simp; simp only [TRef.ofBuf, TRef.toBuf, cast_eq]; rfl

theorem s25_21 (c : Dev nD) : Gen.W43 m ρ c (Proc.devRef .tc main_v90) = addf (Gen.W41 m ρ c (Proc.devRef .tc main_v86))
    (Terms.takeFill (Gen.W40 m ρ c (Proc.devRef .tc main_arg0)) (Terms.colOf ![0, 20] (Gen.W40 m ρ c (Proc.devRef .tc main_arg1)) slices_S50000x25_S50000x1_0_20)) := by
  dsimp only [Gen.W43, Gen.W42, Gen.W41]; generalize Gen.W40 m ρ c = V
  after_results_simp; simp only [TRef.ofBuf, TRef.toBuf, cast_eq]; rfl

theorem s25_22 (c : Dev nD) : Gen.W45 m ρ c (Proc.devRef .tc main_v94) = addf (Gen.W43 m ρ c (Proc.devRef .tc main_v90))
    (Terms.takeFill (Gen.W42 m ρ c (Proc.devRef .tc main_arg0)) (Terms.colOf ![0, 21] (Gen.W42 m ρ c (Proc.devRef .tc main_arg1)) slices_S50000x25_S50000x1_0_21)) := by
  dsimp only [Gen.W45, Gen.W44, Gen.W43]; generalize Gen.W42 m ρ c = V
  after_results_simp; simp only [TRef.ofBuf, TRef.toBuf, cast_eq]; rfl

theorem s25_23 (c : Dev nD) : Gen.W47 m ρ c (Proc.devRef .tc main_v98) = addf (Gen.W45 m ρ c (Proc.devRef .tc main_v94))
    (Terms.takeFill (Gen.W44 m ρ c (Proc.devRef .tc main_arg0)) (Terms.colOf ![0, 22] (Gen.W44 m ρ c (Proc.devRef .tc main_arg1)) slices_S50000x25_S50000x1_0_22)) := by
  dsimp only [Gen.W47, Gen.W46, Gen.W45]; generalize Gen.W44 m ρ c = V
  after_results_simp; simp only [TRef.ofBuf, TRef.toBuf, cast_eq]; rfl

theorem s25_24 (c : Dev nD) : Gen.W49 m ρ c (Proc.devRef .tc main_v102) = addf (Gen.W47 m ρ c (Proc.devRef .tc main_v98))
    (Terms.takeFill (Gen.W46 m ρ c (Proc.devRef .tc main_arg0)) (Terms.colOf ![0, 23] (Gen.W46 m ρ c (Proc.devRef .tc main_arg1)) slices_S50000x25_S50000x1_0_23)) := by
  dsimp only [Gen.W49, Gen.W48, Gen.W47]; generalize Gen.W46 m ρ c = V
  after_results_simp; simp only [TRef.ofBuf, TRef.toBuf, cast_eq]; rfl

theorem s25_25 (c : Dev nD) : Gen.W51 m ρ c (Proc.devRef .tc main_v106) = addf (Gen.W49 m ρ c (Proc.devRef .tc main_v102))
    (Terms.takeFill (Gen.W48 m ρ c (Proc.devRef .tc main_arg0)) (Terms.colOf ![0, 24] (Gen.W48 m ρ c (Proc.devRef .tc main_arg1)) slices_S50000x25_S50000x1_0_24)) := by
  dsimp only [Gen.W51, Gen.W50, Gen.W49]; generalize Gen.W48 m ρ c = V
  after_results_simp; simp only [TRef.ofBuf, TRef.toBuf, cast_eq]; rfl

theorem s10_1 (c : Dev nD) : Gen.W56 m ρ c (Proc.devRef .tc main_v116) = addf (Gen.W54 m ρ c (Proc.devRef .tc main_v112))
    (Terms.takeFill (Gen.W53 m ρ c (Proc.devRef .tc main_v111)) (Terms.colOf ![0, 0] (Gen.W53 m ρ c (Proc.devRef .tc main_arg2)) slices_S50000x10_S50000x1_0_0)) := by
  dsimp only [Gen.W56, Gen.W55, Gen.W54]; generalize Gen.W53 m ρ c = V
  after_results_simp; simp only [TRef.ofBuf, TRef.toBuf, cast_eq]; rfl

theorem s10_2 (c : Dev nD) : Gen.W58 m ρ c (Proc.devRef .tc main_v120) = addf (Gen.W56 m ρ c (Proc.devRef .tc main_v116))
    (Terms.takeFill (Gen.W55 m ρ c (Proc.devRef .tc main_v111)) (Terms.colOf ![0, 1] (Gen.W55 m ρ c (Proc.devRef .tc main_arg2)) slices_S50000x10_S50000x1_0_1)) := by
  dsimp only [Gen.W58, Gen.W57, Gen.W56]; generalize Gen.W55 m ρ c = V
  after_results_simp; simp only [TRef.ofBuf, TRef.toBuf, cast_eq]; rfl

theorem s10_3 (c : Dev nD) : Gen.W60 m ρ c (Proc.devRef .tc main_v124) = addf (Gen.W58 m ρ c (Proc.devRef .tc main_v120))
    (Terms.takeFill (Gen.W57 m ρ c (Proc.devRef .tc main_v111)) (Terms.colOf ![0, 2] (Gen.W57 m ρ c (Proc.devRef .tc main_arg2)) slices_S50000x10_S50000x1_0_2)) := by
  dsimp only [Gen.W60, Gen.W59, Gen.W58]; generalize Gen.W57 m ρ c = V
  after_results_simp; simp only [TRef.ofBuf, TRef.toBuf, cast_eq]; rfl

theorem s10_4 (c : Dev nD) : Gen.W62 m ρ c (Proc.devRef .tc main_v128) = addf (Gen.W60 m ρ c (Proc.devRef .tc main_v124))
    (Terms.takeFill (Gen.W59 m ρ c (Proc.devRef .tc main_v111)) (Terms.colOf ![0, 3] (Gen.W59 m ρ c (Proc.devRef .tc main_arg2)) slices_S50000x10_S50000x1_0_3)) := by
  dsimp only [Gen.W62, Gen.W61, Gen.W60]; generalize Gen.W59 m ρ c = V
  after_results_simp; simp only [TRef.ofBuf, TRef.toBuf, cast_eq]; rfl

theorem s10_5 (c : Dev nD) : Gen.W64 m ρ c (Proc.devRef .tc main_v132) = addf (Gen.W62 m ρ c (Proc.devRef .tc main_v128))
    (Terms.takeFill (Gen.W61 m ρ c (Proc.devRef .tc main_v111)) (Terms.colOf ![0, 4] (Gen.W61 m ρ c (Proc.devRef .tc main_arg2)) slices_S50000x10_S50000x1_0_4)) := by
  dsimp only [Gen.W64, Gen.W63, Gen.W62]; generalize Gen.W61 m ρ c = V
  after_results_simp; simp only [TRef.ofBuf, TRef.toBuf, cast_eq]; rfl

theorem s10_6 (c : Dev nD) : Gen.W66 m ρ c (Proc.devRef .tc main_v136) = addf (Gen.W64 m ρ c (Proc.devRef .tc main_v132))
    (Terms.takeFill (Gen.W63 m ρ c (Proc.devRef .tc main_v111)) (Terms.colOf ![0, 5] (Gen.W63 m ρ c (Proc.devRef .tc main_arg2)) slices_S50000x10_S50000x1_0_5)) := by
  dsimp only [Gen.W66, Gen.W65, Gen.W64]; generalize Gen.W63 m ρ c = V
  after_results_simp; simp only [TRef.ofBuf, TRef.toBuf, cast_eq]; rfl

theorem s10_7 (c : Dev nD) : Gen.W68 m ρ c (Proc.devRef .tc main_v140) = addf (Gen.W66 m ρ c (Proc.devRef .tc main_v136))
    (Terms.takeFill (Gen.W65 m ρ c (Proc.devRef .tc main_v111)) (Terms.colOf ![0, 6] (Gen.W65 m ρ c (Proc.devRef .tc main_arg2)) slices_S50000x10_S50000x1_0_6)) := by
  dsimp only [Gen.W68, Gen.W67, Gen.W66]; generalize Gen.W65 m ρ c = V
  after_results_simp; simp only [TRef.ofBuf, TRef.toBuf, cast_eq]; rfl

theorem s10_8 (c : Dev nD) : Gen.W70 m ρ c (Proc.devRef .tc main_v144) = addf (Gen.W68 m ρ c (Proc.devRef .tc main_v140))
    (Terms.takeFill (Gen.W67 m ρ c (Proc.devRef .tc main_v111)) (Terms.colOf ![0, 7] (Gen.W67 m ρ c (Proc.devRef .tc main_arg2)) slices_S50000x10_S50000x1_0_7)) := by
  dsimp only [Gen.W70, Gen.W69, Gen.W68]; generalize Gen.W67 m ρ c = V
  after_results_simp; simp only [TRef.ofBuf, TRef.toBuf, cast_eq]; rfl

theorem s10_9 (c : Dev nD) : Gen.W72 m ρ c (Proc.devRef .tc main_v148) = addf (Gen.W70 m ρ c (Proc.devRef .tc main_v144))
    (Terms.takeFill (Gen.W69 m ρ c (Proc.devRef .tc main_v111)) (Terms.colOf ![0, 8] (Gen.W69 m ρ c (Proc.devRef .tc main_arg2)) slices_S50000x10_S50000x1_0_8)) := by
  dsimp only [Gen.W72, Gen.W71, Gen.W70]; generalize Gen.W69 m ρ c = V
  after_results_simp; simp only [TRef.ofBuf, TRef.toBuf, cast_eq]; rfl

theorem s10_10 (c : Dev nD) : Gen.W74 m ρ c (Proc.devRef .tc main_v152) = addf (Gen.W72 m ρ c (Proc.devRef .tc main_v148))
    (Terms.takeFill (Gen.W71 m ρ c (Proc.devRef .tc main_v111)) (Terms.colOf ![0, 9] (Gen.W71 m ρ c (Proc.devRef .tc main_arg2)) slices_S50000x10_S50000x1_0_9)) := by
  dsimp only [Gen.W74, Gen.W73, Gen.W72]; generalize Gen.W71 m ρ c = V
  after_results_simp; simp only [TRef.ofBuf, TRef.toBuf, cast_eq]; rfl

end Cert.KernelIdeal.Fold

end
-- ==== Proof.KFold.lean ====
import proofs.«404205_j84782654423298_2_alg».proof.Proof.KSteps

noncomputable section

namespace Cert.KernelIdeal.Fold

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

-- A region leaves a buffer that is none of its windows' arrays.
theorem W52_ne (c : Dev nD) (b : Ref sig .tc) (hb : ∀ w, Pipeline.arrRef spec0 w ≠ b) :
    Gen.W52 m ρ c (no_index (Proc.devRef .tc b)) = Gen.W51 m ρ c (Proc.devRef .tc b) := Gen.W52_of_ne m ρ c b hb
theorem W53_ne (c : Dev nD) (b : Ref sig .tc) (hb : ∀ w, Pipeline.arrRef spec1 w ≠ b) :
    Gen.W53 m ρ c (no_index (Proc.devRef .tc b)) = Gen.W52 m ρ c (Proc.devRef .tc b) := Gen.W53_of_ne m ρ c b hb
theorem W75_ne (c : Dev nD) (b : Ref sig .tc) (hb : ∀ w, Pipeline.arrRef spec2 w ≠ b) :
    Gen.W75 m ρ c (no_index (Proc.devRef .tc b)) = Gen.W74 m ρ c (Proc.devRef .tc b) := Gen.W75_of_ne m ρ c b hb
theorem W76_ne (c : Dev nD) (b : Ref sig .tc) (hb : ∀ w, Pipeline.arrRef spec3 w ≠ b) :
    Gen.W76 m ρ c (no_index (Proc.devRef .tc b)) = Gen.W75 m ρ c (Proc.devRef .tc b) := Gen.W76_of_ne m ρ c b hb

-- A region leaves an input window's array as it found it.
theorem in1_w0 (c : Dev nD) : Gen.W53 m ρ c (no_index (Proc.devRef .tc main_v110)) = Gen.W52 m ρ c (Proc.devRef .tc main_v110) :=
  (Gen.W53_arr m ρ c 0).trans (((Gen.dat1 (Gen.V52 m ρ) c).arrAt_in 0 rfl _).trans (Gen.A_eq1 (Gen.V52 m ρ) c 0))
theorem in1_w2 (c : Dev nD) : Gen.W53 m ρ c (no_index (Proc.devRef .tc main_arg7)) = Gen.W52 m ρ c (Proc.devRef .tc main_arg7) :=
  (Gen.W53_arr m ρ c 2).trans (((Gen.dat1 (Gen.V52 m ρ) c).arrAt_in 2 rfl _).trans (Gen.A_eq1 (Gen.V52 m ρ) c 2))
theorem in1_w3 (c : Dev nD) : Gen.W53 m ρ c (no_index (Proc.devRef .tc main_v4)) = Gen.W52 m ρ c (Proc.devRef .tc main_v4) :=
  (Gen.W53_arr m ρ c 3).trans (((Gen.dat1 (Gen.V52 m ρ) c).arrAt_in 3 rfl _).trans (Gen.A_eq1 (Gen.V52 m ρ) c 3))
theorem in1_w4 (c : Dev nD) : Gen.W53 m ρ c (no_index (Proc.devRef .tc main_v5)) = Gen.W52 m ρ c (Proc.devRef .tc main_v5) :=
  (Gen.W53_arr m ρ c 4).trans (((Gen.dat1 (Gen.V52 m ρ) c).arrAt_in 4 rfl _).trans (Gen.A_eq1 (Gen.V52 m ρ) c 4))
theorem in3_w0 (c : Dev nD) : Gen.W76 m ρ c (no_index (Proc.devRef .tc main_v156)) = Gen.W75 m ρ c (Proc.devRef .tc main_v156) :=
  (Gen.W76_arr m ρ c 0).trans (((Gen.dat3 (Gen.V75 m ρ) c).arrAt_in 0 rfl _).trans (Gen.A_eq3 (Gen.V75 m ρ) c 0))

-- A region leaves its output array at what its write-backs leave.
theorem out0 (c : Dev nD) : Gen.W52 m ρ c (no_index (Proc.devRef .tc main_v110)) = (Gen.dat0 (Gen.V51 m ρ) c).arrAt 4 cfg0.N := Gen.W52_arr m ρ c 4
theorem out1 (c : Dev nD) : Gen.W53 m ρ c (no_index (Proc.devRef .tc main_v111)) = (Gen.dat1 (Gen.V52 m ρ) c).arrAt 5 cfg1.N := Gen.W53_arr m ρ c 5
theorem out2 (c : Dev nD) : Gen.W75 m ρ c (no_index (Proc.devRef .tc main_v156)) = (Gen.dat2 (Gen.V74 m ρ) c).arrAt 4 cfg2.N := Gen.W75_arr m ρ c 4
theorem out3 (c : Dev nD) : Gen.W76 m ρ c (no_index (Proc.devRef .tc main_v157)) = (Gen.dat3 (Gen.V75 m ρ) c).arrAt 5 cfg3.N := Gen.W76_arr m ρ c 5

-- Walks a buffer's contents back, segment by segment, to the segment that wrote it.
local macro "keep" : tactic => `(tactic| simp (disch := decide) only [after_of_forall_not_mem, W52_ne, W53_ne, W75_ne, W76_ne,
  in1_w0, in1_w2, in1_w3, in1_w4, in3_w0, out0, out1, out2, out3])

theorem in0_x (c : Dev nD) : Gen.V51 m ρ c main_arg0 = m ((c : Thread nD τ).loc main_arg0) := by keep
theorem in0_wa (c : Dev nD) : Gen.V51 m ρ c main_v0 = extractStridedSlice S128x128 ![0, 0] (m ((c : Thread nD τ).loc main_arg5)) slices_S256x128_S128x128_0_0 := by
  keep; after_results_simp <;> rfl
theorem in0_wb (c : Dev nD) : Gen.V51 m ρ c main_v1 = extractStridedSlice S128x128 ![128, 0] (m ((c : Thread nD τ).loc main_arg5)) slices_S256x128_S128x128_128_0 := by
  keep; after_results_simp <;> rfl

theorem s25_0 (c : Dev nD) : Gen.W1 m ρ c (Proc.devRef .tc main_v6) = (Terms.zerosArr : Vec Ideal S50000x128 .f32) := by
  after_results_simp <;> rfl

-- The first mean: the sum of the 25 takes, step by step, over the count, narrowed.
theorem in0_nm (c : Dev nD) : Gen.V51 m ρ c main_v109 = Terms.meanK25 (m ((c : Thread nD τ).loc main_arg0)) (m ((c : Thread nD τ).loc main_arg1)) := by
  have e : Gen.W51 m ρ c (Proc.devRef .tc main_v109) = truncf (F := Ideal) .bf16 (Host.divf (Gen.W51 m ρ c (Proc.devRef .tc main_v106))
      (broadcastInDim S50000x128 ![] bcast_S_S50000x128 (constant S_ .f32 0x41C80000#32))) bitsLt_bf16_f32 := by
    dsimp only [Gen.W51]; generalize Gen.W50 m ρ c = V; after_results_simp
  refine e.trans ?_
  rw [s25_25, s25_24, s25_23, s25_22, s25_21, s25_20, s25_19, s25_18, s25_17, s25_16, s25_15, s25_14, s25_13, s25_12, s25_11, s25_10, s25_9, s25_8, s25_7, s25_6, s25_5, s25_4, s25_3, s25_2, s25_1, s25_0]
  keep
  rfl

theorem in1_h (c : Dev nD) : Gen.V52 m ρ c main_v110 = (Gen.dat0 (Gen.V51 m ρ) c).arrAt 4 cfg0.N := Gen.W52_arr m ρ c 4
theorem in1_hist (c : Dev nD) : Gen.V52 m ρ c main_arg3 = m ((c : Thread nD τ).loc main_arg3) := by keep
theorem in1_whis (c : Dev nD) : Gen.V52 m ρ c main_arg7 = m ((c : Thread nD τ).loc main_arg7) := by keep
theorem in1_wta (c : Dev nD) : Gen.V52 m ρ c main_v4 = extractStridedSlice S128x128 ![0, 0] (m ((c : Thread nD τ).loc main_arg8)) slices_S256x128_S128x128_0_0 := by
  keep; after_results_simp <;> rfl
theorem in1_wtb (c : Dev nD) : Gen.V52 m ρ c main_v5 = extractStridedSlice S128x128 ![128, 0] (m ((c : Thread nD τ).loc main_arg8)) slices_S256x128_S128x128_128_0 := by
  keep; after_results_simp <;> rfl

theorem in2_x (c : Dev nD) : Gen.V74 m ρ c main_v111 = (Gen.dat1 (Gen.V52 m ρ) c).arrAt 5 cfg1.N := by keep
theorem in2_wa (c : Dev nD) : Gen.V74 m ρ c main_v2 = extractStridedSlice S128x128 ![0, 0] (m ((c : Thread nD τ).loc main_arg6)) slices_S256x128_S128x128_0_0 := by
  keep; after_results_simp <;> rfl
theorem in2_wb (c : Dev nD) : Gen.V74 m ρ c main_v3 = extractStridedSlice S128x128 ![128, 0] (m ((c : Thread nD τ).loc main_arg6)) slices_S256x128_S128x128_128_0 := by
  keep; after_results_simp <;> rfl

theorem s10_0 (c : Dev nD) : Gen.W54 m ρ c (Proc.devRef .tc main_v112) = (Terms.zerosArr : Vec Ideal S50000x128 .f32) := by
  dsimp only [Gen.W54]; generalize Gen.W53 m ρ c = V; after_results_simp <;> rfl

-- The second mean: the same over region 1's output and the 10 columns of the second index matrix.
theorem in2_nm (c : Dev nD) : Gen.V74 m ρ c main_v155 = Terms.meanK10 ((Gen.dat1 (Gen.V52 m ρ) c).arrAt 5 cfg1.N) (m ((c : Thread nD τ).loc main_arg2)) := by
  have e : Gen.W74 m ρ c (Proc.devRef .tc main_v155) = truncf (F := Ideal) .bf16 (Host.divf (Gen.W74 m ρ c (Proc.devRef .tc main_v152))
      (broadcastInDim S50000x128 ![] bcast_S_S50000x128 (constant S_ .f32 0x41200000#32))) bitsLt_bf16_f32 := by
    dsimp only [Gen.W74]; generalize Gen.W73 m ρ c = V; after_results_simp
  refine e.trans ?_
  rw [s10_10, s10_9, s10_8, s10_7, s10_6, s10_5, s10_4, s10_3, s10_2, s10_1, s10_0]
  keep
  rfl

theorem in3_h (c : Dev nD) : Gen.V75 m ρ c main_v156 = (Gen.dat2 (Gen.V74 m ρ) c).arrAt 4 cfg2.N := Gen.W75_arr m ρ c 4
theorem in3_hist (c : Dev nD) : Gen.V75 m ρ c main_arg4 = m ((c : Thread nD τ).loc main_arg4) := by keep
theorem in3_whis (c : Dev nD) : Gen.V75 m ρ c main_arg7 = m ((c : Thread nD τ).loc main_arg7) := by keep
theorem in3_wta (c : Dev nD) : Gen.V75 m ρ c main_v4 = extractStridedSlice S128x128 ![0, 0] (m ((c : Thread nD τ).loc main_arg8)) slices_S256x128_S128x128_0_0 := by
  keep; after_results_simp <;> rfl
theorem in3_wtb (c : Dev nD) : Gen.V75 m ρ c main_v5 = extractStridedSlice S128x128 ![128, 0] (m ((c : Thread nD τ).loc main_arg8)) slices_S256x128_S128x128_128_0 := by
  keep; after_results_simp <;> rfl

theorem res_v110 (c : Dev nD) : Gen.W76 m ρ c (Proc.devRef .tc main_v110) = (Gen.dat0 (Gen.V51 m ρ) c).arrAt 4 cfg0.N := by keep
theorem res_v156 (c : Dev nD) : Gen.W76 m ρ c (Proc.devRef .tc main_v156) = (Gen.dat2 (Gen.V74 m ρ) c).arrAt 4 cfg2.N := by keep
theorem res_v157 (c : Dev nD) : Gen.W76 m ρ c (Proc.devRef .tc main_v157) = (Gen.dat3 (Gen.V75 m ρ) c).arrAt 5 cfg3.N := Gen.W76_arr m ρ c 5

end Cert.KernelIdeal.Fold

end
-- ==== Proof.KMean.lean ====
import proofs.«404205_j84782654423298_2_alg».proof.Proof.KTerms
import proofs.«404205_j84782654423298_2_alg».proof.Proof.Spec
import Idealize.ShloMosaic.Lib.ValueIdx
import Idealize.ShloMosaic.Lib.IdealHost
import Idealize.ShloMosaic.Lib.Pipeline.Value
import Idealize.ShloMosaic.Lib.Affine
import Idealize.ShloMosaic.PureOps.Reduce
import Idealize.ShloMosaic.PureOps.Ideal.Laws

set_option maxRecDepth 16384

noncomputable section

open scoped BigOperators

namespace Cert.KernelIdeal.Terms

open Idealize.ShloMosaic Idealize.ShloMosaic.ValueIdx
open Facts₀

variable [Facts₀]

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_one f l (fun n hn => h n (List.mem_cons_of_mem _ hn))

theorem nrm_of_nonneg (w : BitVec 32) (h : 0 ≤ w.toInt) : Cert.Spec.nrm w = w := by
  unfold Cert.Spec.nrm
  have hc : IntOp.cmpi .slt w 0#32 = 0#1 := by
    apply eq_zero_of_ne_one
    rw [IntOp.cmpi_slt]
    show ¬ w.toInt < (0#32 : BitVec 32).toInt
    rw [show (0#32 : BitVec 32).toInt = 0 from by decide]
    omega
  rw [hc, select_zero]

theorem wrapIdx_apply (idx : IVec S50000 32) (n : Fin 50000) : wrapIdx idx (ix1 n) = Cert.Spec.nrm (idx (ix1 n)) := rfl

theorem idxCol_apply (idx : IVec S50000 32) (n : Fin 50000) (z : Fin 1) :
    idxCol idx (ix2 n z) = Cert.Spec.nrm (idx (ix1 n)) := by
  unfold idxCol
  rw [broadcastInDim_apply _ _ _ (ix2 n z) (ix1 n) (fun a => match a with | ⟨0, _⟩ => rfl)]
  rfl

theorem inRange_eq_one (v : IVec S50000x1 32) (n : Fin 50000)
    (h : 0 ≤ (v (ix2 n 0)).toInt ∧ (v (ix2 n 0)).toInt ≤ 49999) : inRange v (ix1 n) = 1#1 := by
  unfold inRange
  rw [Host.reduce_eq_foldl]
  apply foldl_andi_one
  intro i hi
  rw [List.mem_filter] at hi
  have hd : reducesTo_S50000x1_S50000_d1.drop i = ix1 n := by simpa using hi.2
  have h0 : i = ix2 n 0 := by
    rw [eq_ix2 i]
    have e0 : (i 0 : Nat) = n.val := by
      have := Shape.ReducesTo.drop_apply_val_of_eq reducesTo_S50000x1_S50000_d1 i 0 0
      rw [hd] at this
      exact this.symm
    have e1 : (i 1 : Nat) = 0 := by have := idx2_lt1 i; omega
    funext a
    match a with
    | ⟨0, _⟩ => exact Fin.ext e0
    | ⟨1, _⟩ => exact Fin.ext e1
  subst h0
  show IntOp.andi (IntOp.cmpi .sge (v (ix2 n 0)) 0#32) (IntOp.cmpi .sle (v (ix2 n 0)) 49999#32) = 1#1
  rw [IntOp.andi_eq_one, IntOp.cmpi_sge, IntOp.cmpi_sle,
    show (0#32 : BitVec 32).toInt = 0 from by decide, show (49999#32 : BitVec 32).toInt = 49999 from by decide]
  exact h

theorem gather_rows_apply {α : Type}
    (wf : GatherDims.WF S50000x128 S50000x1 S50000x128 [1] [0] [] [0] [] 1 ![1, 128])
    (X : S50000x128.Idx → α) (v : IVec S50000x1 32) (n : Fin 50000) (d : Fin 128) :
    Host.gather (⟨[1], [0], [], [], [0], 1, ![1, 128], wf⟩ : GatherDims S50000x128 S50000x1 S50000x128) X v (ix2 n d)
      = X (ix2 (⟨min (v (ix2 n 0)).toInt.toNat 49999, by omega⟩ : Fin 50000) d) := by
  unfold Host.gather
  congr 1
  funext a
  match a with
  | ⟨0, _⟩ =>
    refine Fin.ext ?_
    show GatherDims.start _ (ix2 n d) v 0 + GatherDims.batchCoord _ (ix2 n d) 0 + GatherDims.offCoord _ (ix2 n d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, 128], wf⟩ : GatherDims S50000x128 S50000x1 S50000x128) (ix2 n d)
        ⟨List.idxOf (0 : Fin S50000x128.rank) [0], List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    refine Fin.ext ?_
    show GatherDims.start _ (ix2 n d) v 1 + GatherDims.batchCoord _ (ix2 n d) 1 + GatherDims.offCoord _ (ix2 n d) 1 = d.val
    rw [GatherDims.batchCoord_eq_zero _ _ _ List.not_mem_nil]
    unfold GatherDims.start
    rw [dif_neg (show ¬ ((1 : Fin S50000x128.rank) ∈ ([0] : List (Fin S50000x128.rank))) from by decide)]
    unfold GatherDims.offCoord
    rw [dif_pos (show (1 : Fin S50000x128.rank) ∈ S50000x128.kept ([0] ++ []) from by decide)]
    rw [Nat.zero_add]
    rfl

theorem takeFill_apply (X : Vec Ideal S50000x128 .f32) (idx : IVec S50000 32) (n : Fin 50000) (d : Fin 128)
    (h : 0 ≤ (idx (ix1 n)).toInt ∧ (idx (ix1 n)).toInt < 50000) :
    takeFill X idx (ix2 n d) = X (ix2 (Cert.Spec.rowOf (idx (ix1 n))) d) := by
  have hn : Cert.Spec.nrm (idx (ix1 n)) = idx (ix1 n) := nrm_of_nonneg _ h.1
  have hbit : inRange (idxCol idx) (ix1 n) = 1#1 := by
    apply inRange_eq_one
    rw [idxCol_apply, hn]
    omega
  unfold takeFill
  rw [select_apply, broadcastInDim_apply _ _ _ (ix2 n d) (ix1 n) (fun a => match a with | ⟨0, _⟩ => rfl), hbit, select_one]
  show Host.gather (⟨[1], [0], [], [], [0], 1, ![1, 128], _⟩ : GatherDims S50000x128 S50000x1 S50000x128) X (idxCol idx)
    (ix2 n d) = _
  rw [gather_rows_apply]
  refine congrArg (fun r => X (ix2 r d)) (Fin.ext ?_)
  show min (idxCol idx (ix2 n 0)).toInt.toNat 49999 = min (Cert.Spec.nrm (idx (ix1 n))).toInt.toNat 49999
  rw [idxCol_apply]

theorem colOf_apply {K : Nat} (I : IVec ⟨2, ![50000, K]⟩ 32) (k : Nat) (hk : k < K)
    (h : (⟨2, ![50000, K]⟩ : Shape).Slices ![0, k] S50000x1) (n : Fin 50000) :
    colOf ![0, k] I h (ix1 n) = I (ix2 n ⟨k, hk⟩) := by
  unfold colOf
  rw [shapeCast_apply _ _ (ix1 n) (ix2 n (0 : Fin 1)) (by rw [Shape.rowMajor_val_two, Shape.rowMajor_val_one]; show n.val * 1 + 0 = n.val; omega)]
  exact extractStridedSlice_apply _ _ _ (ix2 n (0 : Fin 1)) (ix2 n ⟨k, hk⟩)
    (fun a => match a with
      | ⟨0, _⟩ => (Nat.zero_add _).symm
      | ⟨1, _⟩ => rfl)

-- The running sum of the first k takes at (n, d) is the sum over the first k rows node n's index words select.
theorem acc_apply {K : Nat} (X : Vec Ideal S50000x128 .f32) (I : IVec ⟨2, ![50000, K]⟩ 32)
    (hI : ∀ i, 0 ≤ (I i).toInt ∧ (I i).toInt < 50000) (n : Fin 50000) (d : Fin 128) :
    ∀ (k : Nat) (hk : k ≤ K), acc X I k hk (ix2 n d)
      = ∑ j : Fin k, X (ix2 (Cert.Spec.rowOf (I (ix2 n ⟨j.val, lt_of_lt_of_le j.isLt hk⟩))) d)
  | 0, _ => by
    rw [Finset.univ_eq_empty, Finset.sum_empty]
    exact Ideal.ofBits_zero_f32
  | k + 1, hk => by
    show addf (acc X I k _) (takeFill X (colOf ![0, k] I _)) (ix2 n d) = _
    rw [addf_apply, acc_apply X I hI n d k _, takeFill_apply X _ n d (by rw [colOf_apply I k hk _ n]; exact hI _),
      colOf_apply I k hk _ n, Fin.sum_univ_castSucc]
    rfl

theorem meanK25_eq (X : Vec Ideal S50000x128 .f32) (I : IVec S50000x25 32)
    (hI : ∀ i, 0 ≤ (I i).toInt ∧ (I i).toInt < 50000) :
    meanK25 (F := Ideal) X I = Cert.Spec.meanArr 25 Cert.Spec.w25 X I := by
  funext i
  obtain ⟨n, d, rfl⟩ : ∃ (n : Fin 50000) (d : Fin 128), i = ix2 n d := ⟨i 0, i 1, eq_ix2 i⟩
  unfold meanK25
  rw [truncf_apply, hostDivf_apply, acc_apply X I hI]
  rfl

theorem meanK10_eq (X : Vec Ideal S50000x128 .f32) (I : IVec S50000x10 32)
    (hI : ∀ i, 0 ≤ (I i).toInt ∧ (I i).toInt < 50000) :
    meanK10 (F := Ideal) X I = Cert.Spec.meanArr 10 Cert.Spec.w10 X I := by
  funext i
  obtain ⟨n, d, rfl⟩ : ∃ (n : Fin 50000) (d : Fin 128), i = ix2 n d := ⟨i 0, i 1, eq_ix2 i⟩
  unfold meanK10
  rw [truncf_apply, hostDivf_apply, acc_apply X I hI]
  rfl

end Cert.KernelIdeal.Terms

end
-- ==== Proof.KSage.lean ====
import proofs.«404205_j84782654423298_2_alg».proof.Proof.Gen.KernelIdeal.Frame
import proofs.«404205_j84782654423298_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Sage

open Cert.KernelIdeal Cert.KernelIdeal.Gen Idealize.ShloMosaic Idealize.ShloMosaic.TcCoe Idealize.ShloMosaic.ValueIdx Idealize.SL.Sem
open Idealize.ShloMosaic.Pipeline (Dat)

theorem matmul_at (A : FVec Ideal S5000x128 .bf16) (B : FVec Ideal S128x128 .bf16) (r : Fin 5000) (j : Fin 128) :
    matmul dot_S5000x128_S128x128_S5000x128_1_0_0_1_n_n none A B (constant (F := Ideal) S5000x128 .f32 0x00000000#32) (ix2 r j)
      = ∑ d : Fin 128, A (ix2 r d) * B (ix2 d j) := by
  show FloatOps.matmul _ none A B _ (ix2 r j) = _
  rw [Ideal.matmul_constant_zero_apply,
    ← Equiv.sum_comp (contrEquiv1 dot_S5000x128_S128x128_S5000x128_1_0_0_1_n_n 128 rfl rfl).symm]
  refine Finset.sum_congr rfl fun c _ => ?_
  have c2 := contrEquiv1_symm_val dot_S5000x128_S128x128_S5000x128_1_0_0_1_n_n 128 rfl rfl c
  have l2 : dot_S5000x128_S128x128_S5000x128_1_0_0_1_n_n.lhsIdx (ix2 r j) ((contrEquiv1 _ 128 rfl rfl).symm c) = ix2 r c := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : dot_S5000x128_S128x128_S5000x128_1_0_0_1_n_n.rhsIdx (ix2 r j) ((contrEquiv1 _ 128 rfl rfl).symm c) = ix2 c j := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]

theorem sqrt_at {s : Shape} (a : FVec Ideal s .f32) (i : s.Idx) : sqrt a i = Ideal.sqrt (a i) := rfl

theorem bcol_at (v : FVec Ideal S5000x1 .f32) (r : Fin 5000) (j : Fin 128) :
    broadcastTo S5000x128 v broadcasts_S5000x1_S5000x128 (ix2 r j) = v (ix2 r (0 : Fin 1)) := by
  refine broadcastTo_apply v _ (ix2 r j) (ix2 r (0 : Fin 1)) fun ax => ?_
  match ax with
  | ⟨0, _⟩ =>
    show r.val = if (5000 : Nat) = 1 then 0 else r.val
    rw [if_neg (by decide)]
  | ⟨1, _⟩ => rfl

theorem col_at (v : FVec Ideal S5000 .f32) (r : Fin 5000) (u : Fin 1) :
    shapeCast S5000x1 v shapeCasts_S5000_S5000x1 (ix2 r u) = v (ix1 r) :=
  shapeCast_apply v _ _ _ (by
    have hu : u.val = 0 := by omega
    rw [Shape.rowMajor_val_two, Shape.rowMajor_val_one]
    show r.val = r.val * 1 + u.val
    omega)

theorem rowsum_at (v : FVec Ideal S5000x128 .f32) (hφ : FKind.Formats .f32) (hacc : (0x00000000#32 : BitVec 32) = 0x00000000#32) (r : Fin 5000) :
    multiReduction .add [1] S5000 v 0x00000000#32 reduces_S5000x128_S5000 hφ hacc (ix1 r)
      = ∑ k : Fin 128, v (ix2 r k) := by
  refine (Ideal.multiReduction_add_single v 0x00000000#32 reduces_S5000x128_S5000 hφ hacc (ix1 r)).trans ?_
  refine Finset.sum_congr rfl fun k _ => congrArg v ?_
  funext ax; apply Fin.ext
  match ax with
  | ⟨0, _⟩ => rfl
  | ⟨1, _⟩ => rfl

theorem pay0_at (x0 : Vec Ideal S5000x128 .f32) (x1 : Vec Ideal S5000x128 .bf16) (x2 x3 : Vec Ideal S128x128 .f32)
    (r : Fin 5000) (j : Fin 128) :
    k0_pay1 (F := Ideal) x0 x1 x2 x3 (ix2 r j)
      = Cert.Spec.post (fun k => (∑ d : Fin 128, x0 (ix2 r d) * x2 (ix2 d k)) + (∑ d : Fin 128, x1 (ix2 r d) * x3 (ix2 d k))) j := by
  unfold k0_pay1
  simp only [shapeCast_self]
  simp only [divf_apply, select_apply, cmpf_apply, mulf_apply, addf_apply, broadcast_apply, maximumf_apply, bcol_at, sqrt_at, col_at,
    rowsum_at, matmul_at, truncf_apply]
  rw [rowsum_at]
  simp only [select_apply, cmpf_apply, mulf_apply, addf_apply, broadcast_apply, matmul_at, truncf_apply]
  rfl

theorem hz : (![0, 0] : Fin 2 → Nat) = fun _ => 0 := funext fun a => by fin_cases a <;> rfl

theorem sageK_at (x nm : Cert.Spec.Mat 50000 128) (wa wb : Cert.Spec.Mat 128 128) (R : Fin 50000) (j : Fin 128) :
    Cert.Spec.sageK x nm wa wb (ix2 R j)
      = Cert.Spec.post (fun k => (∑ d : Fin 128, x (ix2 R d) * wa (ix2 d k)) + (∑ d : Fin 128, nm (ix2 R d) * wb (ix2 d k))) j := rfl

section Region0

variable (V : (c : Dev nD) → (b : Ref sig .tc) → Buf (Elt Ideal) ((c : Thread nD τ).loc b))

theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem blk0_0_at (c : Dev nD) (t : Fin cfg0.N) (r : Fin 5000) (d : Fin 128) (R : Fin 50000) (hR : R.val = t.val * 5000 + r.val) :
    iblk0 (F := Ideal) V c 0 t (ix2 r d) = V c main_arg0 (ix2 R d) := by
  obtain ⟨e0, e1, -⟩ := idx_facts0 t
  show V c main_arg0 (((cfg0.win 0).blk t).view.emb (ix2 r d)) = V c main_arg0 (ix2 R d)
  refine congrArg _ ?_
  funext a; apply Fin.ext
  match a with
  | ⟨0, _⟩ => show win0_0.index t (0 : Fin 2) * 5000 + 1 * r.val = R.val; omega
  | ⟨1, _⟩ => show win0_0.index t (1 : Fin 2) * 128 + 1 * d.val = d.val; omega

theorem blk0_1_at (c : Dev nD) (t : Fin cfg0.N) (r : Fin 5000) (d : Fin 128) (R : Fin 50000) (hR : R.val = t.val * 5000 + r.val) :
    iblk0 (F := Ideal) V c 1 t (ix2 r d) = V c main_v109 (ix2 R d) := by
  obtain ⟨-, -, e0, e1, -⟩ := idx_facts0 t
  show V c main_v109 (((cfg0.win 1).blk t).view.emb (ix2 r d)) = V c main_v109 (ix2 R d)
  refine congrArg _ ?_
  funext a; apply Fin.ext
  match a with
  | ⟨0, _⟩ => show win0_1.index t (0 : Fin 2) * 5000 + 1 * r.val = R.val; omega
  | ⟨1, _⟩ => show win0_1.index t (1 : Fin 2) * 128 + 1 * d.val = d.val; omega

theorem blk0_2_at (c : Dev nD) (t : Fin cfg0.N) (d k : Fin 128) :
    iblk0 (F := Ideal) V c 2 t (ix2 d k) = V c main_v0 (ix2 d k) := by
  obtain ⟨-, -, -, -, e0, e1, -⟩ := idx_facts0 t
  show V c main_v0 (((cfg0.win 2).blk t).view.emb (ix2 d k)) = V c main_v0 (ix2 d k)
  refine congrArg _ ?_
  funext a; apply Fin.ext
  match a with
  | ⟨0, _⟩ => show win0_2.index t (0 : Fin 2) * 128 + 1 * d.val = d.val; omega
  | ⟨1, _⟩ => show win0_2.index t (1 : Fin 2) * 128 + 1 * k.val = k.val; omega

theorem blk0_3_at (c : Dev nD) (t : Fin cfg0.N) (d k : Fin 128) :
    iblk0 (F := Ideal) V c 3 t (ix2 d k) = V c main_v1 (ix2 d k) := by
  obtain ⟨-, -, -, -, -, -, e0, e1, -⟩ := idx_facts0 t
  show V c main_v1 (((cfg0.win 3).blk t).view.emb (ix2 d k)) = V c main_v1 (ix2 d k)
  refine congrArg _ ?_
  funext a; apply Fin.ext
  match a with
  | ⟨0, _⟩ => show win0_3.index t (0 : Fin 2) * 128 + 1 * d.val = d.val; omega
  | ⟨1, _⟩ => show win0_3.index t (1 : Fin 2) * 128 + 1 * k.val = k.val; omega

theorem emb0_4 (t : Fin cfg0.N) (r : Fin 5000) (j : Fin 128) (R : Fin 50000) (hR : R.val = t.val * 5000 + r.val) :
    ((cfg0.win 4).blk t).view.emb (ix2 r j) = ix2 R j := by
  obtain ⟨-, -, -, -, -, -, -, -, e0, e1⟩ := idx_facts0 t
  funext a; apply Fin.ext
  match a with
  | ⟨0, _⟩ => show win0_4.index t (0 : Fin 2) * 5000 + 1 * r.val = R.val; omega
  | ⟨1, _⟩ => show win0_4.index t (1 : Fin 2) * 128 + 1 * j.val = j.val; omega

theorem flushed0_eq (c : Dev nD) (t : Fin cfg0.N) :
    (dat0 (F := Ideal) V c).flushed 4 t
      = ((cfg0.win 4).blk t).view.read (Elt Ideal) (Cert.Spec.sageK (V c main_arg0) (V c main_v109) (V c main_v0) (V c main_v1)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz]
  funext y
  obtain ⟨r, j, rfl⟩ : ∃ (r : Fin 5000) (j : Fin 128), y = ix2 r j := ⟨y 0, y 1, eq_ix2 y⟩
  have hN : grid0.N = 10 := N_0
  have ht : t.val < 10 := by have h : t.val < grid0.N := t.isLt; omega
  have hr : r.val < 5000 := r.isLt
  show k0_pay1 (F := Ideal) (iblk0 V c 0 t) (iblk0 V c 1 t) (iblk0 V c 2 t) (iblk0 V c 3 t) (ix2 r j)
    = Cert.Spec.sageK (V c main_arg0) (V c main_v109) (V c main_v0) (V c main_v1) (((cfg0.win 4).blk t).view.emb (ix2 r j))
  rw [emb0_4 t r j ⟨t.val * 5000 + r.val, by omega⟩ rfl, sageK_at,
    pay0_at (iblk0 V c 0 t) (iblk0 V c 1 t) (iblk0 V c 2 t) (iblk0 V c 3 t) r j]
  refine congrArg (fun p => Cert.Spec.post p j) (funext fun k => ?_)
  refine congrArg₂ (· + ·) (Finset.sum_congr rfl fun d _ => ?_) (Finset.sum_congr rfl fun d _ => ?_)
  · rw [blk0_0_at V c t r d ⟨t.val * 5000 + r.val, by omega⟩ rfl, blk0_2_at V c t d k]
  · rw [blk0_1_at V c t r d ⟨t.val * 5000 + r.val, by omega⟩ rfl, blk0_3_at V c t d k]

theorem mem_blk0 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v110).slice (win0_4.rect t)).set ↔ _
  rw [View.set_slice_whole, Rect.mem_set_unit]
  exact Iff.rfl

theorem cover0 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : grid0.N = 10 := N_0
  have hlt : (i 0).val / 5000 < grid0.N := by omega
  obtain ⟨-, -, -, -, -, -, -, -, e0, e1⟩ := idx_facts0 ⟨(i 0).val / 5000, hlt⟩
  refine ⟨⟨(i 0).val / 5000, hlt⟩, flush0_4 _, ?_⟩
  rw [mem_blk0]
  intro a
  match a with
  | ⟨0, _⟩ =>
    show win0_4.index ⟨(i 0).val / 5000, hlt⟩ (0 : Fin 2) * 5000 ≤ (i 0).val ∧ (i 0).val < win0_4.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, hlt⟩ (1 : Fin 2) * 128 ≤ (i 1).val ∧ (i 1).val < win0_4.index ⟨(i 0).val / 5000, hlt⟩ (1 : Fin 2) * 128 + 128
    rw [e1]; omega

theorem region0 (c : Dev nD) :
    (dat0 (F := Ideal) V c).arrAt 4 cfg0.N = Cert.Spec.sageK (V c main_arg0) (V c main_v109) (V c main_v0) (V c main_v1) :=
  (dat0 V c).arrAt_eq_of_cover 4 _ (fun t _ => flushed0_eq V c t) cover0

end Region0

end Cert.KernelIdeal.Sage

end
-- ==== Proof.KSage2.lean ====
import proofs.«404205_j84782654423298_2_alg».proof.Proof.Gen.KernelIdeal.Frame
import proofs.«404205_j84782654423298_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«404205_j84782654423298_2_alg».proof.Proof.KSage

noncomputable section

open scoped BigOperators

namespace Cert.KernelIdeal.Sage

open Cert.KernelIdeal Cert.KernelIdeal.Gen Idealize.ShloMosaic Idealize.ShloMosaic.TcCoe Idealize.ShloMosaic.ValueIdx Idealize.SL.Sem
open Idealize.ShloMosaic.Pipeline (Dat)

theorem pay2_at (x0 : Vec Ideal S5000x128 .f32) (x1 : Vec Ideal S5000x128 .bf16) (x2 x3 : Vec Ideal S128x128 .f32)
    (r : Fin 5000) (j : Fin 128) :
    k2_pay1 (F := Ideal) x0 x1 x2 x3 (ix2 r j)
      = Cert.Spec.post (fun k => (∑ d : Fin 128, x0 (ix2 r d) * x2 (ix2 d k)) + (∑ d : Fin 128, x1 (ix2 r d) * x3 (ix2 d k))) j := by
  unfold k2_pay1
  simp only [shapeCast_self]
  simp only [divf_apply, select_apply, cmpf_apply, mulf_apply, addf_apply, broadcast_apply, maximumf_apply, bcol_at, sqrt_at, col_at,
    rowsum_at, matmul_at, truncf_apply]
  rw [rowsum_at]
  simp only [select_apply, cmpf_apply, mulf_apply, addf_apply, broadcast_apply, matmul_at, truncf_apply]
  rfl

section Region2

variable (V : (c : Dev nD) → (b : Ref sig .tc) → Buf (Elt Ideal) ((c : Thread nD τ).loc b))

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem blk2_0_at (c : Dev nD) (t : Fin cfg2.N) (r : Fin 5000) (d : Fin 128) (R : Fin 50000) (hR : R.val = t.val * 5000 + r.val) :
    iblk2 (F := Ideal) V c 0 t (ix2 r d) = V c main_v111 (ix2 R d) := by
  obtain ⟨e0, e1, -⟩ := idx_facts2 t
  show V c main_v111 (((cfg2.win 0).blk t).view.emb (ix2 r d)) = V c main_v111 (ix2 R d)
  refine congrArg _ ?_
  funext a; apply Fin.ext
  match a with
  | ⟨0, _⟩ => show win2_0.index t (0 : Fin 2) * 5000 + 1 * r.val = R.val; omega
  | ⟨1, _⟩ => show win2_0.index t (1 : Fin 2) * 128 + 1 * d.val = d.val; omega

theorem blk2_1_at (c : Dev nD) (t : Fin cfg2.N) (r : Fin 5000) (d : Fin 128) (R : Fin 50000) (hR : R.val = t.val * 5000 + r.val) :
    iblk2 (F := Ideal) V c 1 t (ix2 r d) = V c main_v155 (ix2 R d) := by
  obtain ⟨-, -, e0, e1, -⟩ := idx_facts2 t
  show V c main_v155 (((cfg2.win 1).blk t).view.emb (ix2 r d)) = V c main_v155 (ix2 R d)
  refine congrArg _ ?_
  funext a; apply Fin.ext
  match a with
  | ⟨0, _⟩ => show win2_1.index t (0 : Fin 2) * 5000 + 1 * r.val = R.val; omega
  | ⟨1, _⟩ => show win2_1.index t (1 : Fin 2) * 128 + 1 * d.val = d.val; omega

theorem blk2_2_at (c : Dev nD) (t : Fin cfg2.N) (d k : Fin 128) :
    iblk2 (F := Ideal) V c 2 t (ix2 d k) = V c main_v2 (ix2 d k) := by
  obtain ⟨-, -, -, -, e0, e1, -⟩ := idx_facts2 t
  show V c main_v2 (((cfg2.win 2).blk t).view.emb (ix2 d k)) = V c main_v2 (ix2 d k)
  refine congrArg _ ?_
  funext a; apply Fin.ext
  match a with
  | ⟨0, _⟩ => show win2_2.index t (0 : Fin 2) * 128 + 1 * d.val = d.val; omega
  | ⟨1, _⟩ => show win2_2.index t (1 : Fin 2) * 128 + 1 * k.val = k.val; omega

theorem blk2_3_at (c : Dev nD) (t : Fin cfg2.N) (d k : Fin 128) :
    iblk2 (F := Ideal) V c 3 t (ix2 d k) = V c main_v3 (ix2 d k) := by
  obtain ⟨-, -, -, -, -, -, e0, e1, -⟩ := idx_facts2 t
  show V c main_v3 (((cfg2.win 3).blk t).view.emb (ix2 d k)) = V c main_v3 (ix2 d k)
  refine congrArg _ ?_
  funext a; apply Fin.ext
  match a with
  | ⟨0, _⟩ => show win2_3.index t (0 : Fin 2) * 128 + 1 * d.val = d.val; omega
  | ⟨1, _⟩ => show win2_3.index t (1 : Fin 2) * 128 + 1 * k.val = k.val; omega

theorem emb2_4 (t : Fin cfg2.N) (r : Fin 5000) (j : Fin 128) (R : Fin 50000) (hR : R.val = t.val * 5000 + r.val) :
    ((cfg2.win 4).blk t).view.emb (ix2 r j) = ix2 R j := by
  obtain ⟨-, -, -, -, -, -, -, -, e0, e1⟩ := idx_facts2 t
  funext a; apply Fin.ext
  match a with
  | ⟨0, _⟩ => show win2_4.index t (0 : Fin 2) * 5000 + 1 * r.val = R.val; omega
  | ⟨1, _⟩ => show win2_4.index t (1 : Fin 2) * 128 + 1 * j.val = j.val; omega

theorem flushed2_eq (c : Dev nD) (t : Fin cfg2.N) :
    (dat2 (F := Ideal) V c).flushed 4 t
      = ((cfg2.win 4).blk t).view.read (Elt Ideal) (Cert.Spec.sageK (V c main_v111) (V c main_v155) (V c main_v2) (V c main_v3)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz]
  funext y
  obtain ⟨r, j, rfl⟩ : ∃ (r : Fin 5000) (j : Fin 128), y = ix2 r j := ⟨y 0, y 1, eq_ix2 y⟩
  have hN : grid2.N = 10 := N_2
  have ht : t.val < 10 := by have h : t.val < grid2.N := t.isLt; omega
  have hr : r.val < 5000 := r.isLt
  show k2_pay1 (F := Ideal) (iblk2 V c 0 t) (iblk2 V c 1 t) (iblk2 V c 2 t) (iblk2 V c 3 t) (ix2 r j)
    = Cert.Spec.sageK (V c main_v111) (V c main_v155) (V c main_v2) (V c main_v3) (((cfg2.win 4).blk t).view.emb (ix2 r j))
  rw [emb2_4 t r j ⟨t.val * 5000 + r.val, by omega⟩ rfl, sageK_at,
    pay2_at (iblk2 V c 0 t) (iblk2 V c 1 t) (iblk2 V c 2 t) (iblk2 V c 3 t) r j]
  refine congrArg (fun p => Cert.Spec.post p j) (funext fun k => ?_)
  refine congrArg₂ (· + ·) (Finset.sum_congr rfl fun d _ => ?_) (Finset.sum_congr rfl fun d _ => ?_)
  · rw [blk2_0_at V c t r d ⟨t.val * 5000 + r.val, by omega⟩ rfl, blk2_2_at V c t d k]
  · rw [blk2_1_at V c t r d ⟨t.val * 5000 + r.val, by omega⟩ rfl, blk2_3_at V c t d k]

theorem mem_blk2 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v156).slice (win2_4.rect t)).set ↔ _
  rw [View.set_slice_whole, Rect.mem_set_unit]
  exact Iff.rfl

theorem cover2 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hN : grid2.N = 10 := N_2
  have hlt : (i 0).val / 5000 < grid2.N := by omega
  obtain ⟨-, -, -, -, -, -, -, -, e0, e1⟩ := idx_facts2 ⟨(i 0).val / 5000, hlt⟩
  refine ⟨⟨(i 0).val / 5000, hlt⟩, flush2_4 _, ?_⟩
  rw [mem_blk2]
  intro a
  match a with
  | ⟨0, _⟩ =>
    show win2_4.index ⟨(i 0).val / 5000, hlt⟩ (0 : Fin 2) * 5000 ≤ (i 0).val ∧ (i 0).val < win2_4.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_4.index ⟨(i 0).val / 5000, hlt⟩ (1 : Fin 2) * 128 ≤ (i 1).val ∧ (i 1).val < win2_4.index ⟨(i 0).val / 5000, hlt⟩ (1 : Fin 2) * 128 + 128
    rw [e1]; omega

theorem region2 (c : Dev nD) :
    (dat2 (F := Ideal) V c).arrAt 4 cfg2.N = Cert.Spec.sageK (V c main_v111) (V c main_v155) (V c main_v2) (V c main_v3) :=
  (dat2 V c).arrAt_eq_of_cover 4 _ (fun t _ => flushed2_eq V c t) cover2

end Region2

end Cert.KernelIdeal.Sage

end
-- ==== Proof.KTempMath.lean ====
import proofs.«404205_j84782654423298_2_alg».proof.Proof.Gen.KernelIdeal.Frame
import proofs.«404205_j84782654423298_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Temp

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)
open scoped BigOperators

theorem hz2 : (![0, 0] : Fin 2 → Nat) = fun _ => 0 := funext fun a => by fin_cases a <;> rfl

section Math
open Cert.Spec

variable {α : Type}

theorem cast_a_a1 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

theorem bcast_a1_ab {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem rowsum_apply (src : FVec Ideal S2000x128 .f32) (h : S2000x128.Reduces [1] S2000) (hφ : FKind.Formats .f32)
    (hacc : (0x00000000#32 : BitVec (FTy.bits .f32)) = FKind.add.neutral .f32 hφ) (r : Fin 2000) :
    multiReduction .add [1] S2000 src 0x00000000#32 h hφ hacc (ix1 r) = ∑ k : Fin 128, src (ix2 r k) := by
  refine (Ideal.multiReduction_add_single src 0x00000000#32 h hφ hacc (ix1 r)).trans ?_
  refine Finset.sum_congr rfl fun k _ => congrArg src ?_
  funext a; apply Fin.ext
  match a with
  | ⟨0, _⟩ => rfl
  | ⟨1, _⟩ => rfl

theorem mm_apply {φ₁ φ₂ : FTy} (A : FVec Ideal S2000x128 φ₁) (B : FVec Ideal S128x128 φ₂) (r : Fin 2000) (j : Fin 128) :
    matmul dot_S2000x128_S128x128_S2000x128_1_0_0_1_n_n none A B (constant S2000x128 .f32 0x00000000#32) (ix2 r j)
      = ∑ d : Fin 128, A (ix2 r d) * B (ix2 d j) := by
  show FloatOps.matmul _ none A B _ (ix2 r j) = _
  rw [Ideal.matmul_constant_zero_apply,
    ← Equiv.sum_comp (contrEquiv1 dot_S2000x128_S128x128_S2000x128_1_0_0_1_n_n 128 rfl rfl).symm]
  refine Finset.sum_congr rfl fun d _ => ?_
  have c2 := contrEquiv1_symm_val dot_S2000x128_S128x128_S2000x128_1_0_0_1_n_n 128 rfl rfl d
  have l2 : dot_S2000x128_S128x128_S2000x128_1_0_0_1_n_n.lhsIdx (ix2 r j) ((contrEquiv1 _ 128 rfl rfl).symm d) = ix2 r d := by
    funext ax; apply Fin.ext
    match ax with
    | ⟨0, _⟩ => simp [DotDims.lhsIdx, dot_S2000x128_S128x128_S2000x128_1_0_0_1_n_n]; rfl
    | ⟨1, _⟩ => simp [DotDims.lhsIdx, dot_S2000x128_S128x128_S2000x128_1_0_0_1_n_n]; exact c2
  have r2 : dot_S2000x128_S128x128_S2000x128_1_0_0_1_n_n.rhsIdx (ix2 r j) ((contrEquiv1 _ 128 rfl rfl).symm d) = ix2 d j := by
    funext ax; apply Fin.ext
    match ax with
    | ⟨0, _⟩ => simp [DotDims.rhsIdx, dot_S2000x128_S128x128_S2000x128_1_0_0_1_n_n]; exact c2
    | ⟨1, _⟩ => simp [DotDims.rhsIdx, dot_S2000x128_S128x128_S2000x128_1_0_0_1_n_n]; rfl
  rw [l2, r2]

end Math

section Payloads
open Cert.Spec

theorem pay1_eq {F : FTy → Type} [FloatOps F] (x0 : Vec F S2000x128 .f32) : k1_pay1 x0 = x0 := by
  unfold k1_pay1
  exact shapeCast_self _ _

theorem pay2_apply (v : FVec Ideal S2000x128 .f32) (r : Fin 2000) (j : Fin 128) :
    k1_pay2 v (ix2 r j)
      = Ideal.div (v (ix2 r j)) (max (Ideal.sqrt (∑ k : Fin 128, v (ix2 r k) * v (ix2 r k))) epsW) := by
  unfold k1_pay2
  refine congrArg (Ideal.div (v (ix2 r j))) ?_
  refine (bcast_a1_ab _ _ r j).trans ?_
  refine congrArg (fun z => max (Ideal.sqrt z) epsW) ?_
  refine (cast_a_a1 _ _ r 0).trans ?_
  exact rowsum_apply _ _ _ _ r

theorem pay3_apply (h : FVec Ideal S2000x128 .f32) (wh wta wtb : Vec Ideal S128x128 .f32)
    (H0 H1 H2 : Vec Ideal S1x2000x128 .f32) (r : Fin 2000) (j : Fin 128) :
    k1_pay3 h wh wta wtb H0 H1 H2 (ix2 r j)
      = lk ((∑ d : Fin 128, h (ix2 r d) * wta (ix2 d j))
          + ∑ d : Fin 128, Ideal.div (((zeroW + ∑ e : Fin 128, H0 (ix3 (0 : Fin 1) r e) * wh (ix2 e d))
              + ∑ e : Fin 128, H1 (ix3 (0 : Fin 1) r e) * wh (ix2 e d))
              + ∑ e : Fin 128, H2 (ix3 (0 : Fin 1) r e) * wh (ix2 e d)) w3 * wtb (ix2 d j)) := by
  unfold k1_pay3
  simp only [shapeCast_self, select_apply, cmpf_apply, mulf_apply, addf_apply, divf_apply, broadcast_apply, mm_apply,
    truncf_apply, shapeCast_1ab_ab_apply]
  rfl

end Payloads

section Points
open Cert.Spec

theorem ld_slice (x1 : Vec Ideal S3x2000x128 .f32) (p : Fin 3) (o : Nat) (ho : o = p.val)
    (inb : ∀ a, (![o, 0, 0] : Fin 3 → Nat) a + S1x2000x128.size a ≤ S3x2000x128.size a)
    (u : Fin 1) (r : Fin 2000) (e : Fin 128) :
    View.ld x1 (Rect.unit (s := S3x2000x128) ![o, 0, 0] S1x2000x128.size inb) (ix3 u r e) = x1 (ix3 p r e) := by
  subst ho
  show x1 _ = x1 _
  refine congrArg x1 ?_
  funext a; apply Fin.ext
  have hu : u.val = 0 := by omega
  match a with
  | ⟨0, _⟩ => show p.val + 1 * u.val = p.val; omega
  | ⟨1, _⟩ => show 0 + 1 * r.val = r.val; omega
  | ⟨2, _⟩ => show 0 + 1 * e.val = e.val; omega

theorem compute_point (h : Mat 50000 128) (H : Ten 3 20000 128) (Wh wta wtb : Mat 128 128)
    (x0 : Vec Ideal S2000x128 .f32) (x1 : Vec Ideal S3x2000x128 .f32) (x2 x3 x4 : Vec Ideal S128x128 .f32)
    (inb0 : ∀ a, (![0, 0, 0] : Fin 3 → Nat) a + S1x2000x128.size a ≤ S3x2000x128.size a)
    (inb1 : ∀ a, (![1, 0, 0] : Fin 3 → Nat) a + S1x2000x128.size a ≤ S3x2000x128.size a)
    (inb2 : ∀ a, (![2, 0, 0] : Fin 3 → Nat) a + S1x2000x128.size a ≤ S3x2000x128.size a)
    (n : Fin 50000) (hlt : n.val < 20000) (r : Fin 2000)
    (hx0 : ∀ d : Fin 128, x0 (ix2 r d) = h (ix2 n d))
    (hx1 : ∀ (p : Fin 3) (e : Fin 128), x1 (ix3 p r e) = H (ix3 p (⟨n.val, hlt⟩ : Fin 20000) e))
    (hx2 : x2 = Wh) (hx3 : x3 = wta) (hx4 : x4 = wtb) (j : Fin 128) :
    k1_pay2 (k1_pay3 (k1_pay1 x0) x2 x3 x4
        (View.ld x1 (Rect.unit (s := S3x2000x128) ![0, 0, 0] S1x2000x128.size inb0))
        (View.ld x1 (Rect.unit (s := S3x2000x128) ![1, 0, 0] S1x2000x128.size inb1))
        (View.ld x1 (Rect.unit (s := S3x2000x128) ![2, 0, 0] S1x2000x128.size inb2))) (ix2 r j)
      = tempK h H Wh wta wtb (ix2 n j) := by
  subst hx2 hx3 hx4
  have hR : tempK h H x2 x3 x4 (ix2 n j)
      = post (fun k => (∑ d : Fin 128, h (ix2 n d) * x3 (ix2 d k))
          + ∑ d : Fin 128, tfAt H x2 (⟨n.val, hlt⟩ : Fin 20000) d * x4 (ix2 d k)) j := by
    unfold tempK
    exact dif_pos hlt
  have hv : ∀ k : Fin 128, k1_pay3 (k1_pay1 x0) x2 x3 x4
        (View.ld x1 (Rect.unit (s := S3x2000x128) ![0, 0, 0] S1x2000x128.size inb0))
        (View.ld x1 (Rect.unit (s := S3x2000x128) ![1, 0, 0] S1x2000x128.size inb1))
        (View.ld x1 (Rect.unit (s := S3x2000x128) ![2, 0, 0] S1x2000x128.size inb2)) (ix2 r k)
      = lk ((∑ d : Fin 128, h (ix2 n d) * x3 (ix2 d k))
          + ∑ d : Fin 128, tfAt H x2 (⟨n.val, hlt⟩ : Fin 20000) d * x4 (ix2 d k)) := by
    intro k
    rw [pay3_apply, pay1_eq]
    unfold tfAt
    rw [show (zeroW : EReal) = 0 from Ideal.ofBits_zero_f32]
    simp only [ld_slice x1 0 0 rfl inb0, ld_slice x1 1 1 rfl inb1, ld_slice x1 2 2 rfl inb2, hx0, hx1, zero_add,
      Fin.sum_univ_three]
  rw [hR, pay2_apply]
  unfold Cert.Spec.post
  simp only [hv]

theorem copy_point (h : Mat 50000 128) (H : Ten 3 20000 128) (Wh wta wtb : Mat 128 128)
    (x0 : Vec Ideal S2000x128 .f32) (n : Fin 50000) (hge : ¬n.val < 20000) (r : Fin 2000) (j : Fin 128)
    (hx0 : x0 (ix2 r j) = h (ix2 n j)) :
    k1_pay1 x0 (ix2 r j) = tempK h H Wh wta wtb (ix2 n j) := by
  rw [pay1_eq, hx0]
  unfold tempK
  rw [dif_neg (show ¬((ix2 n j) 0).val < 20000 from hge)]

end Points

end Cert.KernelIdeal.Temp

end
-- ==== Proof.KTemp.lean ====
import proofs.«404205_j84782654423298_2_alg».proof.Proof.KTempMath

noncomputable section

namespace Cert.KernelIdeal.Temp

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)
open scoped BigOperators

section Region1

section Pieces1
variable {F : FTy → Type} [FloatOps F]

theorem out1_B (c : Dev nD) (i : grid1.Coords) (a1 : Memref sig .tc .vmem S2000x128 .f32) (h1 : a1.IsWhole) (a2 : Memref sig .tc .vmem S3x2000x128 .f32) (h2 : a2.IsWhole) (a3 : Memref sig .tc .vmem S128x128 .f32) (h3 : a3.IsWhole) (a4 : Memref sig .tc .vmem S128x128 .f32) (h4 : a4.IsWhole) (a5 : Memref sig .tc .vmem S128x128 .f32) (h5 : a5.IsWhole) (a6 : Memref sig .tc .vmem S2000x128 .f32) (h6 : a6.IsWhole) (hc0 : ¬cond1_0 i) (hc1 : cond1_1 i)
    (x0 : Vec F S2000x128 .f32) (x1 : Vec F S3x2000x128 .f32) (x2 : Vec F S128x128 .f32) (x3 : Vec F S128x128 .f32) (x4 : Vec F S128x128 .f32) :
    out1_B_5 c i a1 h1 a2 h2 a3 h3 a4 h4 a5 h5 a6 h6 hc0 hc1 x0 x1 x2 x3 x4 = k1_pay1 x0 := by
  unfold out1_B_5
  rw [View.read_writes_eq_canon _ _ _ (cover1_B_5 c i a1 h1 a2 h2 a3 h3 a4 h4 a5 h5 a6 h6 hc0 hc1 x0 x1 x2 x3 x4)]
  unfold kernelRun1_B
  dsimp only
  sl_unfold_words
  rw [View.canon_unit_zero hz2]
  simp only [View.readAt_eq_ld, h1.read_unread, View.ld_unit_zero (S := S2000x128) hz2]

theorem out1_A (c : Dev nD) (i : grid1.Coords) (a1 : Memref sig .tc .vmem S2000x128 .f32) (h1 : a1.IsWhole) (a2 : Memref sig .tc .vmem S3x2000x128 .f32) (h2 : a2.IsWhole) (a3 : Memref sig .tc .vmem S128x128 .f32) (h3 : a3.IsWhole) (a4 : Memref sig .tc .vmem S128x128 .f32) (h4 : a4.IsWhole) (a5 : Memref sig .tc .vmem S128x128 .f32) (h5 : a5.IsWhole) (a6 : Memref sig .tc .vmem S2000x128 .f32) (h6 : a6.IsWhole) (hc0 : cond1_0 i) (hc1 : ¬cond1_1 i)
    (x0 : Vec F S2000x128 .f32) (x1 : Vec F S3x2000x128 .f32) (x2 : Vec F S128x128 .f32) (x3 : Vec F S128x128 .f32) (x4 : Vec F S128x128 .f32) :
    out1_A_5 c i a1 h1 a2 h2 a3 h3 a4 h4 a5 h5 a6 h6 hc0 hc1 x0 x1 x2 x3 x4
      = k1_pay2 (k1_pay3 (k1_pay1 x0) x2 x3 x4
          (View.ld x1 (Rect.unit (s := S3x2000x128) ![0, 0, 0] S1x2000x128.size inb_S3x2000x128_S1x2000x128_0_0_0))
          (View.ld x1 (Rect.unit (s := S3x2000x128) ![1, 0, 0] S1x2000x128.size inb_S3x2000x128_S1x2000x128_1_0_0))
          (View.ld x1 (Rect.unit (s := S3x2000x128) ![2, 0, 0] S1x2000x128.size inb_S3x2000x128_S1x2000x128_2_0_0))) := by
  unfold out1_A_5
  rw [View.read_writes_eq_canon _ _ _ (cover1_A_5 c i a1 h1 a2 h2 a3 h3 a4 h4 a5 h5 a6 h6 hc0 hc1 x0 x1 x2 x3 x4)]
  unfold kernelRun1_A
  dsimp only
  sl_unfold_words
  rw [View.canon_unit_zero hz2]
  simp only [View.readAt_eq_ld, h1.read_unread, h2.read_unread, h3.read_unread, h4.read_unread, h5.read_unread,
    View.ld_unit_zero (S := S2000x128) hz2, View.ld_unit_zero (S := S128x128) hz2]

end Pieces1

variable (V : (c : Dev nD) → (b : Ref sig .tc) → Buf (Elt Ideal) ((c : Thread nD τ).loc b))

theorem idx_facts1 : ∀ t : Fin cfg1.N,
    win1_0.index t (0 : Fin 2) = t.val ∧ win1_0.index t (1 : Fin 2) = 0
    ∧ win1_1.index t (0 : Fin 3) = 0 ∧ win1_1.index t (1 : Fin 3) = min t.val 9 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem blk1_0 (c : Dev nD) (t : Fin cfg1.N) (r : Fin 2000) (d : Fin 128) (n : Fin 50000) (hn : n.val = t.val * 2000 + r.val) :
    iblk1 V c 0 t (ix2 r d) = V c main_v110 (ix2 n d) := by
  obtain ⟨e00, e01, -⟩ := idx_facts1 t
  show V c main_v110 (((cfg1.win 0).blk t).view.emb (ix2 r d)) = V c main_v110 (ix2 n d)
  refine congrArg (V c main_v110) ?_
  funext a; apply Fin.ext
  match a with
  | ⟨0, _⟩ => show win1_0.index t (0 : Fin 2) * 2000 + 1 * r.val = n.val; rw [e00]; omega
  | ⟨1, _⟩ => show win1_0.index t (1 : Fin 2) * 128 + 1 * d.val = d.val; rw [e01]; omega

theorem blk1_1 (c : Dev nD) (t : Fin cfg1.N) (ht : t.val < 10) (p : Fin 3) (r : Fin 2000) (e : Fin 128) (n : Fin 20000)
    (hn : n.val = t.val * 2000 + r.val) :
    iblk1 V c 1 t (ix3 p r e) = V c main_arg3 (ix3 p n e) := by
  obtain ⟨-, -, e10, e11, e12, -⟩ := idx_facts1 t
  show V c main_arg3 (((cfg1.win 1).blk t).view.emb (ix3 p r e)) = V c main_arg3 (ix3 p n e)
  refine congrArg (V c main_arg3) ?_
  funext a; apply Fin.ext
  match a with
  | ⟨0, _⟩ => show win1_1.index t (0 : Fin 3) * 3 + 1 * p.val = p.val; rw [e10]; omega
  | ⟨1, _⟩ => show win1_1.index t (1 : Fin 3) * 2000 + 1 * r.val = n.val; rw [e11]; omega
  | ⟨2, _⟩ => show win1_1.index t (2 : Fin 3) * 128 + 1 * e.val = e.val; rw [e12]; omega

theorem blk1_2 (c : Dev nD) (t : Fin cfg1.N) : (iblk1 V c 2 t : Vec Ideal S128x128 .f32) = V c main_arg7 := by
  obtain ⟨-, -, -, -, -, e0, e1, -⟩ := idx_facts1 t
  funext y
  show V c main_arg7 (((cfg1.win 2).blk t).view.emb y) = V c main_arg7 y
  refine congrArg (V c main_arg7) ?_
  funext a; apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega
theorem blk1_3 (c : Dev nD) (t : Fin cfg1.N) : (iblk1 V c 3 t : Vec Ideal S128x128 .f32) = V c main_v4 := by
  obtain ⟨-, -, -, -, -, -, -, e0, e1, -⟩ := idx_facts1 t
  funext y
  show V c main_v4 (((cfg1.win 3).blk t).view.emb y) = V c main_v4 y
  refine congrArg (V c main_v4) ?_
  funext a; apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega
theorem blk1_4 (c : Dev nD) (t : Fin cfg1.N) : (iblk1 V c 4 t : Vec Ideal S128x128 .f32) = V c main_v5 := by
  obtain ⟨-, -, -, -, -, -, -, -, -, e0, e1, -⟩ := idx_facts1 t
  funext y
  show V c main_v5 (((cfg1.win 4).blk t).view.emb y) = V c main_v5 y
  refine congrArg (V c main_v5) ?_
  funext a; apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

theorem flushed1_eq (c : Dev nD) (t : Fin cfg1.N) :
    (dat1 (F := Ideal) V c).flushed 5 t
      = ((cfg1.win 5).blk t).view.read (Elt Ideal)
          (Cert.Spec.tempK (V c main_v110) (V c main_arg3) (V c main_arg7) (V c main_v4) (V c main_v5)) := by
  show (cfg1.win 5).cut (grid1.coords t) ((dat1 V c).after 5 t) = _
  rw [after1_5]
  have hN : t.val < 25 := lt_of_lt_of_eq t.isLt (show cfg1.N = 25 from N_1)
  obtain ⟨-, -, -, -, -, -, -, -, -, -, -, e50, e51⟩ := idx_facts1 t
  funext y
  obtain ⟨r, j, rfl⟩ : ∃ (r : Fin 2000) (j : Fin 128), y = ix2 r j :=
    ⟨⟨(y 0).val, (y 0).isLt⟩, ⟨(y 1).val, (y 1).isLt⟩, by funext a; match a with | ⟨0, _⟩ => rfl | ⟨1, _⟩ => rfl⟩
  have hr : r.val < 2000 := r.isLt
  have hemb : ((cfg1.win 5).blk t).view.emb (ix2 r j) = ix2 (⟨t.val * 2000 + r.val, by omega⟩ : Fin 50000) j := by
    funext a; apply Fin.ext
    match a with
    | ⟨0, _⟩ => show win1_5.index t (0 : Fin 2) * 2000 + 1 * r.val = t.val * 2000 + r.val; rw [e50]; omega
    | ⟨1, _⟩ => show win1_5.index t (1 : Fin 2) * 128 + 1 * j.val = j.val; rw [e51]; omega
  show outsAt1 V c t.val t.isLt (ix2 r j) = Cert.Spec.tempK (V c main_v110) (V c main_arg3) (V c main_arg7) (V c main_v4) (V c main_v5) (((cfg1.win 5).blk t).view.emb (ix2 r j))
  rw [hemb]
  by_cases h0 : t.val < 10
  · have h1 : ¬10 ≤ t.val := by omega
    rw [outsAt1_A V c t h0 h1]
    rw [out1_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t) (iblk1 V c 3 t) (iblk1 V c 4 t)]
    exact compute_point (V c main_v110) (V c main_arg3) (V c main_arg7) (V c main_v4) (V c main_v5)
      (iblk1 V c 0 t) (iblk1 V c 1 t) (iblk1 V c 2 t) (iblk1 V c 3 t) (iblk1 V c 4 t)
      inb_S3x2000x128_S1x2000x128_0_0_0 inb_S3x2000x128_S1x2000x128_1_0_0 inb_S3x2000x128_S1x2000x128_2_0_0
      (⟨t.val * 2000 + r.val, by omega⟩ : Fin 50000) (by show t.val * 2000 + r.val < 20000; omega) r
      (fun d => blk1_0 V c t _ d _ rfl)
      (fun p e => blk1_1 V c t h0 p _ e _ rfl)
      (blk1_2 V c t) (blk1_3 V c t) (blk1_4 V c t) j
  · have h1 : 10 ≤ t.val := by omega
    rw [outsAt1_B V c t h0 h1]
    rw [out1_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (iblk1 V c 3 t) (iblk1 V c 4 t)]
    exact copy_point (V c main_v110) (V c main_arg3) (V c main_arg7) (V c main_v4) (V c main_v5) (iblk1 V c 0 t)
      (⟨t.val * 2000 + r.val, by omega⟩ : Fin 50000) (by show ¬t.val * 2000 + r.val < 20000; omega) r
      j (blk1_0 V c t _ _ _ rfl)

theorem mem_blk1 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v111).slice (win1_5.rect t)).set ↔ _
  rw [View.set_slice_whole, Rect.mem_set_unit]
  exact Iff.rfl

theorem region1 (c : Dev nD) :
    (dat1 (F := Ideal) V c).arrAt 5 cfg1.N
      = Cert.Spec.tempK (V c main_v110) (V c main_arg3) (V c main_arg7) (V c main_v4) (V c main_v5) :=
  (dat1 (F := Ideal) V c).arrAt_eq_of_cover 5 _ (fun t _ => flushed1_eq V c t) fun i => by
    have hi0 : (i 0).val < 50000 := (i 0).isLt
    have hi1 : (i 1).val < 128 := (i 1).isLt
    have hq : (i 0).val / 2000 < cfg1.N := by rw [show cfg1.N = 25 from N_1]; omega
    obtain ⟨-, -, -, -, -, -, -, -, -, -, -, e50, e51⟩ := idx_facts1 ⟨(i 0).val / 2000, hq⟩
    refine ⟨⟨(i 0).val / 2000, hq⟩, flush1_5 _, ?_⟩
    rw [mem_blk1]
    intro a
    match a with
    | ⟨0, _⟩ =>
      show win1_5.index ⟨(i 0).val / 2000, hq⟩ (0 : Fin 2) * 2000 ≤ (i 0).val
        ∧ (i 0).val < win1_5.index ⟨(i 0).val / 2000, hq⟩ (0 : Fin 2) * 2000 + 2000
      rw [e50]; dsimp only; omega
    | ⟨1, _⟩ =>
      show win1_5.index ⟨(i 0).val / 2000, hq⟩ (1 : Fin 2) * 128 ≤ (i 1).val
        ∧ (i 1).val < win1_5.index ⟨(i 0).val / 2000, hq⟩ (1 : Fin 2) * 128 + 128
      rw [e51]; omega

end Region1

end Cert.KernelIdeal.Temp

end
-- ==== Proof.KTemp3.lean ====
import proofs.«404205_j84782654423298_2_alg».proof.Proof.KTempMath

noncomputable section

namespace Cert.KernelIdeal.Temp

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)
open scoped BigOperators

section Region3

section Pieces3
variable {F : FTy → Type} [FloatOps F]

theorem out3_B (c : Dev nD) (i : grid3.Coords) (a1 : Memref sig .tc .vmem S2000x128 .f32) (h1 : a1.IsWhole) (a2 : Memref sig .tc .vmem S3x2000x128 .f32) (h2 : a2.IsWhole) (a3 : Memref sig .tc .vmem S128x128 .f32) (h3 : a3.IsWhole) (a4 : Memref sig .tc .vmem S128x128 .f32) (h4 : a4.IsWhole) (a5 : Memref sig .tc .vmem S128x128 .f32) (h5 : a5.IsWhole) (a6 : Memref sig .tc .vmem S2000x128 .f32) (h6 : a6.IsWhole) (hc0 : ¬cond3_0 i) (hc1 : cond3_1 i)
    (x0 : Vec F S2000x128 .f32) (x1 : Vec F S3x2000x128 .f32) (x2 : Vec F S128x128 .f32) (x3 : Vec F S128x128 .f32) (x4 : Vec F S128x128 .f32) :
    out3_B_5 c i a1 h1 a2 h2 a3 h3 a4 h4 a5 h5 a6 h6 hc0 hc1 x0 x1 x2 x3 x4 = k3_pay1 x0 := by
  unfold out3_B_5
  rw [View.read_writes_eq_canon _ _ _ (cover3_B_5 c i a1 h1 a2 h2 a3 h3 a4 h4 a5 h5 a6 h6 hc0 hc1 x0 x1 x2 x3 x4)]
  unfold kernelRun3_B
  dsimp only
  sl_unfold_words
  rw [View.canon_unit_zero hz2]
  simp only [View.readAt_eq_ld, h1.read_unread, View.ld_unit_zero (S := S2000x128) hz2]

theorem out3_A (c : Dev nD) (i : grid3.Coords) (a1 : Memref sig .tc .vmem S2000x128 .f32) (h1 : a1.IsWhole) (a2 : Memref sig .tc .vmem S3x2000x128 .f32) (h2 : a2.IsWhole) (a3 : Memref sig .tc .vmem S128x128 .f32) (h3 : a3.IsWhole) (a4 : Memref sig .tc .vmem S128x128 .f32) (h4 : a4.IsWhole) (a5 : Memref sig .tc .vmem S128x128 .f32) (h5 : a5.IsWhole) (a6 : Memref sig .tc .vmem S2000x128 .f32) (h6 : a6.IsWhole) (hc0 : cond3_0 i) (hc1 : ¬cond3_1 i)
    (x0 : Vec F S2000x128 .f32) (x1 : Vec F S3x2000x128 .f32) (x2 : Vec F S128x128 .f32) (x3 : Vec F S128x128 .f32) (x4 : Vec F S128x128 .f32) :
    out3_A_5 c i a1 h1 a2 h2 a3 h3 a4 h4 a5 h5 a6 h6 hc0 hc1 x0 x1 x2 x3 x4
      = k3_pay2 (k3_pay3 (k3_pay1 x0) x2 x3 x4
          (View.ld x1 (Rect.unit (s := S3x2000x128) ![0, 0, 0] S1x2000x128.size inb_S3x2000x128_S1x2000x128_0_0_0))
          (View.ld x1 (Rect.unit (s := S3x2000x128) ![1, 0, 0] S1x2000x128.size inb_S3x2000x128_S1x2000x128_1_0_0))
          (View.ld x1 (Rect.unit (s := S3x2000x128) ![2, 0, 0] S1x2000x128.size inb_S3x2000x128_S1x2000x128_2_0_0))) := by
  unfold out3_A_5
  rw [View.read_writes_eq_canon _ _ _ (cover3_A_5 c i a1 h1 a2 h2 a3 h3 a4 h4 a5 h5 a6 h6 hc0 hc1 x0 x1 x2 x3 x4)]
  unfold kernelRun3_A
  dsimp only
  sl_unfold_words
  rw [View.canon_unit_zero hz2]
  simp only [View.readAt_eq_ld, h1.read_unread, h2.read_unread, h3.read_unread, h4.read_unread, h5.read_unread,
    View.ld_unit_zero (S := S2000x128) hz2, View.ld_unit_zero (S := S128x128) hz2]

end Pieces3

variable (V : (c : Dev nD) → (b : Ref sig .tc) → Buf (Elt Ideal) ((c : Thread nD τ).loc b))

theorem idx_facts3 : ∀ t : Fin cfg3.N,
    win3_0.index t (0 : Fin 2) = t.val ∧ win3_0.index t (1 : Fin 2) = 0
    ∧ win3_1.index t (0 : Fin 3) = 0 ∧ win3_1.index t (1 : Fin 3) = min t.val 9 ∧ win3_1.index t (2 : Fin 3) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem blk3_0 (c : Dev nD) (t : Fin cfg3.N) (r : Fin 2000) (d : Fin 128) (n : Fin 50000) (hn : n.val = t.val * 2000 + r.val) :
    iblk3 V c 0 t (ix2 r d) = V c main_v156 (ix2 n d) := by
  obtain ⟨e00, e01, -⟩ := idx_facts3 t
  show V c main_v156 (((cfg3.win 0).blk t).view.emb (ix2 r d)) = V c main_v156 (ix2 n d)
  refine congrArg (V c main_v156) ?_
  funext a; apply Fin.ext
  match a with
  | ⟨0, _⟩ => show win3_0.index t (0 : Fin 2) * 2000 + 1 * r.val = n.val; rw [e00]; omega
  | ⟨1, _⟩ => show win3_0.index t (1 : Fin 2) * 128 + 1 * d.val = d.val; rw [e01]; omega

theorem blk3_1 (c : Dev nD) (t : Fin cfg3.N) (ht : t.val < 10) (p : Fin 3) (r : Fin 2000) (e : Fin 128) (n : Fin 20000)
    (hn : n.val = t.val * 2000 + r.val) :
    iblk3 V c 1 t (ix3 p r e) = V c main_arg4 (ix3 p n e) := by
  obtain ⟨-, -, e10, e11, e12, -⟩ := idx_facts3 t
  show V c main_arg4 (((cfg3.win 1).blk t).view.emb (ix3 p r e)) = V c main_arg4 (ix3 p n e)
  refine congrArg (V c main_arg4) ?_
  funext a; apply Fin.ext
  match a with
  | ⟨0, _⟩ => show win3_1.index t (0 : Fin 3) * 3 + 1 * p.val = p.val; rw [e10]; omega
  | ⟨1, _⟩ => show win3_1.index t (1 : Fin 3) * 2000 + 1 * r.val = n.val; rw [e11]; omega
  | ⟨2, _⟩ => show win3_1.index t (2 : Fin 3) * 128 + 1 * e.val = e.val; rw [e12]; omega

theorem blk3_2 (c : Dev nD) (t : Fin cfg3.N) : (iblk3 V c 2 t : Vec Ideal S128x128 .f32) = V c main_arg7 := by
  obtain ⟨-, -, -, -, -, e0, e1, -⟩ := idx_facts3 t
  funext y
  show V c main_arg7 (((cfg3.win 2).blk t).view.emb y) = V c main_arg7 y
  refine congrArg (V c main_arg7) ?_
  funext a; apply Fin.ext
  match a with
  | ⟨0, _⟩ => show win3_2.index t (0 : Fin 2) * 128 + 1 * (y 0).val = (y 0).val; rw [e0]; omega
  | ⟨1, _⟩ => show win3_2.index t (1 : Fin 2) * 128 + 1 * (y 1).val = (y 1).val; rw [e1]; omega
theorem blk3_3 (c : Dev nD) (t : Fin cfg3.N) : (iblk3 V c 3 t : Vec Ideal S128x128 .f32) = V c main_v4 := by
  obtain ⟨-, -, -, -, -, -, -, e0, e1, -⟩ := idx_facts3 t
  funext y
  show V c main_v4 (((cfg3.win 3).blk t).view.emb y) = V c main_v4 y
  refine congrArg (V c main_v4) ?_
  funext a; apply Fin.ext
  match a with
  | ⟨0, _⟩ => show win3_3.index t (0 : Fin 2) * 128 + 1 * (y 0).val = (y 0).val; rw [e0]; omega
  | ⟨1, _⟩ => show win3_3.index t (1 : Fin 2) * 128 + 1 * (y 1).val = (y 1).val; rw [e1]; omega
theorem blk3_4 (c : Dev nD) (t : Fin cfg3.N) : (iblk3 V c 4 t : Vec Ideal S128x128 .f32) = V c main_v5 := by
  obtain ⟨-, -, -, -, -, -, -, -, -, e0, e1, -⟩ := idx_facts3 t
  funext y
  show V c main_v5 (((cfg3.win 4).blk t).view.emb y) = V c main_v5 y
  refine congrArg (V c main_v5) ?_
  funext a; apply Fin.ext
  match a with
  | ⟨0, _⟩ => show win3_4.index t (0 : Fin 2) * 128 + 1 * (y 0).val = (y 0).val; rw [e0]; omega
  | ⟨1, _⟩ => show win3_4.index t (1 : Fin 2) * 128 + 1 * (y 1).val = (y 1).val; rw [e1]; omega

theorem flushed3_eq (c : Dev nD) (t : Fin cfg3.N) :
    (dat3 (F := Ideal) V c).flushed 5 t
      = ((cfg3.win 5).blk t).view.read (Elt Ideal)
          (Cert.Spec.tempK (V c main_v156) (V c main_arg4) (V c main_arg7) (V c main_v4) (V c main_v5)) := by
  show (cfg3.win 5).cut (grid3.coords t) ((dat3 V c).after 5 t) = _
  rw [after3_5]
  have hN : t.val < 25 := lt_of_lt_of_eq t.isLt (show cfg3.N = 25 from N_3)
  obtain ⟨-, -, -, -, -, -, -, -, -, -, -, e50, e51⟩ := idx_facts3 t
  funext y
  obtain ⟨r, j, rfl⟩ : ∃ (r : Fin 2000) (j : Fin 128), y = ix2 r j :=
    ⟨⟨(y 0).val, (y 0).isLt⟩, ⟨(y 1).val, (y 1).isLt⟩, by funext a; match a with | ⟨0, _⟩ => rfl | ⟨1, _⟩ => rfl⟩
  have hr : r.val < 2000 := r.isLt
  have hemb : ((cfg3.win 5).blk t).view.emb (ix2 r j) = ix2 (⟨t.val * 2000 + r.val, by omega⟩ : Fin 50000) j := by
    funext a; apply Fin.ext
    match a with
    | ⟨0, _⟩ => show win3_5.index t (0 : Fin 2) * 2000 + 1 * r.val = t.val * 2000 + r.val; rw [e50]; omega
    | ⟨1, _⟩ => show win3_5.index t (1 : Fin 2) * 128 + 1 * j.val = j.val; rw [e51]; omega
  show outsAt3 V c t.val t.isLt (ix2 r j) = Cert.Spec.tempK (V c main_v156) (V c main_arg4) (V c main_arg7) (V c main_v4) (V c main_v5) (((cfg3.win 5).blk t).view.emb (ix2 r j))
  rw [hemb]
  by_cases h0 : t.val < 10
  · have h1 : ¬10 ≤ t.val := by omega
    rw [outsAt3_A V c t h0 h1]
    rw [out3_A (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (fun h => h1 ((hcond3_1 t).mp h)) (iblk3 V c 0 t) (iblk3 V c 1 t) (iblk3 V c 2 t) (iblk3 V c 3 t) (iblk3 V c 4 t)]
    exact compute_point (V c main_v156) (V c main_arg4) (V c main_arg7) (V c main_v4) (V c main_v5)
      (iblk3 V c 0 t) (iblk3 V c 1 t) (iblk3 V c 2 t) (iblk3 V c 3 t) (iblk3 V c 4 t)
      inb_S3x2000x128_S1x2000x128_0_0_0 inb_S3x2000x128_S1x2000x128_1_0_0 inb_S3x2000x128_S1x2000x128_2_0_0
      (⟨t.val * 2000 + r.val, by omega⟩ : Fin 50000) (by show t.val * 2000 + r.val < 20000; omega) r
      (fun d => blk3_0 V c t _ d _ rfl)
      (fun p e => blk3_1 V c t h0 p _ e _ rfl)
      (blk3_2 V c t) (blk3_3 V c t) (blk3_4 V c t) j
  · have h1 : 10 ≤ t.val := by omega
    rw [outsAt3_B V c t h0 h1]
    rw [out3_B (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) ((hcond3_1 t).mpr h1) (iblk3 V c 0 t) (iblk3 V c 1 t) (iblk3 V c 2 t) (iblk3 V c 3 t) (iblk3 V c 4 t)]
    exact copy_point (V c main_v156) (V c main_arg4) (V c main_arg7) (V c main_v4) (V c main_v5) (iblk3 V c 0 t)
      (⟨t.val * 2000 + r.val, by omega⟩ : Fin 50000) (by show ¬t.val * 2000 + r.val < 20000; omega) r
      j (blk3_0 V c t _ _ _ rfl)

theorem mem_blk3 (t : Fin cfg3.N) (i : S50000x128.Idx) :
    i ∈ ((cfg3.win 5).blk t).view.set ↔ ∀ a : Fin 2, win3_5.index t a * S2000x128.size a ≤ (i a).val
      ∧ (i a).val < win3_5.index t a * S2000x128.size a + S2000x128.size a := by
  show i ∈ ((View.whole main_v157).slice (win3_5.rect t)).set ↔ _
  rw [View.set_slice_whole, Rect.mem_set_unit]
  exact Iff.rfl

theorem region3 (c : Dev nD) :
    (dat3 (F := Ideal) V c).arrAt 5 cfg3.N
      = Cert.Spec.tempK (V c main_v156) (V c main_arg4) (V c main_arg7) (V c main_v4) (V c main_v5) :=
  (dat3 (F := Ideal) V c).arrAt_eq_of_cover 5 _ (fun t _ => flushed3_eq V c t) fun i => by
    have hi0 : (i 0).val < 50000 := (i 0).isLt
    have hi1 : (i 1).val < 128 := (i 1).isLt
    have hq : (i 0).val / 2000 < cfg3.N := by rw [show cfg3.N = 25 from N_3]; omega
    obtain ⟨-, -, -, -, -, -, -, -, -, -, -, e50, e51⟩ := idx_facts3 ⟨(i 0).val / 2000, hq⟩
    refine ⟨⟨(i 0).val / 2000, hq⟩, flush3_5 _, ?_⟩
    rw [mem_blk3]
    intro a
    match a with
    | ⟨0, _⟩ =>
      show win3_5.index ⟨(i 0).val / 2000, hq⟩ (0 : Fin 2) * 2000 ≤ (i 0).val
        ∧ (i 0).val < win3_5.index ⟨(i 0).val / 2000, hq⟩ (0 : Fin 2) * 2000 + 2000
      rw [e50]; dsimp only; omega
    | ⟨1, _⟩ =>
      show win3_5.index ⟨(i 0).val / 2000, hq⟩ (1 : Fin 2) * 128 ≤ (i 1).val
        ∧ (i 1).val < win3_5.index ⟨(i 0).val / 2000, hq⟩ (1 : Fin 2) * 128 + 128
      rw [e51]; omega

end Region3

end Cert.KernelIdeal.Temp

end
-- ==== Proof.KValue.lean ====
import proofs.«404205_j84782654423298_2_alg».proof.Proof.Spec
import proofs.«404205_j84782654423298_2_alg».proof.Proof.KTerms
import proofs.«404205_j84782654423298_2_alg».proof.Proof.KMean
import proofs.«404205_j84782654423298_2_alg».proof.Proof.KSage
import proofs.«404205_j84782654423298_2_alg».proof.Proof.KSage2
import proofs.«404205_j84782654423298_2_alg».proof.Proof.KTemp
import proofs.«404205_j84782654423298_2_alg».proof.Proof.KTemp3
import proofs.«404205_j84782654423298_2_alg».proof.Proof.KFold

noncomputable section

namespace Cert.KernelIdeal.Results

open Cert.KernelIdeal Cert.KernelIdeal.Gen
open Idealize.ShloMosaic Idealize.ShloMosaic.TcCoe Idealize.SL.Sem Idealize.ShloMosaic.ValueIdx

theorem slice_lo (W : Vec Ideal S256x128 .f32) :
    extractStridedSlice S128x128 ![0, 0] W slices_S256x128_S128x128_0_0 = Cert.Spec.loW W := by
  funext i
  unfold extractStridedSlice Cert.Spec.loW
  congr 1
  funext a
  apply Fin.ext
  match a with
  | ⟨0, _⟩ => show 0 + (i 0).val = (i 0).val; omega
  | ⟨1, _⟩ => show 0 + (i 1).val = (i 1).val; omega

theorem slice_hi (W : Vec Ideal S256x128 .f32) :
    extractStridedSlice S128x128 ![128, 0] W slices_S256x128_S128x128_128_0 = Cert.Spec.hiW W := by
  funext i
  unfold extractStridedSlice Cert.Spec.hiW
  congr 1
  funext a
  apply Fin.ext
  match a with
  | ⟨0, _⟩ => show 128 + (i 0).val = 128 + (i 0).val; rfl
  | ⟨1, _⟩ => show 0 + (i 1).val = (i 1).val; omega

variable (m : (ℓ : Loc nD τ sig) → Buf (Elt Ideal) ℓ) (ρ : Dev nD → PrngReg)

theorem h1_arr (c : Dev nD)
    (hI1 : ∀ i, 0 ≤ (m ((c : Thread nD τ).loc main_arg1) i).toInt ∧ (m ((c : Thread nD τ).loc main_arg1) i).toInt < 50000) :
    (Gen.dat0 (Gen.V51 m ρ) c).arrAt 4 cfg0.N
      = Cert.Spec.resH1 (m ((c : Thread nD τ).loc main_arg0)) (m ((c : Thread nD τ).loc main_arg1)) (m ((c : Thread nD τ).loc main_arg5)) := by
  rw [Sage.region0, Fold.in0_x, Fold.in0_nm, Fold.in0_wa, Fold.in0_wb, Terms.meanK25_eq _ _ hI1, slice_lo, slice_hi]
  rfl

theorem c1_arr (c : Dev nD)
    (hI1 : ∀ i, 0 ≤ (m ((c : Thread nD τ).loc main_arg1) i).toInt ∧ (m ((c : Thread nD τ).loc main_arg1) i).toInt < 50000) :
    (Gen.dat1 (Gen.V52 m ρ) c).arrAt 5 cfg1.N
      = Cert.Spec.resC1 (m ((c : Thread nD τ).loc main_arg0)) (m ((c : Thread nD τ).loc main_arg1)) (m ((c : Thread nD τ).loc main_arg3))
          (m ((c : Thread nD τ).loc main_arg5)) (m ((c : Thread nD τ).loc main_arg7)) (m ((c : Thread nD τ).loc main_arg8)) := by
  rw [Temp.region1, Fold.in1_h, h1_arr m ρ c hI1, Fold.in1_hist, Fold.in1_whis, Fold.in1_wta, Fold.in1_wtb, slice_lo, slice_hi]
  rfl

theorem h2_arr (c : Dev nD)
    (hI1 : ∀ i, 0 ≤ (m ((c : Thread nD τ).loc main_arg1) i).toInt ∧ (m ((c : Thread nD τ).loc main_arg1) i).toInt < 50000)
    (hI2 : ∀ i, 0 ≤ (m ((c : Thread nD τ).loc main_arg2) i).toInt ∧ (m ((c : Thread nD τ).loc main_arg2) i).toInt < 50000) :
    (Gen.dat2 (Gen.V74 m ρ) c).arrAt 4 cfg2.N
      = Cert.Spec.resH2 (m ((c : Thread nD τ).loc main_arg0)) (m ((c : Thread nD τ).loc main_arg1)) (m ((c : Thread nD τ).loc main_arg2))
          (m ((c : Thread nD τ).loc main_arg3)) (m ((c : Thread nD τ).loc main_arg5)) (m ((c : Thread nD τ).loc main_arg6))
          (m ((c : Thread nD τ).loc main_arg7)) (m ((c : Thread nD τ).loc main_arg8)) := by
  rw [Sage.region2, Fold.in2_x, Fold.in2_nm, Fold.in2_wa, Fold.in2_wb, c1_arr m ρ c hI1, Terms.meanK10_eq _ _ hI2, slice_lo, slice_hi]
  rfl

theorem feat_arr (c : Dev nD)
    (hI1 : ∀ i, 0 ≤ (m ((c : Thread nD τ).loc main_arg1) i).toInt ∧ (m ((c : Thread nD τ).loc main_arg1) i).toInt < 50000)
    (hI2 : ∀ i, 0 ≤ (m ((c : Thread nD τ).loc main_arg2) i).toInt ∧ (m ((c : Thread nD τ).loc main_arg2) i).toInt < 50000) :
    (Gen.dat3 (Gen.V75 m ρ) c).arrAt 5 cfg3.N
      = Cert.Spec.resFeat (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [Temp.region3, Fold.in3_h, h2_arr m ρ c hI1 hI2, Fold.in3_hist, Fold.in3_whis, Fold.in3_wta, Fold.in3_wtb, slice_lo, slice_hi]
  rfl

end Cert.KernelIdeal.Results

end
-- ==== Proof.RDefs.lean ====
import proofs.«404205_j84782654423298_2_alg».proof.ReferenceIdeal

noncomputable section

namespace Cert.ReferenceIdeal.Terms

open Idealize.ShloMosaic Idealize.SL.Sem
open Cert.ReferenceIdeal Cert.ReferenceIdeal.Facts₀ Cert.ReferenceIdeal.Facts

variable {F : FTy → Type} [FloatOps F] [Facts]

def refMean25 (X : Vec F S50000x128 .f32) (I : IVec S50000x25 32) : Vec F S50000x128 .f32 :=
  let c : IVec S_ 32 := constantI S_ 32 0#32
  let v0 : IVec S50000x25 32 := broadcastInDim S50000x25 ![] bcast_S_S50000x25 c
  let v1 : IVec S50000x25 1 := cmpi .slt I v0
  let c_0 : IVec S_ 32 := constantI S_ 32 50000#32
  let v2 : IVec S50000x25 32 := broadcastInDim S50000x25 ![] bcast_S_S50000x25 c_0
  let v3 : IVec S50000x25 32 := addi I v2
  let v4 : IVec S50000x25 32 := select v1 v3 I
  let v5 : IVec S50000x25x1 32 := broadcastInDim S50000x25x1 ![0, 1] bcast_S50000x25_S50000x25x1_0_1 v4
  let v6 : Vec F S50000x25x128 .f32 := Host.gather gather_S50000x128_S50000x25x1_S50000x25x128_2_0_n_n_0_2_1128 X v5
  let cst : Vec F S_ .f32 := constant S_ .f32 0x00000000#32
  let v7 : Vec F S50000x128 .f32 := Host.reduceAdd v6 cst reducesTo_S50000x25x128_S50000x128_d1 h_S_
  let cst_1 : Vec F S_ .f32 := constant S_ .f32 0x41C80000#32
  let v8 : Vec F S50000x128 .f32 := broadcastInDim S50000x128 ![] bcast_S_S50000x128 cst_1
  Host.divf v7 v8

def refMean10 (X : Vec F S50000x128 .f32) (I : IVec S50000x10 32) : Vec F S50000x128 .f32 :=
  let c : IVec S_ 32 := constantI S_ 32 0#32
  let v0 : IVec S50000x10 32 := broadcastInDim S50000x10 ![] bcast_S_S50000x10 c
  let v1 : IVec S50000x10 1 := cmpi .slt I v0
  let c_0 : IVec S_ 32 := constantI S_ 32 50000#32
  let v2 : IVec S50000x10 32 := broadcastInDim S50000x10 ![] bcast_S_S50000x10 c_0
  let v3 : IVec S50000x10 32 := addi I v2
  let v4 : IVec S50000x10 32 := select v1 v3 I
  let v5 : IVec S50000x10x1 32 := broadcastInDim S50000x10x1 ![0, 1] bcast_S50000x10_S50000x10x1_0_1 v4
  let v6 : Vec F S50000x10x128 .f32 := Host.gather gather_S50000x128_S50000x10x1_S50000x10x128_2_0_n_n_0_2_1128 X v5
  let cst : Vec F S_ .f32 := constant S_ .f32 0x00000000#32
  let v7 : Vec F S50000x128 .f32 := Host.reduceAdd v6 cst reducesTo_S50000x10x128_S50000x128_d1 h_S_
  let cst_1 : Vec F S_ .f32 := constant S_ .f32 0x41200000#32
  let v8 : Vec F S50000x128 .f32 := broadcastInDim S50000x128 ![] bcast_S_S50000x128 cst_1
  Host.divf v7 v8

def refSage (x nm : Vec F S50000x128 .f32) (W : Vec F S256x128 .f32) : Vec F S50000x128 .f32 :=
  let v10 : Vec F S50000x256 .f32 :=
    concatenate S50000x256 1 [⟨S50000x128, x⟩, ⟨S50000x128, nm⟩] concatenates_S50000x128_S50000x128_S50000x256_d1
  let v11 : Vec F S50000x128 .f32 := Host.dotGeneral dot_S50000x256_S256x128_S50000x128_1_0_0_1_n_n none v10 W
  let cst_2 : Vec F S_ .f32 := constant S_ .f32 0x3E4CCCCD#32
  let lcst : Vec F S_ .f32 := constant S_ .f32 0x00000000#32
  let l0 : Vec F S50000x128 .f32 := broadcastInDim S50000x128 ![] bcast_S_S50000x128 lcst
  let l1 : IVec S50000x128 1 := cmpf .oge v11 l0
  let l2 : Vec F S_ .f32 := id cst_2
  let l3 : Vec F S50000x128 .f32 := broadcastInDim S50000x128 ![] bcast_S_S50000x128 l2
  let l4 : Vec F S50000x128 .f32 := mulf l3 v11
  let v12 : Vec F S50000x128 .f32 := select l1 v11 l4
  let v13 : Vec F S50000x128 .f32 := mulf v12 v12
  let cst_3 : Vec F S_ .f32 := constant S_ .f32 0x00000000#32
  let v14 : Vec F S50000 .f32 := Host.reduceAdd v13 cst_3 reducesTo_S50000x128_S50000_d1 h_S_
  let v15 : Vec F S50000x1 .f32 := broadcastInDim S50000x1 ![0] bcast_S50000_S50000x1_0 v14
  let v16 : Vec F S50000x1 .f32 := Host.sqrt v15
  let cst_4 : Vec F S_ .f32 := constant S_ .f32 0x2B8CBCCC#32
  let v17 : Vec F S50000x1 .f32 := broadcastInDim S50000x1 ![] bcast_S_S50000x1 cst_4
  let v18 : Vec F S50000x1 .f32 := maximumf v16 v17
  let v19 : Vec F S50000x128 .f32 := broadcastInDim S50000x128 ![0, 1] bcast_S50000x1_S50000x128_0_1 v18
  Host.divf v12 v19

def refTemp (h : Vec F S50000x128 .f32) (H : Vec F S3x20000x128 .f32) (Wh : Vec F S128x128 .f32)
    (WT : Vec F S256x128 .f32) : Vec F S50000x128 .f32 :=
  let v21 : Vec F S20000x128 .f32 := extractStridedSlice S20000x128 ![0, 0] h slices_S50000x128_S20000x128_0_0
  let cst_5 : Vec F S_ .f32 := constant S_ .f32 0x00000000#32
  let v22 : Vec F S20000x128 .f32 := Host.reduceAdd H cst_5 reducesTo_S3x20000x128_S20000x128_d0 h_S_
  let v23 : Vec F S20000x128 .f32 := Host.dotGeneral dot_S20000x128_S128x128_S20000x128_1_0_0_1_n_n none v22 Wh
  let cst_6 : Vec F S_ .f32 := constant S_ .f32 0x40400000#32
  let v24 : Vec F S20000x128 .f32 := broadcastInDim S20000x128 ![] bcast_S_S20000x128 cst_6
  let v25 : Vec F S20000x128 .f32 := Host.divf v23 v24
  let v26 : Vec F S20000x256 .f32 :=
    concatenate S20000x256 1 [⟨S20000x128, v21⟩, ⟨S20000x128, v25⟩] concatenates_S20000x128_S20000x128_S20000x256_d1
  let v27 : Vec F S20000x128 .f32 := Host.dotGeneral dot_S20000x256_S256x128_S20000x128_1_0_0_1_n_n none v26 WT
  let cst_7 : Vec F S_ .f32 := constant S_ .f32 0x3E4CCCCD#32
  let lcst : Vec F S_ .f32 := constant S_ .f32 0x00000000#32
  let l0 : Vec F S20000x128 .f32 := broadcastInDim S20000x128 ![] bcast_S_S20000x128 lcst
  let l1 : IVec S20000x128 1 := cmpf .oge v27 l0
  let l2 : Vec F S_ .f32 := id cst_7
  let l3 : Vec F S20000x128 .f32 := broadcastInDim S20000x128 ![] bcast_S_S20000x128 l2
  let l4 : Vec F S20000x128 .f32 := mulf l3 v27
  let v28 : Vec F S20000x128 .f32 := select l1 v27 l4
  let v29 : Vec F S20000x128 .f32 := mulf v28 v28
  let cst_8 : Vec F S_ .f32 := constant S_ .f32 0x00000000#32
  let v30 : Vec F S20000 .f32 := Host.reduceAdd v29 cst_8 reducesTo_S20000x128_S20000_d1 h_S_
  let v31 : Vec F S20000x1 .f32 := broadcastInDim S20000x1 ![0] bcast_S20000_S20000x1_0 v30
  let v32 : Vec F S20000x1 .f32 := Host.sqrt v31
  let cst_9 : Vec F S_ .f32 := constant S_ .f32 0x2B8CBCCC#32
  let v33 : Vec F S20000x1 .f32 := broadcastInDim S20000x1 ![] bcast_S_S20000x1 cst_9
  let v34 : Vec F S20000x1 .f32 := maximumf v32 v33
  let v35 : Vec F S20000x128 .f32 := broadcastInDim S20000x128 ![0, 1] bcast_S20000x1_S20000x128_0_1 v34
  let v36 : Vec F S20000x128 .f32 := Host.divf v28 v35
  let v37 : Vec F S30000x128 .f32 := extractStridedSlice S30000x128 ![20000, 0] h slices_S50000x128_S30000x128_20000_0
  concatenate S50000x128 0 [⟨S20000x128, v36⟩, ⟨S30000x128, v37⟩] concatenates_S20000x128_S30000x128_S50000x128_d0

end Cert.ReferenceIdeal.Terms

end
-- ==== Proof.RRun.lean ====
import proofs.«404205_j84782654423298_2_alg».proof.Proof.Gen.ReferenceIdeal
import Idealize.ShloMosaic.Lib.StableHlo.Run
import Idealize.ShloMosaic.PureOps.Ideal
import proofs.«404205_j84782654423298_2_alg».proof.Proof.RDefs

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

abbrev opsM1 : List (HloOp τ sig (Elt F)) :=
  [ StableHlo.nullary main_c (constantI S_ 32 0#32),
    StableHlo.unary main_c main_v0 (broadcastInDim S50000x25 ![] bcast_S_S50000x25),
    StableHlo.binary main_arg1 main_v0 main_v1 (cmpi .slt),
    StableHlo.nullary main_c_0 (constantI S_ 32 50000#32),
    StableHlo.unary main_c_0 main_v2 (broadcastInDim S50000x25 ![] bcast_S_S50000x25),
    StableHlo.binary main_arg1 main_v2 main_v3 (addi),
    StableHlo.ternary main_v1 main_v3 main_arg1 main_v4 (select),
    StableHlo.unary main_v4 main_v5 (broadcastInDim S50000x25x1 ![0, 1] bcast_S50000x25_S50000x25x1_0_1),
    StableHlo.binary main_arg0 main_v5 main_v6 ((fun x i => Host.gather gather_S50000x128_S50000x25x1_S50000x25x128_2_0_n_n_0_2_1128 x i)),
    StableHlo.nullary main_cst (constant S_ .f32 0x00000000#32),
    StableHlo.binary main_v6 main_cst main_v7 ((fun x v => Host.reduceAdd x v reducesTo_S50000x25x128_S50000x128_d1 h_S_)),
    StableHlo.nullary main_cst_1 (constant S_ .f32 0x41C80000#32),
    StableHlo.unary main_cst_1 main_v8 (broadcastInDim S50000x128 ![] bcast_S_S50000x128),
    StableHlo.binary main_v7 main_v8 main_v9 (Host.divf) ]

abbrev opsS1 : List (HloOp τ sig (Elt F)) :=
  [ StableHlo.binary main_arg0 main_v9 main_v10 ((fun a b => concatenate S50000x256 1 [⟨S50000x128, a⟩, ⟨S50000x128, b⟩] concatenates_S50000x128_S50000x128_S50000x256_d1)),
    StableHlo.binary main_v10 main_arg5 main_v11 ((fun l r => Host.dotGeneral dot_S50000x256_S256x128_S50000x128_1_0_0_1_n_n none l r)),
    StableHlo.nullary main_cst_2 (constant S_ .f32 0x3E4CCCCD#32),
    StableHlo.TRef.nullary main_call0.cst (constant S_ .f32 0x00000000#32),
    StableHlo.TRef.unary main_call0.cst main_call0.v0 (broadcastInDim S50000x128 ![] bcast_S_S50000x128),
    StableHlo.TRef.binary (.of main_v11 : StableHlo.TRef sig ⟨S50000x128, .f32⟩) main_call0.v0 main_call0.v1 (cmpf .oge),
    StableHlo.TRef.unary (.of main_cst_2 : StableHlo.TRef sig ⟨S_, .f32⟩) main_call0.v2 id,
    StableHlo.TRef.unary main_call0.v2 main_call0.v3 (broadcastInDim S50000x128 ![] bcast_S_S50000x128),
    StableHlo.TRef.binary main_call0.v3 (.of main_v11 : StableHlo.TRef sig ⟨S50000x128, .f32⟩) main_call0.v4 mulf,
    StableHlo.TRef.ternary main_call0.v1 (.of main_v11 : StableHlo.TRef sig ⟨S50000x128, .f32⟩) main_call0.v4 main_call0.call0.v0 select,
    StableHlo.binary main_v12 main_v12 main_v13 (mulf),
    StableHlo.nullary main_cst_3 (constant S_ .f32 0x00000000#32),
    StableHlo.binary main_v13 main_cst_3 main_v14 ((fun x v => Host.reduceAdd x v reducesTo_S50000x128_S50000_d1 h_S_)),
    StableHlo.unary main_v14 main_v15 (broadcastInDim S50000x1 ![0] bcast_S50000_S50000x1_0),
    StableHlo.unary main_v15 main_v16 (Host.sqrt),
    StableHlo.nullary main_cst_4 (constant S_ .f32 0x2B8CBCCC#32),
    StableHlo.unary main_cst_4 main_v17 (broadcastInDim S50000x1 ![] bcast_S_S50000x1),
    StableHlo.binary main_v16 main_v17 main_v18 (maximumf),
    StableHlo.unary main_v18 main_v19 (broadcastInDim S50000x128 ![0, 1] bcast_S50000x1_S50000x128_0_1),
    StableHlo.binary main_v12 main_v19 main_v20 (Host.divf) ]

abbrev opsT1 : List (HloOp τ sig (Elt F)) :=
  [ StableHlo.unary main_v20 main_v21 ((extractStridedSlice S20000x128 ![0, 0] · slices_S50000x128_S20000x128_0_0)),
    StableHlo.nullary main_cst_5 (constant S_ .f32 0x00000000#32),
    StableHlo.binary main_arg3 main_cst_5 main_v22 ((fun x v => Host.reduceAdd x v reducesTo_S3x20000x128_S20000x128_d0 h_S_)),
    StableHlo.binary main_v22 main_arg7 main_v23 ((fun l r => Host.dotGeneral dot_S20000x128_S128x128_S20000x128_1_0_0_1_n_n none l r)),
    StableHlo.nullary main_cst_6 (constant S_ .f32 0x40400000#32),
    StableHlo.unary main_cst_6 main_v24 (broadcastInDim S20000x128 ![] bcast_S_S20000x128),
    StableHlo.binary main_v23 main_v24 main_v25 (Host.divf),
    StableHlo.binary main_v21 main_v25 main_v26 ((fun a b => concatenate S20000x256 1 [⟨S20000x128, a⟩, ⟨S20000x128, b⟩] concatenates_S20000x128_S20000x128_S20000x256_d1)),
    StableHlo.binary main_v26 main_arg8 main_v27 ((fun l r => Host.dotGeneral dot_S20000x256_S256x128_S20000x128_1_0_0_1_n_n none l r)),
    StableHlo.nullary main_cst_7 (constant S_ .f32 0x3E4CCCCD#32),
    StableHlo.TRef.nullary main_call1.cst (constant S_ .f32 0x00000000#32),
    StableHlo.TRef.unary main_call1.cst main_call1.v0 (broadcastInDim S20000x128 ![] bcast_S_S20000x128),
    StableHlo.TRef.binary (.of main_v27 : StableHlo.TRef sig ⟨S20000x128, .f32⟩) main_call1.v0 main_call1.v1 (cmpf .oge),
    StableHlo.TRef.unary (.of main_cst_7 : StableHlo.TRef sig ⟨S_, .f32⟩) main_call1.v2 id,
    StableHlo.TRef.unary main_call1.v2 main_call1.v3 (broadcastInDim S20000x128 ![] bcast_S_S20000x128),
    StableHlo.TRef.binary main_call1.v3 (.of main_v27 : StableHlo.TRef sig ⟨S20000x128, .f32⟩) main_call1.v4 mulf,
    StableHlo.TRef.ternary main_call1.v1 (.of main_v27 : StableHlo.TRef sig ⟨S20000x128, .f32⟩) main_call1.v4 main_call1.call0.v0 select,
    StableHlo.binary main_v28 main_v28 main_v29 (mulf),
    StableHlo.nullary main_cst_8 (constant S_ .f32 0x00000000#32),
    StableHlo.binary main_v29 main_cst_8 main_v30 ((fun x v => Host.reduceAdd x v reducesTo_S20000x128_S20000_d1 h_S_)),
    StableHlo.unary main_v30 main_v31 (broadcastInDim S20000x1 ![0] bcast_S20000_S20000x1_0),
    StableHlo.unary main_v31 main_v32 (Host.sqrt),
    StableHlo.nullary main_cst_9 (constant S_ .f32 0x2B8CBCCC#32),
    StableHlo.unary main_cst_9 main_v33 (broadcastInDim S20000x1 ![] bcast_S_S20000x1),
    StableHlo.binary main_v32 main_v33 main_v34 (maximumf),
    StableHlo.unary main_v34 main_v35 (broadcastInDim S20000x128 ![0, 1] bcast_S20000x1_S20000x128_0_1),
    StableHlo.binary main_v28 main_v35 main_v36 (Host.divf),
    StableHlo.unary main_v20 main_v37 ((extractStridedSlice S30000x128 ![20000, 0] · slices_S50000x128_S30000x128_20000_0)),
    StableHlo.binary main_v36 main_v37 main_v38 ((fun a b => concatenate S50000x128 0 [⟨S20000x128, a⟩, ⟨S30000x128, b⟩] concatenates_S20000x128_S30000x128_S50000x128_d0)) ]

abbrev opsM2 : List (HloOp τ sig (Elt F)) :=
  [ StableHlo.nullary main_c_10 (constantI S_ 32 0#32),
    StableHlo.unary main_c_10 main_v39 (broadcastInDim S50000x10 ![] bcast_S_S50000x10),
    StableHlo.binary main_arg2 main_v39 main_v40 (cmpi .slt),
    StableHlo.nullary main_c_11 (constantI S_ 32 50000#32),
    StableHlo.unary main_c_11 main_v41 (broadcastInDim S50000x10 ![] bcast_S_S50000x10),
    StableHlo.binary main_arg2 main_v41 main_v42 (addi),
    StableHlo.ternary main_v40 main_v42 main_arg2 main_v43 (select),
    StableHlo.unary main_v43 main_v44 (broadcastInDim S50000x10x1 ![0, 1] bcast_S50000x10_S50000x10x1_0_1),
    StableHlo.binary main_v38 main_v44 main_v45 ((fun x i => Host.gather gather_S50000x128_S50000x10x1_S50000x10x128_2_0_n_n_0_2_1128 x i)),
    StableHlo.nullary main_cst_12 (constant S_ .f32 0x00000000#32),
    StableHlo.binary main_v45 main_cst_12 main_v46 ((fun x v => Host.reduceAdd x v reducesTo_S50000x10x128_S50000x128_d1 h_S_)),
    StableHlo.nullary main_cst_13 (constant S_ .f32 0x41200000#32),
    StableHlo.unary main_cst_13 main_v47 (broadcastInDim S50000x128 ![] bcast_S_S50000x128),
    StableHlo.binary main_v46 main_v47 main_v48 (Host.divf) ]

abbrev opsS2 : List (HloOp τ sig (Elt F)) :=
  [ StableHlo.binary main_v38 main_v48 main_v49 ((fun a b => concatenate S50000x256 1 [⟨S50000x128, a⟩, ⟨S50000x128, b⟩] concatenates_S50000x128_S50000x128_S50000x256_d1)),
    StableHlo.binary main_v49 main_arg6 main_v50 ((fun l r => Host.dotGeneral dot_S50000x256_S256x128_S50000x128_1_0_0_1_n_n none l r)),
    StableHlo.nullary main_cst_14 (constant S_ .f32 0x3E4CCCCD#32),
    StableHlo.TRef.nullary main_call2.cst (constant S_ .f32 0x00000000#32),
    StableHlo.TRef.unary main_call2.cst main_call2.v0 (broadcastInDim S50000x128 ![] bcast_S_S50000x128),
    StableHlo.TRef.binary (.of main_v50 : StableHlo.TRef sig ⟨S50000x128, .f32⟩) main_call2.v0 main_call2.v1 (cmpf .oge),
    StableHlo.TRef.unary (.of main_cst_14 : StableHlo.TRef sig ⟨S_, .f32⟩) main_call2.v2 id,
    StableHlo.TRef.unary main_call2.v2 main_call2.v3 (broadcastInDim S50000x128 ![] bcast_S_S50000x128),
    StableHlo.TRef.binary main_call2.v3 (.of main_v50 : StableHlo.TRef sig ⟨S50000x128, .f32⟩) main_call2.v4 mulf,
    StableHlo.TRef.ternary main_call2.v1 (.of main_v50 : StableHlo.TRef sig ⟨S50000x128, .f32⟩) main_call2.v4 main_call2.call0.v0 select,
    StableHlo.binary main_v51 main_v51 main_v52 (mulf),
    StableHlo.nullary main_cst_15 (constant S_ .f32 0x00000000#32),
    StableHlo.binary main_v52 main_cst_15 main_v53 ((fun x v => Host.reduceAdd x v reducesTo_S50000x128_S50000_d1 h_S_)),
    StableHlo.unary main_v53 main_v54 (broadcastInDim S50000x1 ![0] bcast_S50000_S50000x1_0),
    StableHlo.unary main_v54 main_v55 (Host.sqrt),
    StableHlo.nullary main_cst_16 (constant S_ .f32 0x2B8CBCCC#32),
    StableHlo.unary main_cst_16 main_v56 (broadcastInDim S50000x1 ![] bcast_S_S50000x1),
    StableHlo.binary main_v55 main_v56 main_v57 (maximumf),
    StableHlo.unary main_v57 main_v58 (broadcastInDim S50000x128 ![0, 1] bcast_S50000x1_S50000x128_0_1),
    StableHlo.binary main_v51 main_v58 main_v59 (Host.divf) ]

abbrev opsT2 : List (HloOp τ sig (Elt F)) :=
  [ StableHlo.unary main_v59 main_v60 ((extractStridedSlice S20000x128 ![0, 0] · slices_S50000x128_S20000x128_0_0)),
    StableHlo.nullary main_cst_17 (constant S_ .f32 0x00000000#32),
    StableHlo.binary main_arg4 main_cst_17 main_v61 ((fun x v => Host.reduceAdd x v reducesTo_S3x20000x128_S20000x128_d0 h_S_)),
    StableHlo.binary main_v61 main_arg7 main_v62 ((fun l r => Host.dotGeneral dot_S20000x128_S128x128_S20000x128_1_0_0_1_n_n none l r)),
    StableHlo.nullary main_cst_18 (constant S_ .f32 0x40400000#32),
    StableHlo.unary main_cst_18 main_v63 (broadcastInDim S20000x128 ![] bcast_S_S20000x128),
    StableHlo.binary main_v62 main_v63 main_v64 (Host.divf),
    StableHlo.binary main_v60 main_v64 main_v65 ((fun a b => concatenate S20000x256 1 [⟨S20000x128, a⟩, ⟨S20000x128, b⟩] concatenates_S20000x128_S20000x128_S20000x256_d1)),
    StableHlo.binary main_v65 main_arg8 main_v66 ((fun l r => Host.dotGeneral dot_S20000x256_S256x128_S20000x128_1_0_0_1_n_n none l r)),
    StableHlo.nullary main_cst_19 (constant S_ .f32 0x3E4CCCCD#32),
    StableHlo.TRef.nullary main_call3.cst (constant S_ .f32 0x00000000#32),
    StableHlo.TRef.unary main_call3.cst main_call3.v0 (broadcastInDim S20000x128 ![] bcast_S_S20000x128),
    StableHlo.TRef.binary (.of main_v66 : StableHlo.TRef sig ⟨S20000x128, .f32⟩) main_call3.v0 main_call3.v1 (cmpf .oge),
    StableHlo.TRef.unary (.of main_cst_19 : StableHlo.TRef sig ⟨S_, .f32⟩) main_call3.v2 id,
    StableHlo.TRef.unary main_call3.v2 main_call3.v3 (broadcastInDim S20000x128 ![] bcast_S_S20000x128),
    StableHlo.TRef.binary main_call3.v3 (.of main_v66 : StableHlo.TRef sig ⟨S20000x128, .f32⟩) main_call3.v4 mulf,
    StableHlo.TRef.ternary main_call3.v1 (.of main_v66 : StableHlo.TRef sig ⟨S20000x128, .f32⟩) main_call3.v4 main_call3.call0.v0 select,
    StableHlo.binary main_v67 main_v67 main_v68 (mulf),
    StableHlo.nullary main_cst_20 (constant S_ .f32 0x00000000#32),
    StableHlo.binary main_v68 main_cst_20 main_v69 ((fun x v => Host.reduceAdd x v reducesTo_S20000x128_S20000_d1 h_S_)),
    StableHlo.unary main_v69 main_v70 (broadcastInDim S20000x1 ![0] bcast_S20000_S20000x1_0),
    StableHlo.unary main_v70 main_v71 (Host.sqrt),
    StableHlo.nullary main_cst_21 (constant S_ .f32 0x2B8CBCCC#32),
    StableHlo.unary main_cst_21 main_v72 (broadcastInDim S20000x1 ![] bcast_S_S20000x1),
    StableHlo.binary main_v71 main_v72 main_v73 (maximumf),
    StableHlo.unary main_v73 main_v74 (broadcastInDim S20000x128 ![0, 1] bcast_S20000x1_S20000x128_0_1),
    StableHlo.binary main_v67 main_v74 main_v75 (Host.divf),
    StableHlo.unary main_v59 main_v76 ((extractStridedSlice S30000x128 ![20000, 0] · slices_S50000x128_S30000x128_20000_0)),
    StableHlo.binary main_v75 main_v76 main_v77 ((fun a b => concatenate S50000x128 0 [⟨S20000x128, a⟩, ⟨S30000x128, b⟩] concatenates_S20000x128_S30000x128_S50000x128_d0)) ]

abbrev ops : List (HloOp τ sig (Elt F)) := opsM1 ++ (opsS1 ++ (opsT1 ++ (opsM2 ++ (opsS2 ++ opsT2))))

theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

theorem main_eq (c : Dev nD) : main (F := F) c = seq ops := by
  simp only [main, main_part0, main_part1, fn_leaky_relu.body, fn_leaky_relu_0.body, fn_where.body, fn_where_1.body,
    List.cons_append, List.nil_append, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [List.forall_append, List.Forall, nullary_bufs_sub, unary_bufs_sub, binary_bufs_sub, ternary_bufs_sub, and_self]

theorem afterM1 (V : Valuation τ sig (Elt F)) :
    after opsM1 V (no_index (Proc.devRef .tc main_v9)) = Terms.refMean25 (V (Proc.devRef .tc main_arg0)) (V (Proc.devRef .tc main_arg1)) := by
  after_results_simp
  rfl

theorem afterS1 (V : Valuation τ sig (Elt F)) :
    after opsS1 V (no_index (Proc.devRef .tc main_v20)) = Terms.refSage (V (Proc.devRef .tc main_arg0)) (V (Proc.devRef .tc main_v9)) (V (Proc.devRef .tc main_arg5)) := by
  after_results_simp
  rfl

theorem afterT1 (V : Valuation τ sig (Elt F)) :
    after opsT1 V (no_index (Proc.devRef .tc main_v38))
      = Terms.refTemp (V (Proc.devRef .tc main_v20)) (V (Proc.devRef .tc main_arg3)) (V (Proc.devRef .tc main_arg7)) (V (Proc.devRef .tc main_arg8)) := by
  after_results_simp
  rfl

theorem afterM2 (V : Valuation τ sig (Elt F)) :
    after opsM2 V (no_index (Proc.devRef .tc main_v48)) = Terms.refMean10 (V (Proc.devRef .tc main_v38)) (V (Proc.devRef .tc main_arg2)) := by
  after_results_simp
  rfl

theorem afterS2 (V : Valuation τ sig (Elt F)) :
    after opsS2 V (no_index (Proc.devRef .tc main_v59)) = Terms.refSage (V (Proc.devRef .tc main_v38)) (V (Proc.devRef .tc main_v48)) (V (Proc.devRef .tc main_arg6)) := by
  after_results_simp
  rfl

theorem afterT2 (V : Valuation τ sig (Elt F)) :
    after opsT2 V (no_index (Proc.devRef .tc main_v77))
      = Terms.refTemp (V (Proc.devRef .tc main_v59)) (V (Proc.devRef .tc main_arg4)) (V (Proc.devRef .tc main_arg7)) (V (Proc.devRef .tc main_arg8)) := by
  after_results_simp
  rfl

local macro "walk" : tactic => `(tactic| simp (disch := decide) only [after_append, after_of_forall_not_mem,
  afterM1, afterS1, afterT1, afterM2, afterS2, afterT2])

theorem res_v20 (V : Valuation τ sig (Elt Ideal)) : after ops V (Proc.devRef .tc main_v20) = (Terms.refSage (V (Proc.devRef .tc main_arg0)) (Terms.refMean25 (V (Proc.devRef .tc main_arg0)) (V (Proc.devRef .tc main_arg1))) (V (Proc.devRef .tc main_arg5))) := by walk

theorem res_v59 (V : Valuation τ sig (Elt Ideal)) : after ops V (Proc.devRef .tc main_v59) = (Terms.refSage (Terms.refTemp (Terms.refSage (V (Proc.devRef .tc main_arg0)) (Terms.refMean25 (V (Proc.devRef .tc main_arg0)) (V (Proc.devRef .tc main_arg1))) (V (Proc.devRef .tc main_arg5))) (V (Proc.devRef .tc main_arg3)) (V (Proc.devRef .tc main_arg7)) (V (Proc.devRef .tc main_arg8))) (Terms.refMean10 (Terms.refTemp (Terms.refSage (V (Proc.devRef .tc main_arg0)) (Terms.refMean25 (V (Proc.devRef .tc main_arg0)) (V (Proc.devRef .tc main_arg1))) (V (Proc.devRef .tc main_arg5))) (V (Proc.devRef .tc main_arg3)) (V (Proc.devRef .tc main_arg7)) (V (Proc.devRef .tc main_arg8))) (V (Proc.devRef .tc main_arg2))) (V (Proc.devRef .tc main_arg6))) := by walk

theorem res_v77 (V : Valuation τ sig (Elt Ideal)) : after ops V (Proc.devRef .tc main_v77) = (Terms.refTemp (Terms.refSage (Terms.refTemp (Terms.refSage (V (Proc.devRef .tc main_arg0)) (Terms.refMean25 (V (Proc.devRef .tc main_arg0)) (V (Proc.devRef .tc main_arg1))) (V (Proc.devRef .tc main_arg5))) (V (Proc.devRef .tc main_arg3)) (V (Proc.devRef .tc main_arg7)) (V (Proc.devRef .tc main_arg8))) (Terms.refMean10 (Terms.refTemp (Terms.refSage (V (Proc.devRef .tc main_arg0)) (Terms.refMean25 (V (Proc.devRef .tc main_arg0)) (V (Proc.devRef .tc main_arg1))) (V (Proc.devRef .tc main_arg5))) (V (Proc.devRef .tc main_arg3)) (V (Proc.devRef .tc main_arg7)) (V (Proc.devRef .tc main_arg8))) (V (Proc.devRef .tc main_arg2))) (V (Proc.devRef .tc main_arg6))) (V (Proc.devRef .tc main_arg4)) (V (Proc.devRef .tc main_arg7)) (V (Proc.devRef .tc main_arg8))) := by walk

theorem args_kept : ∀ r ∈ [main_arg0, main_arg1, main_arg2, main_arg3, main_arg4, main_arg5, main_arg6, main_arg7, main_arg8], ∀ op ∈ (ops : List (HloOp τ sig (Elt Ideal))),
    (Proc.devRef .tc r : DevRef τ sig) ∉ op.writes := by decide

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = Terms.refSage (m ((c.tc : Thread nD τ).loc main_arg0)) (Terms.refMean25 (m ((c.tc : Thread nD τ).loc main_arg0)) (m ((c.tc : Thread nD τ).loc main_arg1))) (m ((c.tc : Thread nD τ).loc main_arg5))
      ∧ r.2.mem ((c.tc : Thread nD τ).loc main_v59) = Terms.refSage (Terms.refTemp (Terms.refSage (m ((c.tc : Thread nD τ).loc main_arg0)) (Terms.refMean25 (m ((c.tc : Thread nD τ).loc main_arg0)) (m ((c.tc : Thread nD τ).loc main_arg1))) (m ((c.tc : Thread nD τ).loc main_arg5))) (m ((c.tc : Thread nD τ).loc main_arg3)) (m ((c.tc : Thread nD τ).loc main_arg7)) (m ((c.tc : Thread nD τ).loc main_arg8))) (Terms.refMean10 (Terms.refTemp (Terms.refSage (m ((c.tc : Thread nD τ).loc main_arg0)) (Terms.refMean25 (m ((c.tc : Thread nD τ).loc main_arg0)) (m ((c.tc : Thread nD τ).loc main_arg1))) (m ((c.tc : Thread nD τ).loc main_arg5))) (m ((c.tc : Thread nD τ).loc main_arg3)) (m ((c.tc : Thread nD τ).loc main_arg7)) (m ((c.tc : Thread nD τ).loc main_arg8))) (m ((c.tc : Thread nD τ).loc main_arg2))) (m ((c.tc : Thread nD τ).loc main_arg6))
      ∧ r.2.mem ((c.tc : Thread nD τ).loc main_v77) = Terms.refTemp (Terms.refSage (Terms.refTemp (Terms.refSage (m ((c.tc : Thread nD τ).loc main_arg0)) (Terms.refMean25 (m ((c.tc : Thread nD τ).loc main_arg0)) (m ((c.tc : Thread nD τ).loc main_arg1))) (m ((c.tc : Thread nD τ).loc main_arg5))) (m ((c.tc : Thread nD τ).loc main_arg3)) (m ((c.tc : Thread nD τ).loc main_arg7)) (m ((c.tc : Thread nD τ).loc main_arg8))) (Terms.refMean10 (Terms.refTemp (Terms.refSage (m ((c.tc : Thread nD τ).loc main_arg0)) (Terms.refMean25 (m ((c.tc : Thread nD τ).loc main_arg0)) (m ((c.tc : Thread nD τ).loc main_arg1))) (m ((c.tc : Thread nD τ).loc main_arg5))) (m ((c.tc : Thread nD τ).loc main_arg3)) (m ((c.tc : Thread nD τ).loc main_arg7)) (m ((c.tc : Thread nD τ).loc main_arg8))) (m ((c.tc : Thread nD τ).loc main_arg2))) (m ((c.tc : Thread nD τ).loc main_arg6))) (m ((c.tc : Thread nD τ).loc main_arg4)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v20).trans (res_v20 (launchContents m c)),
      (h c main_v59).trans (res_v59 (launchContents m c)),
      (h c main_v77).trans (res_v77 (launchContents m c)),
      (h c main_arg0).trans (after_of_forall_not_mem ops _ (args_kept _ (by decide))),
      (h c main_arg1).trans (after_of_forall_not_mem ops _ (args_kept _ (by decide))),
      (h c main_arg2).trans (after_of_forall_not_mem ops _ (args_kept _ (by decide))),
      (h c main_arg3).trans (after_of_forall_not_mem ops _ (args_kept _ (by decide))),
      (h c main_arg4).trans (after_of_forall_not_mem ops _ (args_kept _ (by decide))),
      (h c main_arg5).trans (after_of_forall_not_mem ops _ (args_kept _ (by decide))),
      (h c main_arg6).trans (after_of_forall_not_mem ops _ (args_kept _ (by decide))),
      (h c main_arg7).trans (after_of_forall_not_mem ops _ (args_kept _ (by decide))),
      (h c main_arg8).trans (after_of_forall_not_mem ops _ (args_kept _ (by decide)))⟩)
    (run_seq scopedRefs_eq scopedSems_eq defs main (fun _ => ops) main_eq (fun _ => ops_sub) m ρ)

end Cert.ReferenceIdeal.Run

end
-- ==== Proof.Algebra.lean ====
import Mathlib.Data.EReal.Basic
import Mathlib.Algebra.BigOperators.Fin
import Mathlib.Algebra.BigOperators.Ring.Finset

open scoped BigOperators

namespace Cert.Algebra

theorem coe_sum {ι : Type} (s : Finset ι) (g : ι → ℝ) : ((∑ i ∈ s, g i : ℝ) : EReal) = ∑ i ∈ s, (g i : EReal) := by
  induction s using Finset.cons_induction with
  | empty => simp
  | cons a s ha ih => rw [Finset.sum_cons, Finset.sum_cons, EReal.coe_add, ih]

theorem sum_mul_swap {P D : Type} [Fintype P] [Fintype D] (H : P → D → EReal) (w : D → EReal)
    (hH : ∀ p d, ∃ r : ℝ, H p d = (r : EReal)) (hw : ∀ d, ∃ r : ℝ, w d = (r : EReal)) :
    (∑ d, (0 + ∑ p, H p d) * w d) = ∑ p, ∑ d, H p d * w d := by
  choose h eh using hH
  choose v ev using hw
  simp only [eh, ev]
  have e1 : ∀ d, (0 + ∑ p, ((h p d : ℝ) : EReal)) * ((v d : ℝ) : EReal) = (((∑ p, h p d) * v d : ℝ) : EReal) := fun d => by
    rw [zero_add, ← coe_sum, ← EReal.coe_mul]
  have e2 : ∀ p, (∑ d, ((h p d : ℝ) : EReal) * ((v d : ℝ) : EReal)) = ((∑ d, h p d * v d : ℝ) : EReal) := fun p => by
    rw [coe_sum]
    exact Finset.sum_congr rfl fun d _ => (EReal.coe_mul _ _).symm
  calc (∑ d, (0 + ∑ p, ((h p d : ℝ) : EReal)) * ((v d : ℝ) : EReal))
      = ∑ d, (((∑ p, h p d) * v d : ℝ) : EReal) := Finset.sum_congr rfl fun d _ => e1 d
    _ = ((∑ d, (∑ p, h p d) * v d : ℝ) : EReal) := (coe_sum _ _).symm
    _ = ((∑ p, ∑ d, h p d * v d : ℝ) : EReal) := by
        congr 1
        simp only [Finset.sum_mul]
        exact Finset.sum_comm
    _ = ∑ p, ((∑ d, h p d * v d : ℝ) : EReal) := coe_sum _ _
    _ = ∑ p, ∑ d, ((h p d : ℝ) : EReal) * ((v d : ℝ) : EReal) := Finset.sum_congr rfl fun p _ => (e2 p).symm

theorem sum_fin256_split (f : Fin 256 → EReal) :
    (∑ k : Fin 256, f k) = (∑ d : Fin 128, f ⟨d.val, by omega⟩) + ∑ d : Fin 128, f ⟨128 + d.val, by omega⟩ :=
  Fin.sum_univ_add (a := 128) (b := 128) f

end Cert.Algebra
-- ==== Proof.RMath.lean ====
import proofs.«404205_j84782654423298_2_alg».proof.Proof.RDefs
import proofs.«404205_j84782654423298_2_alg».proof.Proof.Spec
import proofs.«404205_j84782654423298_2_alg».proof.Proof.Algebra
import Idealize.ShloMosaic.PureOps.Ideal.Laws
import Idealize.ShloMosaic.Lib.ValueIdx
import Idealize.ShloMosaic.Lib.Pipeline.Value
import Idealize.ShloMosaic.Lib.StackMember

noncomputable section

open scoped BigOperators

namespace Cert.ReferenceIdeal.Terms

open Idealize.ShloMosaic Idealize.ShloMosaic.ValueIdx
open Cert.ReferenceIdeal Cert.ReferenceIdeal.Facts₀ Cert.ReferenceIdeal.Facts

section Cat
variable {α : Type} {N : Nat}

theorem cat_cols_lo (h : Shape.Concatenates [(⟨2, ![N, 128]⟩ : Shape), ⟨2, ![N, 128]⟩] ⟨2, ![N, 256]⟩ 1)
    (a b : (⟨2, ![N, 128]⟩ : Shape).Idx → α) (n : Fin N) (d : Fin 128) :
    concatenate ⟨2, ![N, 256]⟩ 1 [⟨⟨2, ![N, 128]⟩, a⟩, ⟨⟨2, ![N, 128]⟩, b⟩] h (ix2 n (⟨d.val, by omega⟩ : Fin 256)) = a (ix2 n d) :=
  concatenate_pair_apply_left 1 a b h _ rfl (ix2 n d) (fun c => by
    match c with
    | ⟨0, _⟩ => rfl
    | ⟨1, _⟩ => rfl)

theorem cat_cols_hi (h : Shape.Concatenates [(⟨2, ![N, 128]⟩ : Shape), ⟨2, ![N, 128]⟩] ⟨2, ![N, 256]⟩ 1)
    (a b : (⟨2, ![N, 128]⟩ : Shape).Idx → α) (n : Fin N) (d : Fin 128) :
    concatenate ⟨2, ![N, 256]⟩ 1 [⟨⟨2, ![N, 128]⟩, a⟩, ⟨⟨2, ![N, 128]⟩, b⟩] h (ix2 n (⟨128 + d.val, by omega⟩ : Fin 256)) = b (ix2 n d) :=
  concatenate_pair_apply_right 1 a b h _ rfl rfl (ix2 n d) (fun c hc => by
    match c with
    | ⟨0, _⟩ => rfl
    | ⟨1, _⟩ => exact absurd rfl hc) (by show d.val + 128 = 128 + d.val; omega)

end Cat

theorem sage_dot_apply [Facts] (x nm : Vec Ideal S50000x128 .f32) (W : Vec Ideal S256x128 .f32) (n : Fin 50000) (k : Fin 128) :
    Host.dotGeneral (F := Ideal) (φ₁ := .f32) (φ₂ := .f32) dot_S50000x256_S256x128_S50000x128_1_0_0_1_n_n none
      (concatenate S50000x256 1 [⟨S50000x128, x⟩, ⟨S50000x128, nm⟩] concatenates_S50000x128_S50000x128_S50000x256_d1) W (ix2 n k)
    = (∑ d : Fin 128, x (ix2 n d) * Cert.Spec.loW W (ix2 d k)) + ∑ d : Fin 128, nm (ix2 n d) * Cert.Spec.hiW W (ix2 d k) := by
  refine (StackMember.dotGeneral_plain_apply (m := 50000) (n := 128) (k := 256) none _ W n k).trans ?_
  rw [Cert.Algebra.sum_fin256_split]
  congr 1
  · refine Finset.sum_congr rfl fun d _ => ?_
    rw [cat_cols_lo]
    rfl
  · refine Finset.sum_congr rfl fun d _ => ?_
    rw [cat_cols_hi]
    rfl

section Norm50
variable {F : FTy → Type} [FloatOps F] [Facts]

def leaky50 (v : Vec F S50000x128 .f32) : Vec F S50000x128 .f32 :=
  select (cmpf .oge v (broadcastInDim S50000x128 ![] bcast_S_S50000x128 (constant S_ .f32 0x00000000#32))) v
    (mulf (broadcastInDim S50000x128 ![] bcast_S_S50000x128 (id (constant S_ .f32 0x3E4CCCCD#32))) v)

def sumsq50 (u : Vec F S50000x128 .f32) : Vec F S50000 .f32 :=
  Host.reduceAdd (mulf u u) (constant S_ .f32 0x00000000#32) reducesTo_S50000x128_S50000_d1 h_S_

def denom50 (u : Vec F S50000x128 .f32) : Vec F S50000x128 .f32 :=
  broadcastInDim S50000x128 ![0, 1] bcast_S50000x1_S50000x128_0_1
    (maximumf (Host.sqrt (broadcastInDim S50000x1 ![0] bcast_S50000_S50000x1_0 (sumsq50 u)))
      (broadcastInDim S50000x1 ![] bcast_S_S50000x1 (constant S_ .f32 0x2B8CBCCC#32)))

def norm50 (v : Vec F S50000x128 .f32) : Vec F S50000x128 .f32 :=
  Host.divf (leaky50 v) (denom50 (leaky50 v))

theorem refSage_split (x nm : Vec F S50000x128 .f32) (W : Vec F S256x128 .f32) :
    refSage x nm W = norm50 (Host.dotGeneral dot_S50000x256_S256x128_S50000x128_1_0_0_1_n_n none
      (concatenate S50000x256 1 [⟨S50000x128, x⟩, ⟨S50000x128, nm⟩] concatenates_S50000x128_S50000x128_S50000x256_d1) W) := rfl

end Norm50

section PointReads
variable {s : Shape} {φ : FTy}

theorem hostDivf_apply (a b : FVec Ideal s φ) (i : s.Idx) : Host.divf a b i = Ideal.div (a i) (b i) := rfl
theorem hostSqrt_apply (a : FVec Ideal s φ) (i : s.Idx) : Host.sqrt a i = Ideal.sqrt (a i) := rfl
theorem bcast_lit_apply (h : S_.BroadcastsInDim s ![]) (b : BitVec φ.bits) (i : s.Idx) :
    broadcastInDim s ![] h (constant (F := Ideal) S_ φ b) i = Ideal.ofBits φ b := rfl

end PointReads

theorem leaky50_apply [Facts] (v : Vec Ideal S50000x128 .f32) (i : S50000x128.Idx) :
    leaky50 (F := Ideal) v i = Cert.Spec.lk (v i) := rfl

theorem sumsq50_apply [Facts] (u : Vec Ideal S50000x128 .f32) (n : Fin 50000) :
    sumsq50 (F := Ideal) u (ix1 n) = ∑ k : Fin 128, u (ix2 n k) * u (ix2 n k) := by
  have hR : S50000x128.Reduces [1] S50000 := by decide
  show Ideal.hostReduceAdd reducesTo_S50000x128_S50000_d1 _ (Ideal.ofBits .f32 0x00000000#32) (ix1 n) = _
  rw [Ideal.hostReduceAdd_single reducesTo_S50000x128_S50000_d1 hR, Ideal.ofBits_zero_f32, zero_add]
  refine Finset.sum_congr rfl fun (k : Fin 128) _ => ?_
  have hl : hR.lift (ix1 n) k = ix2 n k := by
    funext c; apply Fin.ext
    match c with
    | ⟨0, _⟩ => rfl
    | ⟨1, _⟩ => rfl
  rw [hl]
  rfl

theorem denom50_apply [Facts] (u : Vec Ideal S50000x128 .f32) (n : Fin 50000) (j : Fin 128) :
    denom50 (F := Ideal) u (ix2 n j)
      = max (Ideal.sqrt (∑ k : Fin 128, u (ix2 n k) * u (ix2 n k))) Cert.Spec.epsW := by
  unfold denom50
  refine (broadcastInDim_apply _ _ _ (ix2 n j) (ix2 n (0 : Fin 1)) (fun a => by
    match a with
    | ⟨0, _⟩ => rfl
    | ⟨1, _⟩ => rfl)).trans ?_
  rw [maximumf_apply, hostSqrt_apply, bcast_lit_apply, broadcastInDim_apply _ _ (sumsq50 (F := Ideal) u) (ix2 n (0 : Fin 1)) (ix1 n) (fun a => by
    match a with
    | ⟨0, _⟩ => rfl), sumsq50_apply]

theorem norm50_apply [Facts] (v : Vec Ideal S50000x128 .f32) (n : Fin 50000) (j : Fin 128) :
    norm50 (F := Ideal) v (ix2 n j) = Cert.Spec.post (fun k => v (ix2 n k)) j := by
  unfold norm50
  rw [hostDivf_apply, denom50_apply]
  rfl

theorem refSage_eq [Facts] (x nm : Vec Ideal S50000x128 .f32) (W : Vec Ideal S256x128 .f32) :
    refSage (F := Ideal) x nm W = Cert.Spec.sageOut x nm W := by
  funext i
  obtain ⟨n, j, rfl⟩ : ∃ (n : Fin 50000) (j : Fin 128), i = ix2 n j := ⟨i 0, i 1, eq_ix2 i⟩
  rw [refSage_split, norm50_apply]
  show Cert.Spec.post _ j = Cert.Spec.post _ j
  congr 1
  funext k
  exact sage_dot_apply x nm W n k

end Cert.ReferenceIdeal.Terms

end
-- ==== Proof.RMathMean.lean ====
import proofs.«404205_j84782654423298_2_alg».proof.Proof.RDefs
import proofs.«404205_j84782654423298_2_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.Terms

open Idealize.ShloMosaic Idealize.ShloMosaic.ValueIdx
open Cert.ReferenceIdeal Cert.ReferenceIdeal.Facts₀ Cert.ReferenceIdeal.Facts

abbrev rowsDims (K : Nat)
    (wf : GatherDims.WF S50000x128 ⟨3, ![50000, K, 1]⟩ ⟨3, ![50000, K, 128]⟩ [2] [0] [] [0] [] 2 ![1, 128]) :
    GatherDims S50000x128 ⟨3, ![50000, K, 1]⟩ ⟨3, ![50000, K, 128]⟩ where
  offsetDims := [2]
  collapsedSliceDims := [0]
  operandBatchingDims := []
  startIndicesBatchingDims := []
  startIndexMap := [0]
  indexVectorDim := 2
  sliceSizes := ![1, 128]
  wf := wf

section Rows
variable {α : Type} {K w : Nat}
  (wf : GatherDims.WF S50000x128 ⟨3, ![50000, K, 1]⟩ ⟨3, ![50000, K, 128]⟩ [2] [0] [] [0] [] 2 ![1, 128])

theorem rows_axis0 (idx : IVec ⟨3, ![50000, K, 1]⟩ w) (n : Fin 50000) (k : Fin K) (c : Fin 128) :
    ((rowsDims K wf).operandIdx (ix3 n k c) idx (0 : Fin 2)).val
      = min (idx (ix3 n k (0 : Fin 1))).toInt.toNat 49999 := by
  show (rowsDims K wf).start (ix3 n k c) idx 0 + (rowsDims K wf).batchCoord (ix3 n k c) 0
      + (rowsDims K wf).offCoord (ix3 n k c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims K wf).startIndexMap from List.mem_singleton.mpr rfl)]
  have hsi : (rowsDims K wf).siIdx (ix3 n k c) ⟨List.idxOf (0 : Fin 2) (rowsDims K wf).startIndexMap,
      List.idxOf_lt_length_iff.2 (List.mem_singleton.mpr rfl)⟩ = ix3 n k (0 : Fin 1) := by
    funext b; refine Fin.ext ?_
    match b with
    | ⟨0, _⟩ => rfl
    | ⟨1, _⟩ => rfl
    | ⟨2, _⟩ => rfl
  rw [hsi]
  rfl

theorem rows_axis1 (idx : IVec ⟨3, ![50000, K, 1]⟩ w) (n : Fin 50000) (k : Fin K) (c : Fin 128) :
    ((rowsDims K wf).operandIdx (ix3 n k c) idx (1 : Fin 2)).val = c.val := by
  show (rowsDims K wf).start (ix3 n k c) idx 1 + (rowsDims K wf).batchCoord (ix3 n k c) 1
      + (rowsDims K wf).offCoord (ix3 n k c) 1 = _
  rw [GatherDims.batchCoord_eq_zero _ _ _ List.not_mem_nil]
  unfold GatherDims.start
  rw [dif_neg (show ¬ (1 : Fin 2) ∈ ([0] : List (Fin 2)) by decide)]
  simp only [Nat.add_zero, Nat.zero_add]
  unfold GatherDims.offCoord
  rw [dif_pos (show (1 : Fin 2) ∈ S50000x128.kept ([0] ++ []) by decide)]
  rfl

theorem rows_apply (x : S50000x128.Idx → α) (idx : IVec ⟨3, ![50000, K, 1]⟩ w) (n : Fin 50000) (k : Fin K) (c : Fin 128) :
    Host.gather (rowsDims K wf) x idx (ix3 n k c)
      = x (ix2 ⟨min (idx (ix3 n k (0 : Fin 1))).toInt.toNat 49999, by omega⟩ c) := by
  unfold Host.gather
  congr 1
  funext a
  refine Fin.ext ?_
  match a with
  | ⟨0, _⟩ => exact rows_axis0 wf idx n k c
  | ⟨1, _⟩ => exact rows_axis1 wf idx n k c

end Rows

theorem refMean25_eq [Facts] (X : Vec Ideal S50000x128 .f32) (I : IVec S50000x25 32) :
    refMean25 (F := Ideal) X I = Cert.Spec.meanArr 25 Cert.Spec.w25 X I := by
  funext i
  obtain ⟨n, d, rfl⟩ : ∃ (n : Fin 50000) (d : Fin 128), i = ix2 n d := ⟨i 0, i 1, eq_ix2 i⟩
  have hR : S50000x25x128.Reduces [1] S50000x128 := by decide
  show Ideal.div (Ideal.hostReduceAdd reducesTo_S50000x25x128_S50000x128_d1 _ (Ideal.ofBits .f32 0x00000000#32) (ix2 n d))
      (Ideal.ofBits .f32 0x41C80000#32) = Ideal.div (∑ k : Fin 25, X (ix2 (Cert.Spec.rowOf (I (ix2 n k))) d)) Cert.Spec.w25
  rw [Ideal.hostReduceAdd_single reducesTo_S50000x25x128_S50000x128_d1 hR, Ideal.ofBits_zero_f32, zero_add]
  congr 1
  refine Finset.sum_congr rfl fun (k : Fin 25) _ => ?_
  have hl : hR.lift (ix2 n d) k = ix3 n k d := by
    funext c; apply Fin.ext
    match c with
    | ⟨0, _⟩ => rfl
    | ⟨1, _⟩ => rfl
    | ⟨2, _⟩ => rfl
  rw [hl]
  refine (rows_apply gather_S50000x128_S50000x25x1_S50000x25x128_2_0_n_n_0_2_1128_wf X _ n k d).trans ?_
  have hb : broadcastInDim S50000x25x1 ![0, 1] bcast_S50000x25_S50000x25x1_0_1
      (select (cmpi CmpIPredicate.slt I (broadcastInDim S50000x25 ![] bcast_S_S50000x25 (constantI S_ 32 0#32)))
        (addi I (broadcastInDim S50000x25 ![] bcast_S_S50000x25 (constantI S_ 32 50000#32))) I) (ix3 n k 0)
      = Cert.Spec.nrm (I (ix2 n k)) :=
    broadcastInDim_apply _ _ _ _ (ix2 n k) (fun a => by
      match a with
      | ⟨0, _⟩ => rfl
      | ⟨1, _⟩ => rfl)
  simp only [hb]
  rfl

theorem refMean10_eq [Facts] (X : Vec Ideal S50000x128 .f32) (I : IVec S50000x10 32) :
    refMean10 (F := Ideal) X I = Cert.Spec.meanArr 10 Cert.Spec.w10 X I := by
  funext i
  obtain ⟨n, d, rfl⟩ : ∃ (n : Fin 50000) (d : Fin 128), i = ix2 n d := ⟨i 0, i 1, eq_ix2 i⟩
  have hR : S50000x10x128.Reduces [1] S50000x128 := by decide
  show Ideal.div (Ideal.hostReduceAdd reducesTo_S50000x10x128_S50000x128_d1 _ (Ideal.ofBits .f32 0x00000000#32) (ix2 n d))
      (Ideal.ofBits .f32 0x41200000#32) = Ideal.div (∑ k : Fin 10, X (ix2 (Cert.Spec.rowOf (I (ix2 n k))) d)) Cert.Spec.w10
  rw [Ideal.hostReduceAdd_single reducesTo_S50000x10x128_S50000x128_d1 hR, Ideal.ofBits_zero_f32, zero_add]
  congr 1
  refine Finset.sum_congr rfl fun (k : Fin 10) _ => ?_
  have hl : hR.lift (ix2 n d) k = ix3 n k d := by
    funext c; apply Fin.ext
    match c with
    | ⟨0, _⟩ => rfl
    | ⟨1, _⟩ => rfl
    | ⟨2, _⟩ => rfl
  rw [hl]
  refine (rows_apply gather_S50000x128_S50000x10x1_S50000x10x128_2_0_n_n_0_2_1128_wf X _ n k d).trans ?_
  have hb : broadcastInDim S50000x10x1 ![0, 1] bcast_S50000x10_S50000x10x1_0_1
      (select (cmpi CmpIPredicate.slt I (broadcastInDim S50000x10 ![] bcast_S_S50000x10 (constantI S_ 32 0#32)))
        (addi I (broadcastInDim S50000x10 ![] bcast_S_S50000x10 (constantI S_ 32 50000#32))) I) (ix3 n k 0)
      = Cert.Spec.nrm (I (ix2 n k)) :=
    broadcastInDim_apply _ _ _ _ (ix2 n k) (fun a => by
      match a with
      | ⟨0, _⟩ => rfl
      | ⟨1, _⟩ => rfl)
  simp only [hb]
  rfl

end Cert.ReferenceIdeal.Terms

end
-- ==== Proof.RMathTemp.lean ====
import proofs.«404205_j84782654423298_2_alg».proof.Proof.RDefs
import proofs.«404205_j84782654423298_2_alg».proof.Proof.Spec
import proofs.«404205_j84782654423298_2_alg».proof.Proof.Algebra
import Idealize.ShloMosaic.PureOps.Ideal.Laws
import Idealize.ShloMosaic.Lib.ValueIdx
import Idealize.ShloMosaic.Lib.Pipeline.Value
import Idealize.ShloMosaic.Lib.StackMember

set_option maxRecDepth 16384

noncomputable section

open scoped BigOperators

namespace Cert.ReferenceIdeal.Terms

open Idealize.ShloMosaic Idealize.ShloMosaic.ValueIdx
open Cert.ReferenceIdeal Cert.ReferenceIdeal.Facts₀ Cert.ReferenceIdeal.Facts

section Pieces
variable {F : FTy → Type} [FloatOps F] [Facts]

def tempLeaky (v : Vec F S20000x128 .f32) : Vec F S20000x128 .f32 :=
  select (cmpf .oge v (broadcastInDim S20000x128 ![] bcast_S_S20000x128 (constant S_ .f32 0x00000000#32))) v
    (mulf (broadcastInDim S20000x128 ![] bcast_S_S20000x128 (id (constant S_ .f32 0x3E4CCCCD#32))) v)

def tempSumsq (u : Vec F S20000x128 .f32) : Vec F S20000 .f32 :=
  Host.reduceAdd (mulf u u) (constant S_ .f32 0x00000000#32) reducesTo_S20000x128_S20000_d1 h_S_

def tempDenom (u : Vec F S20000x128 .f32) : Vec F S20000x128 .f32 :=
  broadcastInDim S20000x128 ![0, 1] bcast_S20000x1_S20000x128_0_1
    (maximumf (Host.sqrt (broadcastInDim S20000x1 ![0] bcast_S20000_S20000x1_0 (tempSumsq u)))
      (broadcastInDim S20000x1 ![] bcast_S_S20000x1 (constant S_ .f32 0x2B8CBCCC#32)))

def tempNorm (v : Vec F S20000x128 .f32) : Vec F S20000x128 .f32 :=
  Host.divf (tempLeaky v) (tempDenom (tempLeaky v))

def tempTf (H : Vec F S3x20000x128 .f32) (Wh : Vec F S128x128 .f32) : Vec F S20000x128 .f32 :=
  Host.divf
    (Host.dotGeneral dot_S20000x128_S128x128_S20000x128_1_0_0_1_n_n none
      (Host.reduceAdd H (constant S_ .f32 0x00000000#32) reducesTo_S3x20000x128_S20000x128_d0 h_S_) Wh)
    (broadcastInDim S20000x128 ![] bcast_S_S20000x128 (constant S_ .f32 0x40400000#32))

theorem refTemp_split (h : Vec F S50000x128 .f32) (H : Vec F S3x20000x128 .f32) (Wh : Vec F S128x128 .f32)
    (WT : Vec F S256x128 .f32) :
    refTemp h H Wh WT
      = concatenate S50000x128 0
          [⟨S20000x128, tempNorm (Host.dotGeneral dot_S20000x256_S256x128_S20000x128_1_0_0_1_n_n none
              (concatenate S20000x256 1
                [⟨S20000x128, extractStridedSlice S20000x128 ![0, 0] h slices_S50000x128_S20000x128_0_0⟩,
                 ⟨S20000x128, tempTf H Wh⟩] concatenates_S20000x128_S20000x128_S20000x256_d1) WT)⟩,
           ⟨S30000x128, extractStridedSlice S30000x128 ![20000, 0] h slices_S50000x128_S30000x128_20000_0⟩]
          concatenates_S20000x128_S30000x128_S50000x128_d0 := rfl

end Pieces

section Layout
variable {α : Type}

theorem tempCols_lo (hc : Shape.Concatenates [S20000x128, S20000x128] S20000x256 1)
    (a b : S20000x128.Idx → α) (n : Fin 20000) (d : Fin 128) :
    concatenate S20000x256 1 [⟨S20000x128, a⟩, ⟨S20000x128, b⟩] hc (ix2 n (⟨d.val, by omega⟩ : Fin 256)) = a (ix2 n d) :=
  concatenate_pair_apply_left 1 a b hc _ rfl (ix2 n d) (fun c => by
    match c with
    | ⟨0, _⟩ => rfl
    | ⟨1, _⟩ => rfl)

theorem tempCols_hi (hc : Shape.Concatenates [S20000x128, S20000x128] S20000x256 1)
    (a b : S20000x128.Idx → α) (n : Fin 20000) (d : Fin 128) :
    concatenate S20000x256 1 [⟨S20000x128, a⟩, ⟨S20000x128, b⟩] hc (ix2 n (⟨128 + d.val, by omega⟩ : Fin 256)) = b (ix2 n d) :=
  concatenate_pair_apply_right 1 a b hc _ rfl rfl (ix2 n d) (fun c hne => by
    match c with
    | ⟨0, _⟩ => rfl
    | ⟨1, _⟩ => exact absurd rfl hne) (by show d.val + 128 = 128 + d.val; omega)

theorem tempRows_lo (hc : Shape.Concatenates [S20000x128, S30000x128] S50000x128 0)
    (a : S20000x128.Idx → α) (b : S30000x128.Idx → α) (n : Fin 50000) (j : Fin 128) (hlt : n.val < 20000) :
    concatenate S50000x128 0 [⟨S20000x128, a⟩, ⟨S30000x128, b⟩] hc (ix2 n j) = a (ix2 (⟨n.val, hlt⟩ : Fin 20000) j) :=
  concatenate_pair_apply_left 0 a b hc _ rfl (ix2 (⟨n.val, hlt⟩ : Fin 20000) j) (fun c => by
    match c with
    | ⟨0, _⟩ => rfl
    | ⟨1, _⟩ => rfl)

theorem tempRows_hi (hc : Shape.Concatenates [S20000x128, S30000x128] S50000x128 0)
    (a : S20000x128.Idx → α) (b : S30000x128.Idx → α) (n : Fin 50000) (j : Fin 128) (hge : 20000 ≤ n.val) :
    concatenate S50000x128 0 [⟨S20000x128, a⟩, ⟨S30000x128, b⟩] hc (ix2 n j)
      = b (ix2 (⟨n.val - 20000, by have := n.isLt; omega⟩ : Fin 30000) j) :=
  concatenate_pair_apply_right 0 a b hc _ rfl rfl (ix2 (⟨n.val - 20000, by have := n.isLt; omega⟩ : Fin 30000) j)
    (fun c hne => by
      match c with
      | ⟨0, _⟩ => exact absurd rfl hne
      | ⟨1, _⟩ => rfl) (by show n.val - 20000 + 20000 = n.val; omega)

theorem tempSlice_lo (hs : S50000x128.Slices ![0, 0] S20000x128) (x : S50000x128.Idx → α) (n : Fin 20000) (j : Fin 128) :
    extractStridedSlice S20000x128 ![0, 0] x hs (ix2 n j) = x (ix2 (⟨n.val, by have := n.isLt; omega⟩ : Fin 50000) j) :=
  extractStridedSlice_apply _ x hs _ _ (fun a => by
    match a with
    | ⟨0, _⟩ => show n.val = 0 + n.val; omega
    | ⟨1, _⟩ => show j.val = 0 + j.val; omega)

theorem tempSlice_hi (hs : S50000x128.Slices ![20000, 0] S30000x128) (x : S50000x128.Idx → α) (n : Fin 30000) (j : Fin 128) :
    extractStridedSlice S30000x128 ![20000, 0] x hs (ix2 n j) = x (ix2 (⟨20000 + n.val, by have := n.isLt; omega⟩ : Fin 50000) j) :=
  extractStridedSlice_apply _ x hs _ _ (fun a => by
    match a with
    | ⟨0, _⟩ => rfl
    | ⟨1, _⟩ => show j.val = 0 + j.val; omega)

end Layout

section PointReads
variable {s : Shape} {φ : FTy}

theorem tempDivf_apply (a b : FVec Ideal s φ) (i : s.Idx) : Host.divf a b i = Ideal.div (a i) (b i) := rfl
theorem tempSqrt_apply (a : FVec Ideal s φ) (i : s.Idx) : Host.sqrt a i = Ideal.sqrt (a i) := rfl
theorem tempLit_apply (h : S_.BroadcastsInDim s ![]) (b : BitVec φ.bits) (i : s.Idx) :
    broadcastInDim s ![] h (constant (F := Ideal) S_ φ b) i = Ideal.ofBits φ b := rfl

end PointReads

variable [Facts]

theorem tempLeaky_apply (v : Vec Ideal S20000x128 .f32) (i : S20000x128.Idx) :
    tempLeaky (F := Ideal) v i = Cert.Spec.lk (v i) := rfl

theorem tempSumsq_apply (u : Vec Ideal S20000x128 .f32) (n : Fin 20000) :
    tempSumsq (F := Ideal) u (ix1 n) = ∑ k : Fin 128, u (ix2 n k) * u (ix2 n k) := by
  have hR : S20000x128.Reduces [1] S20000 := by decide
  show Ideal.hostReduceAdd reducesTo_S20000x128_S20000_d1 _ (Ideal.ofBits .f32 0x00000000#32) (ix1 n) = _
  rw [Ideal.hostReduceAdd_single reducesTo_S20000x128_S20000_d1 hR, Ideal.ofBits_zero_f32, zero_add]
  refine Finset.sum_congr rfl fun (k : Fin 128) _ => ?_
  have hl : hR.lift (ix1 n) k = ix2 n k := by
    funext c; apply Fin.ext
    match c with
    | ⟨0, _⟩ => rfl
    | ⟨1, _⟩ => rfl
  rw [hl]
  rfl

theorem tempDenom_apply (u : Vec Ideal S20000x128 .f32) (n : Fin 20000) (j : Fin 128) :
    tempDenom (F := Ideal) u (ix2 n j)
      = max (Ideal.sqrt (∑ k : Fin 128, u (ix2 n k) * u (ix2 n k))) Cert.Spec.epsW := by
  unfold tempDenom
  refine (broadcastInDim_apply _ _ _ (ix2 n j) (ix2 n (0 : Fin 1)) (fun a => by
    match a with
    | ⟨0, _⟩ => rfl
    | ⟨1, _⟩ => rfl)).trans ?_
  rw [maximumf_apply, tempSqrt_apply, tempLit_apply,
    broadcastInDim_apply _ _ (tempSumsq (F := Ideal) u) (ix2 n (0 : Fin 1)) (ix1 n) (fun a => by
      match a with
      | ⟨0, _⟩ => rfl), tempSumsq_apply]

theorem tempNorm_apply (v : Vec Ideal S20000x128 .f32) (n : Fin 20000) (j : Fin 128) :
    tempNorm (F := Ideal) v (ix2 n j) = Cert.Spec.post (fun k => v (ix2 n k)) j := by
  unfold tempNorm
  rw [tempDivf_apply, tempDenom_apply]
  rfl

theorem tempHist_apply (H : Vec Ideal S3x20000x128 .f32) (n : Fin 20000) (d : Fin 128) :
    Host.reduceAdd (F := Ideal) H (constant S_ .f32 0x00000000#32) reducesTo_S3x20000x128_S20000x128_d0 h_S_ (ix2 n d)
      = 0 + ∑ p : Fin 3, H (ix3 p n d) := by
  have hR : S3x20000x128.Reduces [0] S20000x128 := by decide
  show Ideal.hostReduceAdd reducesTo_S3x20000x128_S20000x128_d0 H (Ideal.ofBits .f32 0x00000000#32) (ix2 n d) = _
  rw [Ideal.hostReduceAdd_single reducesTo_S3x20000x128_S20000x128_d0 hR, Ideal.ofBits_zero_f32]
  refine congrArg (fun x => (0 : EReal) + x) (Finset.sum_congr rfl fun (p : Fin 3) _ => ?_)
  have hl : hR.lift (ix2 n d) p = ix3 p n d := by
    funext c; apply Fin.ext
    match c with
    | ⟨0, _⟩ => rfl
    | ⟨1, _⟩ => rfl
    | ⟨2, _⟩ => rfl
  rw [hl]

theorem tempTf_apply (H : Vec Ideal S3x20000x128 .f32) (Wh : Vec Ideal S128x128 .f32)
    (hH : ∀ i, ∃ r : ℝ, H i = (r : EReal)) (hWh : ∀ i, ∃ r : ℝ, Wh i = (r : EReal)) (n : Fin 20000) (e : Fin 128) :
    tempTf (F := Ideal) H Wh (ix2 n e) = Cert.Spec.tfAt H Wh n e := by
  have e : Host.dotGeneral (F := Ideal) (φ₁ := .f32) (φ₂ := .f32) dot_S20000x128_S128x128_S20000x128_1_0_0_1_n_n none
      (Host.reduceAdd (F := Ideal) H (constant S_ .f32 0x00000000#32) reducesTo_S3x20000x128_S20000x128_d0 h_S_) Wh (ix2 n e)
      = ∑ p : Fin 3, ∑ d : Fin 128, H (ix3 p n d) * Wh (ix2 d e) := by
    refine (StackMember.dotGeneral_plain_apply (m := 20000) (n := 128) (k := 128) none _ Wh n e).trans ?_
    simp only [tempHist_apply]
    exact Cert.Algebra.sum_mul_swap (fun p d => H (ix3 p n d)) (fun d => Wh (ix2 d e)) (fun p d => hH _) (fun d => hWh _)
  unfold tempTf Cert.Spec.tfAt
  rw [tempDivf_apply, tempLit_apply, e]

theorem tempDot_apply (a b : Vec Ideal S20000x128 .f32) (WT : Vec Ideal S256x128 .f32) (n : Fin 20000) (k : Fin 128) :
    Host.dotGeneral (F := Ideal) (φ₁ := .f32) (φ₂ := .f32) dot_S20000x256_S256x128_S20000x128_1_0_0_1_n_n none
      (concatenate S20000x256 1 [⟨S20000x128, a⟩, ⟨S20000x128, b⟩] concatenates_S20000x128_S20000x128_S20000x256_d1) WT (ix2 n k)
    = (∑ d : Fin 128, a (ix2 n d) * Cert.Spec.loW WT (ix2 d k)) + ∑ d : Fin 128, b (ix2 n d) * Cert.Spec.hiW WT (ix2 d k) := by
  refine (StackMember.dotGeneral_plain_apply (m := 20000) (n := 128) (k := 256) none _ WT n k).trans ?_
  rw [Cert.Algebra.sum_fin256_split]
  refine congrArg₂ (· + ·) (Finset.sum_congr rfl fun d _ => ?_) (Finset.sum_congr rfl fun d _ => ?_)
  · rw [tempCols_lo]
    rfl
  · rw [tempCols_hi]
    rfl

theorem tempK_lo (h : Cert.Spec.Mat 50000 128) (H : Cert.Spec.Ten 3 20000 128) (Wh wta wtb : Cert.Spec.Mat 128 128)
    (n : Fin 50000) (j : Fin 128) (hlt : n.val < 20000) :
    Cert.Spec.tempK h H Wh wta wtb (ix2 n j)
      = Cert.Spec.post (fun k => (∑ d : Fin 128, h (ix2 n d) * wta (ix2 d k))
          + (∑ d : Fin 128, Cert.Spec.tfAt H Wh ⟨n.val, hlt⟩ d * wtb (ix2 d k))) j :=
  dif_pos hlt

theorem tempK_hi (h : Cert.Spec.Mat 50000 128) (H : Cert.Spec.Ten 3 20000 128) (Wh wta wtb : Cert.Spec.Mat 128 128)
    (n : Fin 50000) (j : Fin 128) (hge : ¬ n.val < 20000) :
    Cert.Spec.tempK h H Wh wta wtb (ix2 n j) = h (ix2 n j) :=
  dif_neg hge

theorem refTemp_eq (h : Vec Ideal S50000x128 .f32) (H : Vec Ideal S3x20000x128 .f32) (Wh : Vec Ideal S128x128 .f32)
    (WT : Vec Ideal S256x128 .f32) (hH : ∀ i, ∃ r : ℝ, H i = (r : EReal)) (hWh : ∀ i, ∃ r : ℝ, Wh i = (r : EReal)) :
    refTemp (F := Ideal) h H Wh WT = Cert.Spec.tempOut h H Wh WT := by
  funext i
  obtain ⟨n, j, rfl⟩ : ∃ (n : Fin 50000) (j : Fin 128), i = ix2 n j := ⟨i 0, i 1, eq_ix2 i⟩
  rw [refTemp_split]
  show _ = Cert.Spec.tempK h H Wh (Cert.Spec.loW WT) (Cert.Spec.hiW WT) (ix2 n j)
  by_cases hlt : n.val < 20000
  · rw [tempRows_lo _ _ _ n j hlt, tempNorm_apply, tempK_lo _ _ _ _ _ n j hlt]
    refine congrArg (fun p => Cert.Spec.post p j) (funext fun k => ?_)
    rw [tempDot_apply]
    refine congrArg₂ (· + ·) (Finset.sum_congr rfl fun d _ => ?_) (Finset.sum_congr rfl fun d _ => ?_)
    · rw [tempSlice_lo]
    · rw [tempTf_apply H Wh hH hWh]
  · rw [tempRows_hi _ _ _ n j (by omega), tempSlice_hi, tempK_hi _ _ _ _ _ n j hlt]
    refine congrArg h (funext fun a => ?_)
    apply Fin.ext
    match a with
    | ⟨0, _⟩ => show 20000 + (n.val - 20000) = n.val; omega
    | ⟨1, _⟩ => rfl

end Cert.ReferenceIdeal.Terms

end
-- ==== Proof.RValue.lean ====
import proofs.«404205_j84782654423298_2_alg».proof.Proof.Spec
import proofs.«404205_j84782654423298_2_alg».proof.Proof.RDefs
import proofs.«404205_j84782654423298_2_alg».proof.Proof.RMath
import proofs.«404205_j84782654423298_2_alg».proof.Proof.RMathMean
import proofs.«404205_j84782654423298_2_alg».proof.Proof.RMathTemp

noncomputable section

namespace Cert.ReferenceIdeal.Results

open Cert.ReferenceIdeal Idealize.ShloMosaic

variable [Facts]

variable (X : Vec Ideal S50000x128 .f32) (I1 : IVec S50000x25 32) (I2 : IVec S50000x10 32) (H1 H2 : Vec Ideal S3x20000x128 .f32)
  (W1 W2 : Vec Ideal S256x128 .f32) (Wh : Vec Ideal S128x128 .f32) (WT : Vec Ideal S256x128 .f32)

theorem r_h1 : Terms.refSage X (Terms.refMean25 X I1) W1 = Cert.Spec.resH1 X I1 W1 := by
  rw [Terms.refMean25_eq, Terms.refSage_eq]; rfl

theorem r_c1 (hH1 : ∀ i, ∃ r : ℝ, H1 i = (r : EReal)) (hWh : ∀ i, ∃ r : ℝ, Wh i = (r : EReal)) :
    Terms.refTemp (Terms.refSage X (Terms.refMean25 X I1) W1) H1 Wh WT = Cert.Spec.resC1 X I1 H1 W1 Wh WT := by
  rw [r_h1, Terms.refTemp_eq _ _ _ _ hH1 hWh]; rfl

theorem r_h2 (hH1 : ∀ i, ∃ r : ℝ, H1 i = (r : EReal)) (hWh : ∀ i, ∃ r : ℝ, Wh i = (r : EReal)) :
    Terms.refSage (Terms.refTemp (Terms.refSage X (Terms.refMean25 X I1) W1) H1 Wh WT)
        (Terms.refMean10 (Terms.refTemp (Terms.refSage X (Terms.refMean25 X I1) W1) H1 Wh WT) I2) W2
      = Cert.Spec.resH2 X I1 I2 H1 W1 W2 Wh WT := by
  rw [r_c1 X I1 H1 W1 Wh WT hH1 hWh, Terms.refMean10_eq, Terms.refSage_eq]; rfl

theorem r_feat (hH1 : ∀ i, ∃ r : ℝ, H1 i = (r : EReal)) (hH2 : ∀ i, ∃ r : ℝ, H2 i = (r : EReal)) (hWh : ∀ i, ∃ r : ℝ, Wh i = (r : EReal)) :
    Terms.refTemp
        (Terms.refSage (Terms.refTemp (Terms.refSage X (Terms.refMean25 X I1) W1) H1 Wh WT)
          (Terms.refMean10 (Terms.refTemp (Terms.refSage X (Terms.refMean25 X I1) W1) H1 Wh WT) I2) W2)
        H2 Wh WT
      = Cert.Spec.resFeat X I1 I2 H1 H2 W1 W2 Wh WT := by
  rw [r_h2 X I1 I2 H1 W1 W2 Wh WT hH1 hWh, Terms.refTemp_eq _ _ _ _ hH2 hWh]; rfl

end Cert.ReferenceIdeal.Results

end
-- ==== Proof.lean ====
import proofs.«404205_j84782654423298_2_alg».proof.Defs
import proofs.«404205_j84782654423298_2_alg».proof.Proof.Gen.Kernel
import proofs.«404205_j84782654423298_2_alg».proof.Proof.Gen.Kernel.Skeleton
import proofs.«404205_j84782654423298_2_alg».proof.Proof.Gen.Kernel.Launch
import proofs.«404205_j84782654423298_2_alg».proof.Proof.Gen.Kernel.Points
import proofs.«404205_j84782654423298_2_alg».proof.Proof.Gen.Kernel.Frame
import proofs.«404205_j84782654423298_2_alg».proof.Proof.Gen.KernelIdeal
import proofs.«404205_j84782654423298_2_alg».proof.Proof.Gen.KernelIdeal.Skeleton
import proofs.«404205_j84782654423298_2_alg».proof.Proof.Gen.KernelIdeal.Launch
import proofs.«404205_j84782654423298_2_alg».proof.Proof.Gen.KernelIdeal.Points
import proofs.«404205_j84782654423298_2_alg».proof.Proof.Gen.KernelIdeal.Frame
import proofs.«404205_j84782654423298_2_alg».proof.Proof.Gen.ReferenceIdeal
import proofs.«404205_j84782654423298_2_alg».proof.Proof.Gen.Pre_finite_inputs
import proofs.«404205_j84782654423298_2_alg».proof.Proof.Spec
import proofs.«404205_j84782654423298_2_alg».proof.Proof.PreFacts
import proofs.«404205_j84782654423298_2_alg».proof.Proof.KRun
import proofs.«404205_j84782654423298_2_alg».proof.Proof.KFold
import proofs.«404205_j84782654423298_2_alg».proof.Proof.KValue
import proofs.«404205_j84782654423298_2_alg».proof.Proof.RRun
import proofs.«404205_j84782654423298_2_alg».proof.Proof.RValue
import Idealize.ShloMosaic.Adequacy
import Idealize.ShloMosaic.Init

noncomputable section

namespace Cert.Proof

open Idealize.ShloMosaic Idealize.SL.Sem

-- Both programs end at the specification's three results of the shared arguments: the kernel through its four
-- regions and the contents of @main's buffers between them, the reference through its run.
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2)
    (Cert.ReferenceIdeal.Run.run m ρ),
  trivial,
  fun m ρ m' ρ' hpre hagree => by
    have hP := fun c => Cert.PreFacts.of_pre _ _ _ _ _ _ _ _ _ (hpre c)
    refine ⟨fun c => Cert.Spec.resH1 (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg5)),
      fun c => Cert.Spec.resH2 (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)),
      fun c => Cert.Spec.resFeat (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)),
      ?_, ?_⟩
    · exact (θ_run Cert.KernelIdeal.defs _ _).mono (fun r h c =>
        ⟨(h c).1.trans ((Cert.KernelIdeal.Fold.res_v110 m ρ c).trans (Cert.KernelIdeal.Results.h1_arr m ρ c (hP c).1)),
         (h c).2.1.trans ((Cert.KernelIdeal.Fold.res_v156 m ρ c).trans (Cert.KernelIdeal.Results.h2_arr m ρ c (hP c).1 (hP c).2.1)),
         (h c).2.2.1.trans ((Cert.KernelIdeal.Fold.res_v157 m ρ c).trans (Cert.KernelIdeal.Results.feat_arr m ρ c (hP c).1 (hP c).2.1)),
         (h c).2.2.2⟩) (Cert.KernelIdeal.Run.run_results m ρ)
    · exact (θ_run Cert.ReferenceIdeal.defs _ _).mono (fun r h c => by
        obtain ⟨e0, e1, e2, e3, e4, e5, e6, e7, e8⟩ := hagree c
        obtain ⟨-, -, hH1, hH2, hWh⟩ := hP c
        refine ⟨?_, ?_, ?_, (h c).2.2.2⟩
        · rw [(h c).1, Cert.ReferenceIdeal.Results.r_h1, e0, e1, e5]
        · rw [(h c).2.1, Cert.ReferenceIdeal.Results.r_h2 _ _ _ _ _ _ _ _ (by rw [e3]; exact hH1) (by rw [e7]; exact hWh), e0, e1, e2, e3, e5, e6, e7, e8]
        · rw [(h c).2.2.1, Cert.ReferenceIdeal.Results.r_feat _ _ _ _ _ _ _ _ _ (by rw [e3]; exact hH1) (by rw [e4]; exact hH2) (by rw [e7]; exact hWh), e0, e1, e2, e3, e4, e5, e6, e7, e8])
        (Cert.ReferenceIdeal.Run.run m' ρ')⟩

end Cert.Proof

end
